-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x640000 : Shape := ⟨2, ![1, 640000]⟩
abbrev S640000 : Shape := ⟨1, ![640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : IVec S1x640000 32 := (extractStridedSlice S1x640000 ![0, 0] · slices_S2x640000_S1x640000_0_0) main_arg1
  let main_v55 : IVec S640000 32 := shapeCast S640000 main_v54 shapeCasts_S1x640000_S640000
  let main_c_20 : IVec S_ 32 := constantI S_ 32 0#32
  let main_v56 : IVec S640000 32 := broadcastInDim S640000 ![] bcast_S_S640000 main_c_20
  let main_v57 : IVec S640000 1 := cmpi .sge main_v55 main_v56
  let main_c_21 : IVec S_ 1 := constantI S_ 1 1#1
  let main_v58 : IVec S_ 1 := (fun x v => Host.reduce IntOp.andi x v reducesTo_S640000_S_d0 h_S_) main_v57 main_c_21
  let main_v59 : IVec S_ 1 := andi main_v53 main_v58
  let main_v60 : IVec S1x640000 32 := (extractStridedSlice S1x640000 ![0, 0] · slices_S2x640000_S1x640000_0_0) main_arg1
  let main_v61 : IVec S640000 32 := shapeCast S640000 main_v60 shapeCasts_S1x640000_S640000
  let main_c_22 : IVec S_ 32 := constantI S_ 32 50000#32
  let main_v62 : IVec S640000 32 := broadcastInDim S640000 ![] bcast_S_S640000 main_c_22
  let main_v63 : IVec S640000 1 := cmpi .slt main_v61 main_v62
  let main_c_23 : IVec S_ 1 := constantI S_ 1 1#1
  let main_v64 : IVec S_ 1 := (fun x v => Host.reduce IntOp.andi x v reducesTo_S640000_S_d0 h_S_) main_v63 main_c_23
  let main_v65 : IVec S_ 1 := andi main_v59 main_v64
  main_v65

def fn_part2 {F : FTy → Type} [FloatOps F] (main_arg1 : IVec S2x640000 32) (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg1 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S640000x128 : Shape := ⟨2, ![640000, 128]⟩
abbrev S2000x128 : Shape := ⟨2, ![2000, 128]⟩
abbrev S1x3200 : Shape := ⟨2, ![1, 3200]⟩
abbrev S3200x128 : Shape := ⟨2, ![3200, 128]⟩
abbrev S2000x1 : Shape := ⟨2, ![2000, 1]⟩
abbrev S2000x3200 : Shape := ⟨2, ![2000, 3200]⟩
abbrev S1x128 : Shape := ⟨2, ![1, 128]⟩
abbrev S2000 : Shape := ⟨1, ![2000]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩
abbrev S5000 : Shape := ⟨1, ![5000]⟩
abbrev S5000x1 : Shape := ⟨2, ![5000, 1]⟩

abbrev nBuf : Space → Nat
  | .hbm => 33
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000x128, .bf16⟩
  | .hbm, ⟨19, _⟩ => ⟨S1x128, .f32⟩
  | .hbm, ⟨20, _⟩ => ⟨S50000x128, .f32⟩
  | .hbm, ⟨21, _⟩ => ⟨S640000x128, .bf16⟩
  | .hbm, ⟨22, _⟩ => ⟨S1x128, .f32⟩
  | .hbm, ⟨23, _⟩ => ⟨S50000x128, .f32⟩
  | .hbm, ⟨24, _⟩ => ⟨S640000x128, .bf16⟩
  | .hbm, ⟨25, _⟩ => ⟨S1x128, .f32⟩
  | .hbm, ⟨26, _⟩ => ⟨S50000x128, .f32⟩
  | .hbm, ⟨27, _⟩ => ⟨S640000x128, .bf16⟩
  | .hbm, ⟨28, _⟩ => ⟨S1x128, .f32⟩
  | .hbm, ⟨29, _⟩ => ⟨S50000x128, .f32⟩
  | .hbm, ⟨30, _⟩ => ⟨S1x40, .f32⟩
  | .hbm, ⟨31, _⟩ => ⟨S50000x40, .f32⟩
  | .hbm, ⟨32, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x3200, .i32⟩
  | .local _ .vmem, ⟨4, _⟩ => ⟨S1x3200, .i32⟩
  | .local _ .vmem, ⟨5, _⟩ => ⟨S3200x128, .bf16⟩
  | .local _ .vmem, ⟨6, _⟩ => ⟨S3200x128, .bf16⟩
  | .local _ .vmem, ⟨7, _⟩ => ⟨S3200x128, .f32⟩
  | .local _ .vmem, ⟨8, _⟩ => ⟨S1x3200, .i32⟩
  | .local _ .vmem, ⟨9, _⟩ => ⟨S1x3200, .i32⟩
  | .local _ .vmem, ⟨10, _⟩ => ⟨S3200x128, .bf16⟩
  | .local _ .vmem, ⟨11, _⟩ => ⟨S3200x128, .bf16⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x3200, .i32⟩
  | .local _ .vmem, ⟨20, _⟩ => ⟨S1x3200, .i32⟩
  | .local _ .vmem, ⟨21, _⟩ => ⟨S3200x128, .bf16⟩
  | .local _ .vmem, ⟨22, _⟩ => ⟨S3200x128, .bf16⟩
  | .local _ .vmem, ⟨23, _⟩ => ⟨S3200x128, .f32⟩
  | .local _ .vmem, ⟨24, _⟩ => ⟨S1x3200, .i32⟩
  | .local _ .vmem, ⟨25, _⟩ => ⟨S1x3200, .i32⟩
  | .local _ .vmem, ⟨26, _⟩ => ⟨S3200x128, .bf16⟩
  | .local _ .vmem, ⟨27, _⟩ => ⟨S3200x128, .bf16⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x3200, .i32⟩
  | .local _ .vmem, ⟨36, _⟩ => ⟨S1x3200, .i32⟩
  | .local _ .vmem, ⟨37, _⟩ => ⟨S3200x128, .bf16⟩
  | .local _ .vmem, ⟨38, _⟩ => ⟨S3200x128, .bf16⟩
  | .local _ .vmem, ⟨39, _⟩ => ⟨S3200x128, .f32⟩
  | .local _ .vmem, ⟨40, _⟩ => ⟨S1x3200, .i32⟩
  | .local _ .vmem, ⟨41, _⟩ => ⟨S1x3200, .i32⟩
  | .local _ .vmem, ⟨42, _⟩ => ⟨S3200x128, .bf16⟩
  | .local _ .vmem, ⟨43, _⟩ => ⟨S3200x128, .bf16⟩
  | .local _ .vmem, ⟨44, _⟩ => ⟨S1x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S1x3200, .i32⟩
  | .local _ .vmem, ⟨52, _⟩ => ⟨S1x3200, .i32⟩
  | .local _ .vmem, ⟨53, _⟩ => ⟨S3200x128, .bf16⟩
  | .local _ .vmem, ⟨54, _⟩ => ⟨S3200x128, .bf16⟩
  | .local _ .vmem, ⟨55, _⟩ => ⟨S3200x128, .f32⟩
  | .local _ .vmem, ⟨56, _⟩ => ⟨S1x3200, .i32⟩
  | .local _ .vmem, ⟨57, _⟩ => ⟨S1x3200, .i32⟩
  | .local _ .vmem, ⟨58, _⟩ => ⟨S3200x128, .bf16⟩
  | .local _ .vmem, ⟨59, _⟩ => ⟨S3200x128, .bf16⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S5000x128, .f32⟩
  | .local _ .vmem, ⟨65, _⟩ => ⟨S5000x128, .f32⟩
  | .local _ .vmem, ⟨66, _⟩ => ⟨S128x40, .f32⟩
  | .local _ .vmem, ⟨67, _⟩ => ⟨S1x40, .f32⟩
  | .local _ .vmem, ⟨68, _⟩ => ⟨S5000x40, .f32⟩
  | .local _ .vmem, ⟨69, _⟩ => ⟨S5000x40, .f32⟩
  | .local _ .vmem, ⟨70, _⟩ => ⟨S5000x40, .f32⟩
  | .local _ .vmem, ⟨71, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg3_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc6_scratch0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc7_scratch0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61
abbrev cc8_sem4_0 : DmaSem sig := 62
abbrev cc8_sem4_1 : DmaSem sig := 63

abbrev nD : Nat := 1
abbrev τ : Topo := Topo.v7x

variable {F : FTy → Type} [FloatOps F]

abbrev grid0 : Pipeline.Grid := ⟨2, ![200, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3200x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 200], ![false, false]⟩

def k1_cond2 (i : grid1.Coords) : BitVec 1 :=
  let arg1 : BitVec 32 := BitVec.ofNat 32 (i 1).val
  let c199_i32 : BitVec 32 := 199#32
  let v23 : BitVec 1 := Scalar.cmpi .eq arg1 c199_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![200, 25], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x3200 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S3200x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 200], ![false, false]⟩

def k3_cond2 (i : grid3.Coords) : BitVec 1 :=
  let arg1 : BitVec 32 := BitVec.ofNat 32 (i 1).val
  let c199_i32 : BitVec 32 := 199#32
  let v23 : BitVec 1 := Scalar.cmpi .eq arg1 c199_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x3200 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S3200x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![200, 25], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x3200 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S3200x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 200], ![false, false]⟩

def k5_cond2 (i : grid5.Coords) : BitVec 1 :=
  let arg1 : BitVec 32 := BitVec.ofNat 32 (i 1).val
  let c199_i32 : BitVec 32 := 199#32
  let v23 : BitVec 1 := Scalar.cmpi .eq arg1 c199_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x3200 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S3200x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![200, 25], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S1x3200 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S3200x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![25, 200], ![false, false]⟩

def k7_cond2 (i : grid7.Coords) : BitVec 1 :=
  let arg1 : BitVec 32 := BitVec.ofNat 32 (i 1).val
  let c199_i32 : BitVec 32 := 199#32
  let v23 : BitVec 1 := Scalar.cmpi .eq arg1 c199_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x3200 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S3200x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x40 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x640000_S1x640000_0_0 : S2x640000.Slices ![0, 0] S1x640000
  shapeCasts_S1x640000_S640000 : S1x640000.ShapeCasts S640000
  shapeCasts_S640000_S1x640000 : S640000.ShapeCasts S1x640000
  slices_S2x640000_S1x640000_1_0 : S2x640000.Slices ![1, 0] S1x640000
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  iota_S2000x1_d0_w32 : S2000x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S2000x1_S2000x3200 : S2000x1.Broadcasts S2000x3200
  broadcasts_S1x3200_S2000x3200 : S1x3200.Broadcasts S2000x3200
  natLt_1_32 : 1 < 32
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  packedbf16_S3200x128_S3200x128_0_0 : (Rect.unit (s := S3200x128) ![0, 0] S3200x128.size inb_S3200x128_S3200x128_0_0).PackedRows (EltTy.packing .bf16)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reduces_S5000x40_S5000 : S5000x40.Reduces [1] S5000
  shapeCasts_S5000_S5000x1 : S5000.ShapeCasts S5000x1
  broadcasts_S5000x1_S5000x40 : S5000x1.Broadcasts S5000x40
  dot_S2000x128_S128x128_S2000x128_1_0_0_1_n_n_wf : DotDims.WF S2000x128 S128x128 S2000x128 [1] [0] [0] [1] [] []
  dot_S2000x3200_S2000x128_S3200x128_0_0_1_1_n_n_wf : DotDims.WF S2000x3200 S2000x128 S3200x128 [0] [0] [1] [1] [] []
  dot_S2000x3200_S3200x128_S2000x128_1_0_0_1_n_n_wf : DotDims.WF S2000x3200 S3200x128 S2000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x640000.size a
  hwx0_2 : ∀ i : grid0.Coords, EltTy.bits .i32 = 32 ∨ (Rect.block (s := S1x640000) S1x3200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S640000x128.size a
  hwx0_3 : ∀ i : grid0.Coords, EltTy.bits .bf16 = 32 ∨ (Rect.block (s := S640000x128) S3200x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x640000.size a
  hwx1_0 : ∀ i : grid1.Coords, EltTy.bits .i32 = 32 ∨ (Rect.block (s := S1x640000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S640000x128.size a
  hwx1_1 : ∀ i : grid1.Coords, EltTy.bits .bf16 = 32 ∨ (Rect.block (s := S640000x128) S3200x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x640000.size a
  hwx2_2 : ∀ i : grid2.Coords, EltTy.bits .i32 = 32 ∨ (Rect.block (s := S1x640000) S1x3200.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x128.size a ≤ S640000x128.size a
  hwx2_3 : ∀ i : grid2.Coords, EltTy.bits .bf16 = 32 ∨ (Rect.block (s := S640000x128) S3200x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x3200.size a ≤ S1x640000.size a
  hwx3_0 : ∀ i : grid3.Coords, EltTy.bits .i32 = 32 ∨ (Rect.block (s := S1x640000) S1x3200.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x128.size a ≤ S640000x128.size a
  hwx3_1 : ∀ i : grid3.Coords, EltTy.bits .bf16 = 32 ∨ (Rect.block (s := S640000x128) S3200x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x3200.size a ≤ S1x640000.size a
  hwx4_2 : ∀ i : grid4.Coords, EltTy.bits .i32 = 32 ∨ (Rect.block (s := S1x640000) S1x3200.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S3200x128.size a ≤ S640000x128.size a
  hwx4_3 : ∀ i : grid4.Coords, EltTy.bits .bf16 = 32 ∨ (Rect.block (s := S640000x128) S3200x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x3200.size a ≤ S1x640000.size a
  hwx5_0 : ∀ i : grid5.Coords, EltTy.bits .i32 = 32 ∨ (Rect.block (s := S1x640000) S1x3200.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3200x128.size a ≤ S640000x128.size a
  hwx5_1 : ∀ i : grid5.Coords, EltTy.bits .bf16 = 32 ∨ (Rect.block (s := S640000x128) S3200x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x3200.size a ≤ S1x640000.size a
  hwx6_2 : ∀ i : grid6.Coords, EltTy.bits .i32 = 32 ∨ (Rect.block (s := S1x640000) S1x3200.size (cc6_transform_2 i) (hinb6_2 i)).WholeWords (EltTy.packing .i32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S3200x128.size a ≤ S640000x128.size a
  hwx6_3 : ∀ i : grid6.Coords, EltTy.bits .bf16 = 32 ∨ (Rect.block (s := S640000x128) S3200x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x3200.size a ≤ S1x640000.size a
  hwx7_0 : ∀ i : grid7.Coords, EltTy.bits .i32 = 32 ∨ (Rect.block (s := S1x640000) S1x3200.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S3200x128.size a ≤ S640000x128.size a
  hwx7_1 : ∀ i : grid7.Coords, EltTy.bits .bf16 = 32 ∨ (Rect.block (s := S640000x128) S3200x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x40.size a ≤ S128x40.size a
  hwx8_1 : ∀ i : grid8.Coords, EltTy.bits .f32 = 32 ∨ (Rect.block (s := S128x40) S128x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x40.size a ≤ S50000x40.size a
  hwx8_3 : ∀ i : grid8.Coords, EltTy.bits .f32 = 32 ∨ (Rect.block (s := S50000x40) S5000x40.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x40.size a ≤ S50000x40.size a
  hwx8_4 : ∀ i : grid8.Coords, EltTy.bits .f32 = 32 ∨ (Rect.block (s := S50000x40) S5000x40.size (cc8_transform_4 i) (hinb8_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x3200_S2000x128_S3200x128_0_0_1_1_n_n : DotDims S2000x3200 S2000x128 S3200x128 where
  lhsContracting := [0]
  rhsContracting := [0]
  lhsNonContracting := [1]
  rhsNonContracting := [1]
  lhsBatch := []
  rhsBatch := []
  wf := dot_S2000x3200_S2000x128_S3200x128_0_0_1_1_n_n_wf
def dot_S2000x3200_S3200x128_S2000x128_1_0_0_1_n_n : DotDims S2000x3200 S3200x128 S2000x128 where
  lhsContracting := [1]
  rhsContracting := [0]
  lhsNonContracting := [0]
  rhsNonContracting := [1]
  lhsBatch := []
  rhsBatch := []
  wf := dot_S2000x3200_S3200x128_S2000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3200x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v8) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S3200x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S1x3200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S3200x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v11) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x3200.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S3200x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v5) S1x3200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S3200x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v14) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v14) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S1x3200.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v15) S3200x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v5) S1x3200.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S3200x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v16) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v17) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v17) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v18) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v19_0) S5000x40.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v19_1) S5000x40.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S50000 : Shape := ⟨1, ![50000]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x40, .f32⟩
  | 11 => ⟨S40, .f32⟩
  | 12 => ⟨S1x640000, .i32⟩
  | 13 => ⟨S640000, .i32⟩
  | 14 => ⟨S1x640000, .i32⟩
  | 15 => ⟨S640000, .i32⟩
  | 16 => ⟨S50000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S_, .f32⟩
  | 27 => ⟨S50000x128, .f32⟩
  | 28 => ⟨S640000x1, .i32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S_, .f32⟩
  | 57 => ⟨S50000x128, .f32⟩
  | 58 => ⟨S640000x1, .i32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S50000x1, .f32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S_, .f32⟩
  | 87 => ⟨S50000x128, .f32⟩
  | 88 => ⟨S640000x1, .i32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S_, .f32⟩
  | 117 => ⟨S50000x128, .f32⟩
  | 118 => ⟨S640000x1, .i32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S50000, .f32⟩
  | 126 => ⟨S50000x1, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x40, .f32⟩
  | 9 => ⟨S1x40, .f32⟩
  | 10 => ⟨S50000x40, .f32⟩
  | 11 => ⟨S50000x40, .f32⟩
  | 12 => ⟨S_, .f32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x40, .f32⟩
  | 19 => ⟨S50000x40, .f32⟩
  | 20 => ⟨S50000x40, .f32⟩
  | 21 => ⟨S_, .f32⟩
  | 22 => ⟨S50000, .f32⟩
  | 23 => ⟨S50000x1, .f32⟩
  | 24 => ⟨S50000x40, .f32⟩
  | 25 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_cst : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call3_cst : Ref sig .tc := ⟨.hbm, 73, rfl⟩
abbrev main_call3_v0 : Ref sig .tc := ⟨.hbm, 74, rfl⟩
abbrev main_v43 : Ref sig .tc := ⟨.hbm, 75, rfl⟩
abbrev main_v44 : Ref sig .tc := ⟨.hbm, 76, rfl⟩
abbrev main_c_6 : Ref sig .tc := ⟨.hbm, 77, rfl⟩
abbrev main_v45 : Ref sig .tc := ⟨.hbm, 78, rfl⟩
abbrev main_v46 : Ref sig .tc := ⟨.hbm, 79, rfl⟩
abbrev main_c_7 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_call4_v2 : Ref sig .tc := ⟨.hbm, 96, rfl⟩
abbrev main_v58 : Ref sig .tc := ⟨.hbm, 97, rfl⟩
abbrev main_cst_9 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call5_cst : Ref sig .tc := ⟨.hbm, 103, rfl⟩
abbrev main_call5_v0 : Ref sig .tc := ⟨.hbm, 104, rfl⟩
abbrev main_v63 : Ref sig .tc := ⟨.hbm, 105, rfl⟩
abbrev main_v64 : Ref sig .tc := ⟨.hbm, 106, rfl⟩
abbrev main_c_10 : Ref sig .tc := ⟨.hbm, 107, rfl⟩
abbrev main_v65 : Ref sig .tc := ⟨.hbm, 108, rfl⟩
abbrev main_v66 : Ref sig .tc := ⟨.hbm, 109, rfl⟩
abbrev main_c_11 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_12 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call6_v0 : Ref sig .tc := ⟨.hbm, 123, rfl⟩
abbrev main_call6_cst : Ref sig .tc := ⟨.hbm, 124, rfl⟩
abbrev main_call6_v1 : Ref sig .tc := ⟨.hbm, 125, rfl⟩
abbrev main_call6_v2 : Ref sig .tc := ⟨.hbm, 126, rfl⟩
abbrev main_v78 : Ref sig .tc := ⟨.hbm, 127, rfl⟩
abbrev main_cst_13 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_call7_cst : Ref sig .tc := ⟨.hbm, 133, rfl⟩
abbrev main_call7_v0 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_14 : Ref sig .tc := ⟨.hbm, 140, rfl⟩
abbrev main_v88 : Ref sig .tc := ⟨.hbm, 141, rfl⟩
abbrev main_cst_15 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_16 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Ref.Ops.lean ====
import proofs.«422636_j31413390803462_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (a b : List (HloOp τ sig (Elt F))) (V : Valuation τ sig (Elt F)) : after (a ++ b) V = after b (after a V) := by
  induction a generalizing V with
  | nil => rfl
  | cons op a ih => exact ih _

theorem mem_append_forall {α : Type} (p : α → Prop) (a b : List α) (ha : ∀ x ∈ a, p x) (hb : ∀ x ∈ b, p x) : ∀ x ∈ a ++ b, p x :=
  fun x h => (List.mem_append.mp h).elim (ha x) (hb x)

theorem forall_append {α : Type} (p : α → Prop) (a b : List α) (ha : a.Forall p) (hb : b.Forall p) : (a ++ b).Forall p :=
  List.forall_iff_forall_mem.mpr (mem_append_forall p a b (List.forall_iff_forall_mem.mp ha) (List.forall_iff_forall_mem.mp hb))

abbrev rowOps : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]

abbrev layer1Ops : List (HloOp τ sig (Elt F)) :=
  [ binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v5 (broadcastInDim S640000 ![] bcast_S_S640000 : (⟨S_, .i32⟩ : BufTy).Contents (Elt F) → (⟨S640000, .i32⟩ : BufTy).Contents (Elt F)),
    binary main_v1 main_v5 main_v6 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v7 (broadcastInDim S640000 ![] bcast_S_S640000 : (⟨S_, .i32⟩ : BufTy).Contents (Elt F) → (⟨S640000, .i32⟩ : BufTy).Contents (Elt F)),
    binary main_v1 main_v7 main_v8 (addi : (⟨S640000, .i32⟩ : BufTy).Contents (Elt F) → (⟨S640000, .i32⟩ : BufTy).Contents (Elt F) → (⟨S640000, .i32⟩ : BufTy).Contents (Elt F)),
    ternary main_v6 main_v8 main_v1 main_v9 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v9 main_v10 (broadcastInDim S640000x1 ![0] bcast_S640000_S640000x1_0 : (⟨S640000, .i32⟩ : BufTy).Contents (Elt F) → (⟨S640000x1, .i32⟩ : BufTy).Contents (Elt F)),
    binary main_v4 main_v10 main_v11 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_v3 main_v13 (broadcastInDim S640000x1 ![0] bcast_S640000_S640000x1_0 : (⟨S640000, .i32⟩ : BufTy).Contents (Elt F) → (⟨S640000x1, .i32⟩ : BufTy).Contents (Elt F)),
    ternary main_v12 main_v13 main_v11 main_v14 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v17) (TRef.of (T := ⟨S50000x128, .f32⟩) main_v17) (TRef.of (T := ⟨S50000x128, .f32⟩) main_call0_v0) mulf,
    TRef.nullary (TRef.of (T := ⟨S_, .f32⟩) main_call0_cst) (constant S_ .f32 0x00000000#32),
    TRef.binary (TRef.of (T := ⟨S50000x128, .f32⟩) main_call0_v0) (TRef.of (T := ⟨S_, .f32⟩) main_call0_cst) (TRef.of (T := ⟨S50000, .f32⟩) main_call0_v1) (fun x v => Host.reduceAdd x v reducesTo_S50000x128_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v18) Host.sqrt,
    nullary main_cst_1 (constant S_ .f32 0x2B8CBCCC#32),
    unary main_cst_1 main_v19 (broadcastInDim S50000x1 ![] bcast_S_S50000x1 : (⟨S_, .f32⟩ : BufTy).Contents (Elt F) → (⟨S50000x1, .f32⟩ : BufTy).Contents (Elt F)),
    binary main_v18 main_v19 main_v20 (maximumf : (⟨S50000x1, .f32⟩ : BufTy).Contents (Elt F) → (⟨S50000x1, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v17 main_v21 main_v22 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v22) (TRef.of (T := ⟨S50000x128, .f32⟩) main_call1_v0) (TRef.of (T := ⟨S50000x128, .f32⟩) main_v23) maximumf ]

abbrev layer2Ops : List (HloOp τ sig (Elt F)) :=
  [ binary main_v23 main_arg4 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_2 (constantI S_ 32 0#32),
    unary main_c_2 main_v25 (broadcastInDim S640000 ![] bcast_S_S640000 : (⟨S_, .i32⟩ : BufTy).Contents (Elt F) → (⟨S640000, .i32⟩ : BufTy).Contents (Elt F)),
    binary main_v1 main_v25 main_v26 (cmpi .slt : (⟨S640000, .i32⟩ : BufTy).Contents (Elt F) → (⟨S640000, .i32⟩ : BufTy).Contents (Elt F) → (⟨S640000, .i1⟩ : BufTy).Contents (Elt F)),
    nullary main_c_3 (constantI S_ 32 50000#32),
    unary main_c_3 main_v27 (broadcastInDim S640000 ![] bcast_S_S640000 : (⟨S_, .i32⟩ : BufTy).Contents (Elt F) → (⟨S640000, .i32⟩ : BufTy).Contents (Elt F)),
    binary main_v1 main_v27 main_v28 (addi : (⟨S640000, .i32⟩ : BufTy).Contents (Elt F) → (⟨S640000, .i32⟩ : BufTy).Contents (Elt F) → (⟨S640000, .i32⟩ : BufTy).Contents (Elt F)),
    ternary main_v26 main_v28 main_v1 main_v29 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v29 main_v30 (broadcastInDim S640000x1 ![0] bcast_S640000_S640000x1_0 : (⟨S640000, .i32⟩ : BufTy).Contents (Elt F) → (⟨S640000x1, .i32⟩ : BufTy).Contents (Elt F)),
    binary main_v24 main_v30 main_v31 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_4 (constant S_ .f32 0x00000000#32),
    unary main_cst_4 main_v32 (broadcastInDim S50000x128 ![] bcast_S_S50000x128 : (⟨S_, .f32⟩ : BufTy).Contents (Elt F) → (⟨S50000x128, .f32⟩ : BufTy).Contents (Elt F)),
    unary main_v3 main_v33 (broadcastInDim S640000x1 ![0] bcast_S640000_S640000x1_0 : (⟨S640000, .i32⟩ : BufTy).Contents (Elt F) → (⟨S640000x1, .i32⟩ : BufTy).Contents (Elt F)),
    ternary main_v32 main_v33 main_v31 main_v34 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg5 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v37) (TRef.of (T := ⟨S50000x128, .f32⟩) main_v37) (TRef.of (T := ⟨S50000x128, .f32⟩) main_call2_v0) mulf,
    TRef.nullary (TRef.of (T := ⟨S_, .f32⟩) main_call2_cst) (constant S_ .f32 0x00000000#32),
    TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v38) Host.sqrt,
    nullary main_cst_5 (constant S_ .f32 0x2B8CBCCC#32),
    unary main_cst_5 main_v39 (broadcastInDim S50000x1 ![] bcast_S_S50000x1 : (⟨S_, .f32⟩ : BufTy).Contents (Elt F) → (⟨S50000x1, .f32⟩ : BufTy).Contents (Elt F)),
    binary main_v38 main_v39 main_v40 (maximumf : (⟨S50000x1, .f32⟩ : BufTy).Contents (Elt F) → (⟨S50000x1, .f32⟩ : BufTy).Contents (Elt F) → (⟨S50000x1, .f32⟩ : BufTy).Contents (Elt F)),
    unary main_v40 main_v41 (broadcastInDim S50000x128 ![0, 1] bcast_S50000x1_S50000x128_0_1 : (⟨S50000x1, .f32⟩ : BufTy).Contents (Elt F) → (⟨S50000x128, .f32⟩ : BufTy).Contents (Elt F)),
    binary main_v37 main_v41 main_v42 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v42) (TRef.of (T := ⟨S50000x128, .f32⟩) main_call3_v0) (TRef.of (T := ⟨S50000x128, .f32⟩) main_v43) maximumf ]

abbrev layer3Ops : List (HloOp τ sig (Elt F)) :=
  [ binary main_v43 main_arg6 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v45 (broadcastInDim S640000 ![] bcast_S_S640000 : (⟨S_, .i32⟩ : BufTy).Contents (Elt F) → (⟨S640000, .i32⟩ : BufTy).Contents (Elt F)),
    binary main_v1 main_v45 main_v46 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v47 (broadcastInDim S640000 ![] bcast_S_S640000 : (⟨S_, .i32⟩ : BufTy).Contents (Elt F) → (⟨S640000, .i32⟩ : BufTy).Contents (Elt F)),
    binary main_v1 main_v47 main_v48 (addi : (⟨S640000, .i32⟩ : BufTy).Contents (Elt F) → (⟨S640000, .i32⟩ : BufTy).Contents (Elt F) → (⟨S640000, .i32⟩ : BufTy).Contents (Elt F)),
    ternary main_v46 main_v48 main_v1 main_v49 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v49 main_v50 (broadcastInDim S640000x1 ![0] bcast_S640000_S640000x1_0 : (⟨S640000, .i32⟩ : BufTy).Contents (Elt F) → (⟨S640000x1, .i32⟩ : BufTy).Contents (Elt F)),
    binary main_v44 main_v50 main_v51 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_8 (constant S_ .f32 0x00000000#32),
    unary main_cst_8 main_v52 (broadcastInDim S50000x128 ![] bcast_S_S50000x128 : (⟨S_, .f32⟩ : BufTy).Contents (Elt F) → (⟨S50000x128, .f32⟩ : BufTy).Contents (Elt F)),
    unary main_v3 main_v53 (broadcastInDim S640000x1 ![0] bcast_S640000_S640000x1_0 : (⟨S640000, .i32⟩ : BufTy).Contents (Elt F) → (⟨S640000x1, .i32⟩ : BufTy).Contents (Elt F)),
    ternary main_v52 main_v53 main_v51 main_v54 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v57) (TRef.of (T := ⟨S50000x128, .f32⟩) main_v57) (TRef.of (T := ⟨S50000x128, .f32⟩) main_call4_v0) mulf,
    TRef.nullary (TRef.of (T := ⟨S_, .f32⟩) main_call4_cst) (constant S_ .f32 0x00000000#32),
    TRef.binary (TRef.of (T := ⟨S50000x128, .f32⟩) main_call4_v0) (TRef.of (T := ⟨S_, .f32⟩) main_call4_cst) (TRef.of (T := ⟨S50000, .f32⟩) main_call4_v1) (fun x v => Host.reduceAdd x v reducesTo_S50000x128_S50000_d1 h_S_),
    TRef.unary (TRef.of (T := ⟨S50000, .f32⟩) main_call4_v1) (TRef.of (T := ⟨S50000x1, .f32⟩) main_call4_v2) (broadcastInDim S50000x1 ![0] bcast_S50000_S50000x1_0),
    TRef.unary (TRef.of (T := ⟨S50000x1, .f32⟩) main_call4_v2) (TRef.of (T := ⟨S50000x1, .f32⟩) main_v58) Host.sqrt,
    nullary main_cst_9 (constant S_ .f32 0x2B8CBCCC#32),
    unary main_cst_9 main_v59 (broadcastInDim S50000x1 ![] bcast_S_S50000x1 : (⟨S_, .f32⟩ : BufTy).Contents (Elt F) → (⟨S50000x1, .f32⟩ : BufTy).Contents (Elt F)),
    binary main_v58 main_v59 main_v60 (maximumf : (⟨S50000x1, .f32⟩ : BufTy).Contents (Elt F) → (⟨S50000x1, .f32⟩ : BufTy).Contents (Elt F) → (⟨S50000x1, .f32⟩ : BufTy).Contents (Elt F)),
    unary main_v60 main_v61 (broadcastInDim S50000x128 ![0, 1] bcast_S50000x1_S50000x128_0_1 : (⟨S50000x1, .f32⟩ : BufTy).Contents (Elt F) → (⟨S50000x128, .f32⟩ : BufTy).Contents (Elt F)),
    binary main_v57 main_v61 main_v62 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v62) (TRef.of (T := ⟨S50000x128, .f32⟩) main_call5_v0) (TRef.of (T := ⟨S50000x128, .f32⟩) main_v63) maximumf ]

abbrev layer4Ops : List (HloOp τ sig (Elt F)) :=
  [ binary main_v63 main_arg8 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v65 (broadcastInDim S640000 ![] bcast_S_S640000 : (⟨S_, .i32⟩ : BufTy).Contents (Elt F) → (⟨S640000, .i32⟩ : BufTy).Contents (Elt F)),
    binary main_v1 main_v65 main_v66 (cmpi .slt : (⟨S640000, .i32⟩ : BufTy).Contents (Elt F) → (⟨S640000, .i32⟩ : BufTy).Contents (Elt F) → (⟨S640000, .i1⟩ : BufTy).Contents (Elt F)),
    nullary main_c_11 (constantI S_ 32 50000#32),
    unary main_c_11 main_v67 (broadcastInDim S640000 ![] bcast_S_S640000 : (⟨S_, .i32⟩ : BufTy).Contents (Elt F) → (⟨S640000, .i32⟩ : BufTy).Contents (Elt F)),
    binary main_v1 main_v67 main_v68 (addi : (⟨S640000, .i32⟩ : BufTy).Contents (Elt F) → (⟨S640000, .i32⟩ : BufTy).Contents (Elt F) → (⟨S640000, .i32⟩ : BufTy).Contents (Elt F)),
    ternary main_v66 main_v68 main_v1 main_v69 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v69 main_v70 (broadcastInDim S640000x1 ![0] bcast_S640000_S640000x1_0 : (⟨S640000, .i32⟩ : BufTy).Contents (Elt F) → (⟨S640000x1, .i32⟩ : BufTy).Contents (Elt F)),
    binary main_v64 main_v70 main_v71 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_12 (constant S_ .f32 0x00000000#32),
    unary main_cst_12 main_v72 (broadcastInDim S50000x128 ![] bcast_S_S50000x128 : (⟨S_, .f32⟩ : BufTy).Contents (Elt F) → (⟨S50000x128, .f32⟩ : BufTy).Contents (Elt F)),
    unary main_v3 main_v73 (broadcastInDim S640000x1 ![0] bcast_S640000_S640000x1_0 : (⟨S640000, .i32⟩ : BufTy).Contents (Elt F) → (⟨S640000x1, .i32⟩ : BufTy).Contents (Elt F)),
    ternary main_v72 main_v73 main_v71 main_v74 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg9 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v74 main_v76 main_v77 (addf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v77) (TRef.of (T := ⟨S50000x128, .f32⟩) main_v77) (TRef.of (T := ⟨S50000x128, .f32⟩) main_call6_v0) mulf,
    TRef.nullary (TRef.of (T := ⟨S_, .f32⟩) main_call6_cst) (constant S_ .f32 0x00000000#32),
    TRef.binary (TRef.of (T := ⟨S50000x128, .f32⟩) main_call6_v0) (TRef.of (T := ⟨S_, .f32⟩) main_call6_cst) (TRef.of (T := ⟨S50000, .f32⟩) main_call6_v1) (fun x v => Host.reduceAdd x v reducesTo_S50000x128_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v78) Host.sqrt,
    nullary main_cst_13 (constant S_ .f32 0x2B8CBCCC#32),
    unary main_cst_13 main_v79 (broadcastInDim S50000x1 ![] bcast_S_S50000x1 : (⟨S_, .f32⟩ : BufTy).Contents (Elt F) → (⟨S50000x1, .f32⟩ : BufTy).Contents (Elt F)),
    binary main_v78 main_v79 main_v80 (maximumf : (⟨S50000x1, .f32⟩ : BufTy).Contents (Elt F) → (⟨S50000x1, .f32⟩ : BufTy).Contents (Elt F) → (⟨S50000x1, .f32⟩ : BufTy).Contents (Elt F)),
    unary main_v80 main_v81 (broadcastInDim S50000x128 ![0, 1] bcast_S50000x1_S50000x128_0_1 : (⟨S50000x1, .f32⟩ : BufTy).Contents (Elt F) → (⟨S50000x128, .f32⟩ : BufTy).Contents (Elt F)),
    binary main_v77 main_v81 main_v82 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v82) (TRef.of (T := ⟨S50000x128, .f32⟩) main_call7_v0) (TRef.of (T := ⟨S50000x128, .f32⟩) main_v83) maximumf ]

abbrev headOps : List (HloOp τ sig (Elt F)) :=
  [ binary main_v83 main_arg10 main_v84 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg11 main_v85 (broadcastInDim S1x40 ![1] bcast_S40_S1x40_1 : (⟨S40, .f32⟩ : BufTy).Contents (Elt F) → (⟨S1x40, .f32⟩ : BufTy).Contents (Elt F)),
    unary main_v85 main_v86 (broadcastInDim S50000x40 ![0, 1] bcast_S1x40_S50000x40_0_1 : (⟨S1x40, .f32⟩ : BufTy).Contents (Elt F) → (⟨S50000x40, .f32⟩ : BufTy).Contents (Elt F)),
    binary main_v84 main_v86 main_v87 (addf : (⟨S50000x40, .f32⟩ : BufTy).Contents (Elt F) → (⟨S50000x40, .f32⟩ : BufTy).Contents (Elt F) → (⟨S50000x40, .f32⟩ : BufTy).Contents (Elt F)),
    nullary main_cst_14 (constant S_ .f32 0xFF800000#32),
    binary main_v87 main_cst_14 main_v88 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    nullary main_cst_15 (constant S_ .f32 0xFF800000#32),
    unary main_cst_15 main_v89 (broadcastInDim S50000 ![] bcast_S_S50000 : (⟨S_, .f32⟩ : BufTy).Contents (Elt F) → (⟨S50000, .f32⟩ : BufTy).Contents (Elt F)),
    binary main_v89 main_v88 main_v90 (maximumf : (⟨S50000, .f32⟩ : BufTy).Contents (Elt F) → (⟨S50000, .f32⟩ : BufTy).Contents (Elt F) → (⟨S50000, .f32⟩ : BufTy).Contents (Elt F)),
    unary main_v90 main_v91 (broadcastInDim S50000x1 ![0] bcast_S50000_S50000x1_0 : (⟨S50000, .f32⟩ : BufTy).Contents (Elt F) → (⟨S50000x1, .f32⟩ : BufTy).Contents (Elt F)),
    unary main_v91 main_v92 (broadcastInDim S50000x40 ![0, 1] bcast_S50000x1_S50000x40_0_1 : (⟨S50000x1, .f32⟩ : BufTy).Contents (Elt F) → (⟨S50000x40, .f32⟩ : BufTy).Contents (Elt F)),
    binary main_v87 main_v92 main_v93 (subf : (⟨S50000x40, .f32⟩ : BufTy).Contents (Elt F) → (⟨S50000x40, .f32⟩ : BufTy).Contents (Elt F) → (⟨S50000x40, .f32⟩ : BufTy).Contents (Elt F)),
    unary main_v93 main_v94 (Host.exp : (⟨S50000x40, .f32⟩ : BufTy).Contents (Elt F) → (⟨S50000x40, .f32⟩ : BufTy).Contents (Elt F)),
    nullary main_cst_16 (constant S_ .f32 0x00000000#32),
    binary main_v94 main_cst_16 main_v95 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    unary main_v95 main_v96 (broadcastInDim S50000x1 ![0] bcast_S50000_S50000x1_0 : (⟨S50000, .f32⟩ : BufTy).Contents (Elt F) → (⟨S50000x1, .f32⟩ : BufTy).Contents (Elt F)),
    unary main_v96 main_v97 (broadcastInDim S50000x40 ![0, 1] bcast_S50000x1_S50000x40_0_1 : (⟨S50000x1, .f32⟩ : BufTy).Contents (Elt F) → (⟨S50000x40, .f32⟩ : BufTy).Contents (Elt F)),
    binary main_v94 main_v97 main_v98 (Host.divf : (⟨S50000x40, .f32⟩ : BufTy).Contents (Elt F) → (⟨S50000x40, .f32⟩ : BufTy).Contents (Elt F) → (⟨S50000x40, .f32⟩ : BufTy).Contents (Elt F)) ]

abbrev ops : List (HloOp τ sig (Elt F)) := rowOps ++ (layer1Ops ++ (layer2Ops ++ (layer3Ops ++ (layer4Ops ++ headOps))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op : HloOp τ sig (Elt F) => op.bufs ⊆ tcRefs τ sig :=
  forall_append _ rowOps _ ⟨unary_bufs_sub .., reshape_bufs_sub .., unary_bufs_sub .., reshape_bufs_sub ..⟩
    (forall_append _ layer1Ops _ ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩
    (forall_append _ layer2Ops _ ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩
    (forall_append _ layer3Ops _ ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩
    (forall_append _ layer4Ops _ ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩
    (⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩)))))

set_option maxRecDepth 8192 in
theorem ops_fresh : ∀ op ∈ (ops : List (HloOp τ sig (Elt F))), op.fresh = ∅ :=
  mem_append_forall _ rowOps _ (by intro op h; (repeat (cases h with | head => rfl | tail _ h => ?_)); exact nomatch h)
    (mem_append_forall _ layer1Ops _ (by intro op h; (repeat (cases h with | head => rfl | tail _ h => ?_)); exact nomatch h)
    (mem_append_forall _ layer2Ops _ (by intro op h; (repeat (cases h with | head => rfl | tail _ h => ?_)); exact nomatch h)
    (mem_append_forall _ layer3Ops _ (by intro op h; (repeat (cases h with | head => rfl | tail _ h => ?_)); exact nomatch h)
    (mem_append_forall _ layer4Ops _ (by intro op h; (repeat (cases h with | head => rfl | tail _ h => ?_)); exact nomatch h)
    ((by intro op h; (repeat (cases h with | head => rfl | tail _ h => ?_)); exact nomatch h))))))

end Cert.ReferenceIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (r c : Nat) : Type := (⟨2, ![r, c]⟩ : Shape).Idx → EReal
abbrev IRow (n : Nat) : Type := (⟨2, ![1, n]⟩ : Shape).Idx → BitVec 32

def toMat {r c : Nat} (f : Fin r → Fin c → EReal) : Mat r c := fun j => f (j 0) (j 1)

theorem toMat_apply {r c : Nat} (f : Fin r → Fin c → EReal) (p : Fin r) (q : Fin c) : toMat f (ix2 p q) = f p q := rfl

def row0 (ei : (⟨2, ![2, 640000]⟩ : Shape).Idx → BitVec 32) : IRow 640000 := fun j => ei (ix2 0 (j 1))
def row1 (ei : (⟨2, ![2, 640000]⟩ : Shape).Idx → BitVec 32) : IRow 640000 := fun j => ei (ix2 1 (j 1))
def vec {n : Nat} (b : (⟨1, ![n]⟩ : Shape).Idx → EReal) : Fin n → EReal := fun d => b (ix1 d)

def rowVec {n : Nat} (b : Mat 1 n) : Fin n → EReal := fun d => b (ix2 0 d)

def ofMat {r c : Nat} (x : Mat r c) : Fin r → Fin c → EReal := fun p q => x (ix2 p q)

def tiny : EReal := Ideal.ofBits .f32 0x2B8CBCCC#32
def negInf : EReal := Ideal.ofBits .f32 0xFF800000#32

def names (w : BitVec 32) (n : Nat) : Prop := w.toInt = (n : Int)
instance (w : BitVec 32) (n : Nat) : Decidable (names w n) := by unfold names; infer_instance

def lin (x : Mat 50000 128) (W : Mat 128 128) (n : Fin 50000) (d : Fin 128) : EReal :=
  ∑ k : Fin 128, x (ix2 n k) * W (ix2 k d)

def carried (h : Fin 50000 → Fin 128 → EReal) (src : IRow 640000) (e : Fin 640000) (d : Fin 128) : EReal :=
  ∑ n : Fin 50000, if names (src (ix2 0 e)) n.val then h n d else 0

def received (g : Fin 640000 → Fin 128 → EReal) (dst : IRow 640000) (n : Fin 50000) (d : Fin 128) : EReal :=
  ∑ e : Fin 640000, if names (dst (ix2 0 e)) n.val then g e d else 0

def unitRelu (y : Fin 50000 → Fin 128 → EReal) (b : Fin 128 → EReal) (n : Fin 50000) (d : Fin 128) : EReal :=
  max (Ideal.div (y n d + b d) (max (Ideal.sqrt (∑ k : Fin 128, (y n k + b k) * (y n k + b k))) tiny)) 0

def layer (x : Mat 50000 128) (W : Mat 128 128) (b : Fin 128 → EReal) (src dst : IRow 640000) : Mat 50000 128 :=
  toMat (unitRelu (received (carried (lin x W) src) dst) b)

def score (x : Mat 50000 128) (Wl : Mat 128 40) (bl : Fin 40 → EReal) (n : Fin 50000) (c : Fin 40) : EReal :=
  (∑ k : Fin 128, x (ix2 n k) * Wl (ix2 k c)) + bl c

def rowMax (l : Fin 50000 → Fin 40 → EReal) (n : Fin 50000) : EReal :=
  (Finset.univ : Finset (Fin 40)).fold max negInf (l n)

def softmax (l : Fin 50000 → Fin 40 → EReal) (n : Fin 50000) (c : Fin 40) : EReal :=
  Ideal.div (Ideal.exp (l n c - rowMax l n)) (∑ k : Fin 40, Ideal.exp (l n k - rowMax l n))

def x4 (x : Mat 50000 128) (W1 W2 W3 W4 : Mat 128 128) (b1 b2 b3 b4 : Fin 128 → EReal) (src dst : IRow 640000) : Mat 50000 128 :=
  layer (layer (layer (layer x W1 b1 src dst) W2 b2 src dst) W3 b3 src dst) W4 b4 src dst

def scores (f : Mat 50000 128) (Wl : Mat 128 40) (bl : Fin 40 → EReal) : Mat 50000 40 := toMat (score f Wl bl)
def probs (f : Mat 50000 128) (Wl : Mat 128 40) (bl : Fin 40 → EReal) : Mat 50000 40 := toMat (softmax (score f Wl bl))

end Cert.Spec

end
-- ==== Proof.LibRows.lean ====
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

abbrev Arr2 (N C : Nat) : Type := (⟨2, ![N, C]⟩ : Shape).Idx → EReal
abbrev Arr1 (N : Nat) : Type := (⟨1, ![N]⟩ : Shape).Idx → EReal
abbrev IdxCol (R : Nat) : Type := (⟨2, ![R, 1]⟩ : Shape).Idx → BitVec 32

def clampRow {N : Nat} (hN : 0 < N) (w : BitVec 32) : Fin N := ⟨min w.toInt.toNat (N - 1), by omega⟩

def wrapN (n : Nat) (v : BitVec 32) : BitVec 32 := if v.toInt < 0 then v + BitVec.ofNat 32 n else v

abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

theorem gather_vec_apply {N R : Nat} (hN : 0 < N)
    (wf : GatherDims.WF ⟨1, ![N]⟩ ⟨2, ![R, 1]⟩ ⟨1, ![R]⟩ [] [0] [] [0] [] 1 ![1])
    (x : Arr1 N) (idx : IdxCol R) (r : Fin R) :
    Host.gather (vecGatherDims N R wf) x idx (ix1 r) = x (ix1 (clampRow hN (idx (ix2 r 0)))) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

theorem start_vec {N R : Nat} (wf : ScatterDims.WF ⟨1, ![N]⟩ ⟨2, ![R, 1]⟩ ⟨1, ![R]⟩ [] [0] [0] 1)
    (idx : IdxCol R) (k : Fin R) :
    (vecScatterDims N R wf).start (ix1 k) idx 0 = (idx (ix2 k 0)).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

theorem window_vec {N R : Nat} (wf : ScatterDims.WF ⟨1, ![N]⟩ ⟨2, ![R, 1]⟩ ⟨1, ![R]⟩ [] [0] [0] 1)
    (k : Fin R) : (vecScatterDims N R wf).window (ix1 k) 0 = 0 := by
  unfold ScatterDims.window
  rw [dif_neg (show (0 : Fin 1) ∉ (vecScatterDims N R wf).sKept by
    simp [ScatterDims.sKept, Shape.kept, List.mem_filter])]

theorem resultIdx_vec {N R : Nat} (wf : ScatterDims.WF ⟨1, ![N]⟩ ⟨2, ![R, 1]⟩ ⟨1, ![R]⟩ [] [0] [0] 1)
    (idx : IdxCol R) (k : Fin R) (v : Fin N) :
    ((vecScatterDims N R wf).resultIdx? (ix1 k) idx = some (ix1 v)) ↔ (idx (ix2 k 0)).toInt = (v.val : Int) := by
  have hv : v.val < N := v.isLt
  unfold ScatterDims.resultIdx?
  split
  · rename_i h
    rw [Option.some.injEq]
    constructor
    · intro hf
      have h0 : ((vecScatterDims N R wf).start (ix1 k) idx 0
          + ((vecScatterDims N R wf).window (ix1 k) 0 : Nat)).toNat = v.val := congrArg (fun f => (f 0).val) hf
      have g0 := (h 0).1
      simp only [start_vec, window_vec] at h0 g0
      omega
    · intro h0
      funext a
      obtain rfl : a = 0 := Subsingleton.elim _ _
      refine Fin.ext ?_
      show ((vecScatterDims N R wf).start (ix1 k) idx 0 + ((vecScatterDims N R wf).window (ix1 k) 0 : Nat)).toNat = v.val
      rw [start_vec, window_vec]
      omega
  · rename_i h
    constructor
    · intro hf
      exact absurd hf (by simp)
    · intro h0
      exfalso
      apply h
      intro a
      obtain rfl : a = 0 := Subsingleton.elim _ _
      show 0 ≤ (vecScatterDims N R wf).start (ix1 k) idx 0 + ((vecScatterDims N R wf).window (ix1 k) 0 : Nat)
        ∧ (vecScatterDims N R wf).start (ix1 k) idx 0 + ((vecScatterDims N R wf).window (ix1 k) 0 : Nat) < (N : Int)
      rw [start_vec, window_vec]
      omega

theorem scatterAdd_vec_apply {N R : Nat} (wf : ScatterDims.WF ⟨1, ![N]⟩ ⟨2, ![R, 1]⟩ ⟨1, ![R]⟩ [] [0] [0] 1)
    (x : Arr1 N) (idx : IdxCol R) (u : Arr1 R) (v : Fin N) :
    Host.scatterAdd (F := Ideal) (φ := .f32) (vecScatterDims N R wf) x idx u (ix1 v)
      = x (ix1 v) + ∑ e : Fin R, if (idx (ix2 e 0)).toInt = (v.val : Int) then u (ix1 e) else 0 := by
  show x (ix1 v) + ∑ q ∈ Finset.univ.filter (fun q => (vecScatterDims N R wf).resultIdx? q idx = some (ix1 v)), u q
    = x (ix1 v) + ∑ e : Fin R, if (idx (ix2 e 0)).toInt = (v.val : Int) then u (ix1 e) else 0
  congr 1
  rw [Finset.sum_filter, sum_idx1]
  refine Finset.sum_congr rfl fun k _ => ?_
  simp only [resultIdx_vec wf idx k v]

theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

theorem clamp_wrap_of_toInt {N : Nat} (hN : 0 < N) (w : BitVec 32) (v : Fin N) (h : w.toInt = (v.val : Int)) :
    clampRow hN (wrapN N w) = v := by
  have hv : v.val < N := v.isLt
  have hw : wrapN N w = w := by
    unfold wrapN
    rw [if_neg (by omega)]
  rw [hw]
  refine Fin.ext ?_
  show min w.toInt.toNat (N - 1) = v.val
  rw [h, Int.toNat_natCast]
  omega

end Cert.LibRows

end
-- ==== Proof.Ref.OneLayer.lean ====
import proofs.«422636_j31413390803462_1_alg».proof.Proof.Gen.ReferenceIdeal
import proofs.«422636_j31413390803462_1_alg».proof.Proof.Spec
import proofs.«422636_j31413390803462_1_alg».proof.Proof.LibRows
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Gen Cert.LibRows

def srcWords (ei : IVec S2x640000 32) : IVec S640000 32 :=
  shapeCast _ (extractStridedSlice S1x640000 ![0, 0] ei slices_S2x640000_S1x640000_0_0) shapeCasts_S1x640000_S640000

def dstWords (ei : IVec S2x640000 32) : IVec S640000 32 :=
  shapeCast _ (extractStridedSlice S1x640000 ![1, 0] ei slices_S2x640000_S1x640000_1_0) shapeCasts_S1x640000_S640000

def srcCol (sw : IVec S640000 32) : IVec S640000x1 32 :=
  broadcastInDim S640000x1 ![0] bcast_S640000_S640000x1_0
    (select (cmpi .slt sw (broadcastInDim S640000 ![] bcast_S_S640000 (constantI S_ 32 0#32)))
      (addi sw (broadcastInDim S640000 ![] bcast_S_S640000 (constantI S_ 32 50000#32))) sw)

def dstCol (dw : IVec S640000 32) : IVec S640000x1 32 :=
  broadcastInDim S640000x1 ![0] bcast_S640000_S640000x1_0 dw

def aggregate (x : FVec Ideal S50000x128 .f32) (W : FVec Ideal S128x128 .f32) (sw dw : IVec S640000 32) :
    FVec Ideal S50000x128 .f32 :=
  Host.scatterAdd (F := Ideal) scatter_S50000x128_S640000x1_S640000x128_1_0_0_1
    (broadcastInDim S50000x128 ![] bcast_S_S50000x128 (constant (F := Ideal) S_ .f32 0x00000000#32)) (dstCol dw)
    (Host.gather gather_S50000x128_S640000x1_S640000x128_1_0_n_n_0_1_1128
      (Host.dotGeneral (F := Ideal) dot_S50000x128_S128x128_S50000x128_1_0_0_1_n_n none x W) (srcCol sw))

def withBias (x : FVec Ideal S50000x128 .f32) (W : FVec Ideal S128x128 .f32) (b : FVec Ideal S128 .f32)
    (sw dw : IVec S640000 32) : FVec Ideal S50000x128 .f32 :=
  addf (aggregate x W sw dw)
    (broadcastInDim S50000x128 ![0, 1] bcast_S1x128_S50000x128_0_1 (broadcastInDim S1x128 ![1] bcast_S128_S1x128_1 b))

def rowNorm (y : FVec Ideal S50000x128 .f32) : FVec Ideal S50000x1 .f32 :=
  Host.sqrt (broadcastInDim S50000x1 ![0] bcast_S50000_S50000x1_0
    (Host.reduceAdd (F := Ideal) (mulf y y) (constant (F := Ideal) S_ .f32 0x00000000#32) reducesTo_S50000x128_S50000_d1 h_S_))

def unitRows (y : FVec Ideal S50000x128 .f32) : FVec Ideal S50000x128 .f32 :=
  Host.divf (F := Ideal) y (broadcastInDim S50000x128 ![0, 1] bcast_S50000x1_S50000x128_0_1
    (maximumf (rowNorm y) (broadcastInDim S50000x1 ![] bcast_S_S50000x1 (constant (F := Ideal) S_ .f32 0x2B8CBCCC#32))))

def clipped (y : FVec Ideal S50000x128 .f32) : FVec Ideal S50000x128 .f32 :=
  maximumf y (broadcastInDim S50000x128 ![] bcast_S_S50000x128 (constant (F := Ideal) S_ .f32 0x00000000#32))

def layerOfWords (x : FVec Ideal S50000x128 .f32) (W : FVec Ideal S128x128 .f32) (b : FVec Ideal S128 .f32)
    (sw dw : IVec S640000 32) : FVec Ideal S50000x128 .f32 :=
  clipped (unitRows (withBias x W b sw dw))

def refLayer (x : FVec Ideal S50000x128 .f32) (ei : IVec S2x640000 32) (W : FVec Ideal S128x128 .f32)
    (b : FVec Ideal S128 .f32) : FVec Ideal S50000x128 .f32 :=
  layerOfWords x W b (srcWords ei) (dstWords ei)

theorem srcWords_apply (ei : IVec S2x640000 32) (e : Fin 640000) : srcWords ei (ix1 e) = ei (ix2 0 e) := by
  unfold srcWords
  refine (shapeCast_apply _ shapeCasts_S1x640000_S640000 (ix1 e) (ix2 (0 : Fin 1) e) (by
    rw [Shape.rowMajor_val_two, Shape.rowMajor_val_one]; show 0 * 640000 + e.val = e.val; omega)).trans ?_
  exact extractStridedSlice_apply ![0, 0] ei slices_S2x640000_S1x640000_0_0 (ix2 (0 : Fin 1) e) (ix2 (0 : Fin 2) e) (fun a =>
    match a with
    | ⟨0, _⟩ => by show (0 : Nat) = 0 + 0; omega
    | ⟨1, _⟩ => by show e.val = 0 + e.val; omega)

theorem dstWords_apply (ei : IVec S2x640000 32) (e : Fin 640000) : dstWords ei (ix1 e) = ei (ix2 1 e) := by
  unfold dstWords
  refine (shapeCast_apply _ shapeCasts_S1x640000_S640000 (ix1 e) (ix2 (0 : Fin 1) e) (by
    rw [Shape.rowMajor_val_two, Shape.rowMajor_val_one]; show 0 * 640000 + e.val = e.val; omega)).trans ?_
  exact extractStridedSlice_apply ![1, 0] ei slices_S2x640000_S1x640000_1_0 (ix2 (0 : Fin 1) e) (ix2 (1 : Fin 2) e) (fun a =>
    match a with
    | ⟨0, _⟩ => by show (1 : Nat) = 1 + 0; omega
    | ⟨1, _⟩ => by show e.val = 0 + e.val; omega)

theorem column_apply (v : IVec S640000 32) (e : Fin 640000) :
    broadcastInDim S640000x1 ![0] bcast_S640000_S640000x1_0 v (ix2 e 0) = v (ix1 e) :=
  broadcastInDim_apply _ bcast_S640000_S640000x1_0 v (ix2 e 0) (ix1 e) (fun a =>
    match a with
    | ⟨0, _⟩ => by show e.val = if (640000 : Nat) = 1 then 0 else e.val; rw [if_neg (by decide)])

theorem srcCol_apply (sw : IVec S640000 32) (e : Fin 640000) :
    srcCol sw (ix2 e 0) = wrapN 50000 (sw (ix1 e)) := by
  unfold srcCol
  rw [column_apply]
  exact wrap_word 50000 _

theorem dstCol_apply (dw : IVec S640000 32) (e : Fin 640000) : dstCol dw (ix2 e 0) = dw (ix1 e) := by
  unfold dstCol
  rw [column_apply]

theorem lhs_lin_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_lin_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_lin_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_lin_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem lin_apply (x : FVec Ideal S50000x128 .f32) (W : FVec Ideal S128x128 .f32) (r : Fin 50000) (d : Fin 128) :
    Host.dotGeneral (F := Ideal) dot_S50000x128_S128x128_S50000x128_1_0_0_1_n_n none x W (ix2 r d) = Cert.Spec.lin x W r d := by
  simp only [Host.dotGeneral]
  rw [Ideal.dotGeneral_apply, ← Equiv.sum_comp (contrEquiv1 dot_S50000x128_S128x128_S50000x128_1_0_0_1_n_n 128 rfl rfl).symm]
  unfold Cert.Spec.lin
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r d) ((contrEquiv1 dot_S50000x128_S128x128_S50000x128_1_0_0_1_n_n 128 rfl rfl).symm k) = ix2 r k :=
    funext fun a => Fin.ext (by
      match a with
      | ⟨0, _⟩ => exact lhs_lin_0 _ _
      | ⟨1, _⟩ => exact (lhs_lin_1 _ _).trans hk)
  have er : dot_S50000x128_S128x128_S50000x128_1_0_0_1_n_n.rhsIdx (ix2 r d) ((contrEquiv1 dot_S50000x128_S128x128_S50000x128_1_0_0_1_n_n 128 rfl rfl).symm k) = ix2 k d :=
    funext fun a => Fin.ext (by
      match a with
      | ⟨0, _⟩ => exact (rhs_lin_0 _ _).trans hk
      | ⟨1, _⟩ => exact rhs_lin_1 _ _)
  rw [el, er]

theorem gatherDims_eq : gather_S50000x128_S640000x1_S640000x128_1_0_n_n_0_1_1128 = rowGatherDims 50000 128 640000 gather_S50000x128_S640000x1_S640000x128_1_0_n_n_0_1_1128_wf := rfl

theorem scatterDims_eq : scatter_S50000x128_S640000x1_S640000x128_1_0_0_1 = rowScatterDims 50000 128 640000 scatter_S50000x128_S640000x1_S640000x128_1_0_0_1_wf := rfl

def WordsName (sw : IVec S640000 32) : Prop :=
  ∀ e : Fin 640000, ∃ n : Fin 50000, (sw (ix1 e)).toInt = (n.val : Int)

def SrcWordsName (ei : IVec S2x640000 32) : Prop :=
  ∀ e : Fin 640000, ∃ n : Fin 50000, (ei (ix2 (0 : Fin 2) e)).toInt = (n.val : Int)

def IsRow (w : IVec S640000 32) (r : Cert.Spec.IRow 640000) : Prop := ∀ e : Fin 640000, w (ix1 e) = r (ix2 0 e)

theorem carried_apply (x : FVec Ideal S50000x128 .f32) (W : FVec Ideal S128x128 .f32) (sw : IVec S640000 32)
    (src : Cert.Spec.IRow 640000) (hs : IsRow sw src) (hsrc : WordsName sw) (e : Fin 640000) (d : Fin 128) :
    Host.gather gather_S50000x128_S640000x1_S640000x128_1_0_n_n_0_1_1128 (Host.dotGeneral (F := Ideal) dot_S50000x128_S128x128_S50000x128_1_0_0_1_n_n none x W) (srcCol sw) (ix2 e d)
      = Cert.Spec.carried (Cert.Spec.lin x W) src e d := by
  obtain ⟨n, hn⟩ := hsrc e
  rw [gatherDims_eq, gather_rows_apply (by decide : 0 < 50000), srcCol_apply, clamp_wrap_of_toInt _ _ n hn, lin_apply]
  unfold Cert.Spec.carried
  have hnames : ∀ k : Fin 50000, Cert.Spec.names (src (ix2 0 e)) k.val ↔ k = n := fun k => by
    rw [← hs e]
    show (sw (ix1 e)).toInt = (k.val : Int) ↔ k = n
    rw [hn]
    constructor
    · intro h; exact Fin.ext (by omega)
    · rintro rfl; rfl
  simp only [hnames, Finset.sum_ite_eq', Finset.mem_univ, if_true]

theorem aggregate_apply (x : FVec Ideal S50000x128 .f32) (W : FVec Ideal S128x128 .f32) (sw dw : IVec S640000 32)
    (src dst : Cert.Spec.IRow 640000) (hs : IsRow sw src) (hd : IsRow dw dst) (hsrc : WordsName sw)
    (n : Fin 50000) (d : Fin 128) :
    aggregate x W sw dw (ix2 n d) = Cert.Spec.received (Cert.Spec.carried (Cert.Spec.lin x W) src) dst n d := by
  unfold aggregate
  rw [scatterDims_eq, scatterAdd_rows_apply]
  have hz : broadcastInDim S50000x128 ![] bcast_S_S50000x128 (constant (F := Ideal) S_ .f32 0x00000000#32) (ix2 n d) = 0 :=
    Ideal.ofBits_zero_f32
  rw [hz, zero_add]
  unfold Cert.Spec.received
  refine Finset.sum_congr rfl fun e _ => ?_
  rw [dstCol_apply, carried_apply x W sw src hs hsrc e d, hd e]
  exact if_congr Iff.rfl rfl rfl

theorem hostSqrt_at {s : Shape} (v : FVec Ideal s .f32) (i : s.Idx) : Host.sqrt v i = Ideal.sqrt (v i) := rfl
theorem hostDivf_at {s : Shape} (a b : FVec Ideal s .f32) (i : s.Idx) : Host.divf (F := Ideal) a b i = Ideal.div (a i) (b i) := rfl

theorem biasRows_apply (b : FVec Ideal S128 .f32) (n : Fin 50000) (d : Fin 128) :
    broadcastInDim S50000x128 ![0, 1] bcast_S1x128_S50000x128_0_1 (broadcastInDim S1x128 ![1] bcast_S128_S1x128_1 b) (ix2 n d)
      = Cert.Spec.vec b d := by
  refine (broadcastInDim_apply _ bcast_S1x128_S50000x128_0_1 _ (ix2 n d) (ix2 (0 : Fin 1) d) (fun a =>
    match a with
    | ⟨0, _⟩ => by show (0 : Nat) = if (1 : Nat) = 1 then 0 else n.val; rw [if_pos rfl]
    | ⟨1, _⟩ => by show d.val = if (128 : Nat) = 1 then 0 else d.val; rw [if_neg (by decide)])).trans ?_
  exact broadcastInDim_apply _ bcast_S128_S1x128_1 b (ix2 (0 : Fin 1) d) (ix1 d) (fun a =>
    match a with
    | ⟨0, _⟩ => by show d.val = if (128 : Nat) = 1 then 0 else d.val; rw [if_neg (by decide)])

theorem withBias_apply (x : FVec Ideal S50000x128 .f32) (W : FVec Ideal S128x128 .f32) (b : FVec Ideal S128 .f32)
    (sw dw : IVec S640000 32) (src dst : Cert.Spec.IRow 640000) (hs : IsRow sw src) (hd : IsRow dw dst)
    (hsrc : WordsName sw) (n : Fin 50000) (d : Fin 128) :
    withBias x W b sw dw (ix2 n d)
      = Cert.Spec.received (Cert.Spec.carried (Cert.Spec.lin x W) src) dst n d + Cert.Spec.vec b d := by
  unfold withBias
  rw [addf_apply, aggregate_apply x W sw dw src dst hs hd hsrc n d, biasRows_apply]

theorem rowNorm_apply (y : FVec Ideal S50000x128 .f32) (n : Fin 50000) :
    rowNorm y (ix2 n 0) = Ideal.sqrt (∑ k : Fin 128, y (ix2 n k) * y (ix2 n k)) := by
  unfold rowNorm
  rw [hostSqrt_at]
  refine congrArg Ideal.sqrt ?_
  refine (broadcastInDim_apply _ bcast_S50000_S50000x1_0 _ (ix2 n 0) (ix1 n) (fun a =>
    match a with
    | ⟨0, _⟩ => by show n.val = if (50000 : Nat) = 1 then 0 else n.val; rw [if_neg (by decide)])).trans ?_
  simp only [Host.reduceAdd, Ideal.hostReduceAdd_def]
  rw [Ideal.hostReduceAdd_single reducesTo_S50000x128_S50000_d1 (by decide)]
  have hz : constant (F := Ideal) S_ .f32 0x00000000#32 (Shape.Idx.first h_S_) = 0 := Ideal.ofBits_zero_f32
  rw [hz, zero_add]
  refine Finset.sum_congr rfl fun k _ => ?_
  rw [mulf_apply]
  have hi : (by decide : Shape.Reduces S50000x128 [1] S50000).lift (ix1 n) k = ix2 n k :=
    funext fun a => Fin.ext (by match a with | ⟨0, _⟩ => rfl | ⟨1, _⟩ => rfl)
  rw [hi]
  rfl

theorem divisor_apply (y : FVec Ideal S50000x128 .f32) (n : Fin 50000) (d : Fin 128) :
    broadcastInDim S50000x128 ![0, 1] bcast_S50000x1_S50000x128_0_1
        (maximumf (rowNorm y) (broadcastInDim S50000x1 ![] bcast_S_S50000x1 (constant (F := Ideal) S_ .f32 0x2B8CBCCC#32)))
        (ix2 n d)
      = max (Ideal.sqrt (∑ k : Fin 128, y (ix2 n k) * y (ix2 n k))) Cert.Spec.tiny := by
  refine (broadcastInDim_apply _ bcast_S50000x1_S50000x128_0_1 _ (ix2 n d) (ix2 n (0 : Fin 1)) (fun a =>
    match a with
    | ⟨0, _⟩ => by show n.val = if (50000 : Nat) = 1 then 0 else n.val; rw [if_neg (by decide)]
    | ⟨1, _⟩ => by show (0 : Nat) = if (1 : Nat) = 1 then 0 else d.val; rw [if_pos rfl])).trans ?_
  rw [maximumf_apply, rowNorm_apply]
  rfl

theorem unitRows_apply (y : FVec Ideal S50000x128 .f32) (n : Fin 50000) (d : Fin 128) :
    unitRows y (ix2 n d)
      = Ideal.div (y (ix2 n d)) (max (Ideal.sqrt (∑ k : Fin 128, y (ix2 n k) * y (ix2 n k))) Cert.Spec.tiny) := by
  unfold unitRows
  rw [hostDivf_at, divisor_apply]

theorem clipped_apply (y : FVec Ideal S50000x128 .f32) (i : S50000x128.Idx) : clipped y i = max (y i) 0 := by
  unfold clipped
  rw [maximumf_apply]
  have hz : broadcastInDim S50000x128 ![] bcast_S_S50000x128 (constant (F := Ideal) S_ .f32 0x00000000#32) i = 0 :=
    Ideal.ofBits_zero_f32
  rw [hz]

theorem layerOfWords_eq (x : FVec Ideal S50000x128 .f32) (W : FVec Ideal S128x128 .f32) (b : FVec Ideal S128 .f32)
    (sw dw : IVec S640000 32) (src dst : Cert.Spec.IRow 640000) (hs : IsRow sw src) (hd : IsRow dw dst)
    (hsrc : WordsName sw) :
    layerOfWords x W b sw dw = Cert.Spec.layer x W (Cert.Spec.vec b) src dst := by
  funext i
  obtain ⟨n, d, rfl⟩ : ∃ (n : Fin 50000) (d : Fin 128), i = ix2 n d := ⟨i 0, i 1, eq_ix2 i⟩
  unfold layerOfWords Cert.Spec.layer
  rw [clipped_apply, unitRows_apply, Cert.Spec.toMat_apply]
  unfold Cert.Spec.unitRelu
  simp only [withBias_apply x W b sw dw src dst hs hd hsrc]

theorem srcWords_isRow (ei : IVec S2x640000 32) : IsRow (srcWords ei) (Cert.Spec.row0 ei) := fun e => srcWords_apply ei e
theorem dstWords_isRow (ei : IVec S2x640000 32) : IsRow (dstWords ei) (Cert.Spec.row1 ei) := fun e => dstWords_apply ei e

theorem srcWords_name (ei : IVec S2x640000 32) (hsrc : SrcWordsName ei) : WordsName (srcWords ei) := fun e => by
  obtain ⟨n, hn⟩ := hsrc e
  exact ⟨n, by rw [srcWords_apply]; exact hn⟩

theorem refLayer_eq (x : FVec Ideal S50000x128 .f32) (ei : IVec S2x640000 32) (W : FVec Ideal S128x128 .f32)
    (b : FVec Ideal S128 .f32) (hsrc : SrcWordsName ei) :
    refLayer x ei W b = Cert.Spec.layer x W (Cert.Spec.vec b) (Cert.Spec.row0 ei) (Cert.Spec.row1 ei) :=
  layerOfWords_eq x W b (srcWords ei) (dstWords ei) _ _ (srcWords_isRow ei) (dstWords_isRow ei) (srcWords_name ei hsrc)

end Cert.ReferenceIdeal.Hand

end
-- ==== Proof.Ref.Head.lean ====
import proofs.«422636_j31413390803462_1_alg».proof.Proof.Gen.ReferenceIdeal
import proofs.«422636_j31413390803462_1_alg».proof.Proof.Spec
import Idealize.ShloMosaic.Lib.ValueIdx
import Idealize.ShloMosaic.Lib.Pipeline.Value
import Idealize.ShloMosaic.PureOps.Ideal.Laws
import Mathlib.Data.Finset.Fold

noncomputable section

namespace Cert.ReferenceIdeal.Hand

open Idealize.ShloMosaic Idealize.ShloMosaic.ValueIdx
open Cert.ReferenceIdeal Cert.ReferenceIdeal.Gen

def refScores (f : FVec Ideal S50000x128 .f32) (Wl : FVec Ideal S128x40 .f32) (bl : FVec Ideal S40 .f32) :
    FVec Ideal S50000x40 .f32 :=
  addf (Host.dotGeneral (F := Ideal) dot_S50000x128_S128x40_S50000x40_1_0_0_1_n_n none f Wl)
    (broadcastInDim S50000x40 ![0, 1] bcast_S1x40_S50000x40_0_1 (broadcastInDim S1x40 ![1] bcast_S40_S1x40_1 bl))

def rowMaxCol (l : FVec Ideal S50000x40 .f32) : FVec Ideal S50000x1 .f32 :=
  broadcastInDim S50000x1 ![0] bcast_S50000_S50000x1_0
    (maximumf (broadcastInDim S50000 ![] bcast_S_S50000 (constant (F := Ideal) S_ .f32 0xFF800000#32))
      (Host.reduce (FloatOps.maximumf (F := Ideal) (φ := .f32)) l (constant (F := Ideal) S_ .f32 0xFF800000#32)
        reducesTo_S50000x40_S50000_d1 h_S_))

def shiftedExp (l : FVec Ideal S50000x40 .f32) : FVec Ideal S50000x40 .f32 :=
  Host.exp (subf l (broadcastInDim S50000x40 ![0, 1] bcast_S50000x1_S50000x40_0_1 (rowMaxCol l)))

def softmaxRows (l : FVec Ideal S50000x40 .f32) : FVec Ideal S50000x40 .f32 :=
  Host.divf (F := Ideal) (shiftedExp l)
    (broadcastInDim S50000x40 ![0, 1] bcast_S50000x1_S50000x40_0_1
      (broadcastInDim S50000x1 ![0] bcast_S50000_S50000x1_0
        (Host.reduceAdd (F := Ideal) (shiftedExp l) (constant (F := Ideal) S_ .f32 0x00000000#32)
          reducesTo_S50000x40_S50000_d1 h_S_)))

def refProbs (f : FVec Ideal S50000x128 .f32) (Wl : FVec Ideal S128x40 .f32) (bl : FVec Ideal S40 .f32) :
    FVec Ideal S50000x40 .f32 :=
  softmaxRows (refScores f Wl bl)

theorem lhs_score_0 (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl
theorem lhs_score_1 (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q
theorem rhs_score_0 (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q
theorem rhs_score_1 (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

theorem classBias_apply (bl : FVec Ideal S40 .f32) (n : Fin 50000) (c : Fin 40) :
    broadcastInDim S50000x40 ![0, 1] bcast_S1x40_S50000x40_0_1 (broadcastInDim S1x40 ![1] bcast_S40_S1x40_1 bl) (ix2 n c)
      = Cert.Spec.vec bl c := by
  refine (broadcastInDim_apply _ bcast_S1x40_S50000x40_0_1 _ (ix2 n c) (ix2 (0 : Fin 1) c) (fun a =>
    match a with
    | ⟨0, _⟩ => by show (0 : Nat) = if (1 : Nat) = 1 then 0 else n.val; rw [if_pos rfl]
    | ⟨1, _⟩ => by show c.val = if (40 : Nat) = 1 then 0 else c.val; rw [if_neg (by decide)])).trans ?_
  exact broadcastInDim_apply _ bcast_S40_S1x40_1 bl (ix2 (0 : Fin 1) c) (ix1 c) (fun a =>
    match a with
    | ⟨0, _⟩ => by show c.val = if (40 : Nat) = 1 then 0 else c.val; rw [if_neg (by decide)])

theorem refScores_apply (f : FVec Ideal S50000x128 .f32) (Wl : FVec Ideal S128x40 .f32) (bl : FVec Ideal S40 .f32)
    (n : Fin 50000) (c : Fin 40) :
    refScores f Wl bl (ix2 n c) = Cert.Spec.score f Wl (Cert.Spec.vec bl) n c := by
  unfold refScores
  rw [addf_apply, classBias_apply]
  unfold Cert.Spec.score
  refine congrArg (· + Cert.Spec.vec bl c) ?_
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 n c) ((contrEquiv1 dot_S50000x128_S128x40_S50000x40_1_0_0_1_n_n 128 rfl rfl).symm k) = ix2 n k :=
    funext fun a => Fin.ext (by
      match a with
      | ⟨0, _⟩ => exact lhs_score_0 _ _
      | ⟨1, _⟩ => exact (lhs_score_1 _ _).trans hk)
  have er : dot_S50000x128_S128x40_S50000x40_1_0_0_1_n_n.rhsIdx (ix2 n c) ((contrEquiv1 dot_S50000x128_S128x40_S50000x40_1_0_0_1_n_n 128 rfl rfl).symm k) = ix2 k c :=
    funext fun a => Fin.ext (by
      match a with
      | ⟨0, _⟩ => exact (rhs_score_0 _ _).trans hk
      | ⟨1, _⟩ => exact rhs_score_1 _ _)
  rw [el, er]

theorem refScores_eq (f : FVec Ideal S50000x128 .f32) (Wl : FVec Ideal S128x40 .f32) (bl : FVec Ideal S40 .f32) :
    refScores f Wl bl = Cert.Spec.scores f Wl (Cert.Spec.vec bl) := by
  funext i
  obtain ⟨n, c, rfl⟩ : ∃ (n : Fin 50000) (c : Fin 40), i = ix2 n c := ⟨i 0, i 1, eq_ix2 i⟩
  unfold Cert.Spec.scores
  rw [refScores_apply, Cert.Spec.toMat_apply]

theorem hostExp_at {s : Shape} (v : FVec Ideal s .f32) (i : s.Idx) : Host.exp v i = Ideal.exp (v i) := rfl
theorem hostDivf_at' {s : Shape} (a b : FVec Ideal s .f32) (i : s.Idx) : Host.divf (F := Ideal) a b i = Ideal.div (a i) (b i) := rfl
theorem splat_at {t : Shape} (h : S_.BroadcastsInDim t (![] : Fin 0 → Fin t.rank)) (w : BitVec 32) (j : t.Idx) :
    broadcastInDim t ![] h (constant (F := Ideal) S_ .f32 w) j = Ideal.ofBits .f32 w := rfl

abbrev entries (l : FVec Ideal S50000x40 .f32) : Fin 50000 → Fin 40 → EReal := fun n k => l (ix2 n k)

theorem max_fold_max_self {ι : Type*} (s : Finset ι) (b : EReal) (g : ι → EReal) :
    max b (s.fold max b g) = s.fold max b g :=
  max_eq_right ((Finset.le_fold_max b).mpr (Or.inl le_rfl))

theorem rowMaxCol_apply (l : FVec Ideal S50000x40 .f32) (n : Fin 50000) :
    rowMaxCol l (ix2 n 0) = Cert.Spec.rowMax (entries l) n := by
  unfold rowMaxCol
  refine (broadcastInDim_apply _ bcast_S50000_S50000x1_0 _ (ix2 n 0) (ix1 n) (fun a =>
    match a with
    | ⟨0, _⟩ => by show n.val = if (50000 : Nat) = 1 then 0 else n.val; rw [if_neg (by decide)])).trans ?_
  rw [maximumf_apply, splat_at]
  rw [Host.reduce_eq_fold_single (FloatOps.maximumf (F := Ideal) (φ := .f32)) l _ reducesTo_S50000x40_S50000_d1
    (by decide : Shape.Reduces S50000x40 [1] S50000) h_S_ (ix1 n), constant_apply]
  have hl : (l ∘ (by decide : Shape.Reduces S50000x40 [1] S50000).lift (ix1 n)) = fun k : Fin 40 => l (ix2 n k) :=
    funext fun k => congrArg l (funext fun a => Fin.ext (by match a with | ⟨0, _⟩ => rfl | ⟨1, _⟩ => rfl))
  rw [hl]
  show max Cert.Spec.negInf ((Finset.univ : Finset (Fin 40)).fold max Cert.Spec.negInf fun k : Fin 40 => l (ix2 n k)) = _
  rw [max_fold_max_self]
  rfl

theorem shiftedExp_apply (l : FVec Ideal S50000x40 .f32) (n : Fin 50000) (c : Fin 40) :
    shiftedExp l (ix2 n c) = Ideal.exp (l (ix2 n c) - Cert.Spec.rowMax (entries l) n) := by
  unfold shiftedExp
  rw [hostExp_at, subf_apply]
  refine congrArg (fun t => Ideal.exp (l (ix2 n c) - t)) ?_
  refine (broadcastInDim_apply _ bcast_S50000x1_S50000x40_0_1 _ (ix2 n c) (ix2 n (0 : Fin 1)) (fun a =>
    match a with
    | ⟨0, _⟩ => by show n.val = if (50000 : Nat) = 1 then 0 else n.val; rw [if_neg (by decide)]
    | ⟨1, _⟩ => by show (0 : Nat) = if (1 : Nat) = 1 then 0 else c.val; rw [if_pos rfl])).trans ?_
  exact rowMaxCol_apply l n

theorem softmaxRows_apply (l : FVec Ideal S50000x40 .f32) (n : Fin 50000) (c : Fin 40) :
    softmaxRows l (ix2 n c) = Cert.Spec.softmax (entries l) n c := by
  unfold softmaxRows Cert.Spec.softmax
  rw [hostDivf_at', shiftedExp_apply]
  refine congrArg (Ideal.div _) ?_
  refine (broadcastInDim_apply _ bcast_S50000x1_S50000x40_0_1 _ (ix2 n c) (ix2 n (0 : Fin 1)) (fun a =>
    match a with
    | ⟨0, _⟩ => by show n.val = if (50000 : Nat) = 1 then 0 else n.val; rw [if_neg (by decide)]
    | ⟨1, _⟩ => by show (0 : Nat) = if (1 : Nat) = 1 then 0 else c.val; rw [if_pos rfl])).trans ?_
  refine (broadcastInDim_apply _ bcast_S50000_S50000x1_0 _ (ix2 n 0) (ix1 n) (fun a =>
    match a with
    | ⟨0, _⟩ => by show n.val = if (50000 : Nat) = 1 then 0 else n.val; rw [if_neg (by decide)])).trans ?_
  simp only [Host.reduceAdd, Ideal.hostReduceAdd_def]
  rw [Ideal.hostReduceAdd_single reducesTo_S50000x40_S50000_d1 (by decide)]
  have hz : constant (F := Ideal) S_ .f32 0x00000000#32 (Shape.Idx.first h_S_) = 0 := Ideal.ofBits_zero_f32
  rw [hz, zero_add]
  refine Finset.sum_congr rfl fun k _ => ?_
  have hi : (by decide : Shape.Reduces S50000x40 [1] S50000).lift (ix1 n) k = ix2 n k :=
    funext fun a => Fin.ext (by match a with | ⟨0, _⟩ => rfl | ⟨1, _⟩ => rfl)
  rw [hi]
  exact shiftedExp_apply l n k

theorem refProbs_eq (f : FVec Ideal S50000x128 .f32) (Wl : FVec Ideal S128x40 .f32) (bl : FVec Ideal S40 .f32) :
    refProbs f Wl bl = Cert.Spec.probs f Wl (Cert.Spec.vec bl) := by
  funext i
  obtain ⟨n, c, rfl⟩ : ∃ (n : Fin 50000) (c : Fin 40), i = ix2 n c := ⟨i 0, i 1, eq_ix2 i⟩
  unfold refProbs Cert.Spec.probs
  rw [softmaxRows_apply, Cert.Spec.toMat_apply]
  have he : entries (refScores f Wl bl) = Cert.Spec.score f Wl (Cert.Spec.vec bl) :=
    funext fun p => funext fun q => refScores_apply f Wl bl p q
  rw [he]

end Cert.ReferenceIdeal.Hand

end
-- ==== Proof.Ref.Stages.lean ====
import proofs.«422636_j31413390803462_1_alg».proof.Proof.Spec
import proofs.«422636_j31413390803462_1_alg».proof.Proof.Ref.OneLayer
import proofs.«422636_j31413390803462_1_alg».proof.Proof.Ref.Head

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

def SrcNamesNodes (c : Dev nD) : Prop :=
  ∀ e : Fin 640000, ∃ n : Fin 50000, (m ((c.tc : Thread nD τ).loc main_arg1) (ix2 (0 : Fin 2) e)).toInt = (n.val : Int)

abbrev feat4 (c : Dev nD) : Cert.Spec.Mat 50000 128 :=
  Cert.Spec.x4 (m ((c.tc : Thread nD τ).loc main_arg0))
    (m ((c.tc : Thread nD τ).loc main_arg2)) (m ((c.tc : Thread nD τ).loc main_arg4)) (m ((c.tc : Thread nD τ).loc main_arg6)) (m ((c.tc : Thread nD τ).loc main_arg8))
    (Cert.Spec.vec (m ((c.tc : Thread nD τ).loc main_arg3))) (Cert.Spec.vec (m ((c.tc : Thread nD τ).loc main_arg5)))
    (Cert.Spec.vec (m ((c.tc : Thread nD τ).loc main_arg7))) (Cert.Spec.vec (m ((c.tc : Thread nD τ).loc main_arg9)))
    (Cert.Spec.row0 (m ((c.tc : Thread nD τ).loc main_arg1))) (Cert.Spec.row1 (m ((c.tc : Thread nD τ).loc main_arg1)))

def refFeat4 (c : Dev nD) : FVec Ideal S50000x128 .f32 :=
  refLayer (refLayer (refLayer (refLayer (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg1)) (m ((c.tc : Thread nD τ).loc main_arg4)) (m ((c.tc : Thread nD τ).loc main_arg5)))
    (m ((c.tc : Thread nD τ).loc main_arg1)) (m ((c.tc : Thread nD τ).loc main_arg6)) (m ((c.tc : Thread nD τ).loc main_arg7)))
    (m ((c.tc : Thread nD τ).loc main_arg1)) (m ((c.tc : Thread nD τ).loc main_arg8)) (m ((c.tc : Thread nD τ).loc main_arg9))

theorem refFeat4_eq (c : Dev nD) (h : SrcNamesNodes m c) : refFeat4 m c = feat4 m c := by
  have h' : SrcWordsName (m ((c.tc : Thread nD τ).loc main_arg1)) := h
  unfold refFeat4
  rw [refLayer_eq _ _ _ _ h', refLayer_eq _ _ _ _ h', refLayer_eq _ _ _ _ h', refLayer_eq _ _ _ _ h']
  rfl

theorem refScores_feat4 (c : Dev nD) (h : SrcNamesNodes m c) :
    refScores (refFeat4 m c) (m ((c.tc : Thread nD τ).loc main_arg10)) (m ((c.tc : Thread nD τ).loc main_arg11))
      = Cert.Spec.scores (feat4 m c) (m ((c.tc : Thread nD τ).loc main_arg10)) (Cert.Spec.vec (m ((c.tc : Thread nD τ).loc main_arg11))) := by
  rw [refScores_eq, refFeat4_eq m c h]

theorem refProbs_feat4 (c : Dev nD) (h : SrcNamesNodes m c) :
    refProbs (refFeat4 m c) (m ((c.tc : Thread nD τ).loc main_arg10)) (m ((c.tc : Thread nD τ).loc main_arg11))
      = Cert.Spec.probs (feat4 m c) (m ((c.tc : Thread nD τ).loc main_arg10)) (Cert.Spec.vec (m ((c.tc : Thread nD τ).loc main_arg11))) := by
  rw [refProbs_eq, refFeat4_eq m c h]

end Cert.ReferenceIdeal.Hand

end
-- ==== Proof.Ref.RunA.lean ====
import proofs.«422636_j31413390803462_1_alg».proof.Proof.Ref.Ops
import proofs.«422636_j31413390803462_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable (W : Valuation τ sig (Elt Ideal))

theorem layer1_run : after layer1Ops W main_v23
    = layerOfWords (W main_arg0) (W main_arg2) (W main_arg3) (W main_v1) (W main_v3) := by
  after_results_simp <;> rfl
theorem layer2_run : after layer2Ops W main_v43
    = layerOfWords (W main_v23) (W main_arg4) (W main_arg5) (W main_v1) (W main_v3) := by
  after_results_simp <;> rfl

end Cert.ReferenceIdeal.Hand

end
-- ==== Proof.Ref.RunB.lean ====
import proofs.«422636_j31413390803462_1_alg».proof.Proof.Ref.Ops
import proofs.«422636_j31413390803462_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable (W : Valuation τ sig (Elt Ideal))

theorem layer3_run : after layer3Ops W main_v63
    = layerOfWords (W main_v43) (W main_arg6) (W main_arg7) (W main_v1) (W main_v3) := by
  after_results_simp <;> rfl
theorem layer4_run : after layer4Ops W main_v83
    = layerOfWords (W main_v63) (W main_arg8) (W main_arg9) (W main_v1) (W main_v3) := by
  after_results_simp <;> rfl

theorem head_scores : after headOps W main_v87 = refScores (W main_v83) (W main_arg10) (W main_arg11) := by
  after_results_simp <;> rfl
theorem head_probs : after headOps W main_v98 = refProbs (W main_v83) (W main_arg10) (W main_arg11) := by
  after_results_simp <;> rfl

end Cert.ReferenceIdeal.Hand

end
-- ==== Proof.Ref.Run.lean ====
import proofs.«422636_j31413390803462_1_alg».proof.Proof.Ref.RunA
import proofs.«422636_j31413390803462_1_alg».proof.Proof.Ref.RunB

noncomputable section

namespace Cert.ReferenceIdeal.Hand

open Cert.ReferenceIdeal Cert.ReferenceIdeal.Gen Idealize.ShloMosaic Idealize.ShloMosaic.TcCoe Idealize.SL.Sem Idealize.ShloMosaic.StableHlo

-- a stretch of operations keeps every buffer none of them writes
theorem keeps (W : Valuation τ sig (Elt Ideal)) (l : List (HloOp τ sig (Elt Ideal))) (b : Ref sig .tc)
    (h : ∀ op ∈ l, (Proc.devRef .tc b : DevRef τ sig) ∉ op.writes) : after l W (Proc.devRef .tc b) = W (Proc.devRef .tc b) :=
  after_of_forall_not_mem l W h

variable (m : (ℓ : Loc nD τ sig) → Buf (Elt Ideal) ℓ) (c : Dev nD)

abbrev atHead : Valuation τ sig (Elt Ideal) :=
  after layer4Ops (after layer3Ops (after layer2Ops (after layer1Ops (after rowOps (launchContents m c)))))

theorem ops_run (b : Ref sig .tc) :
    after ops (launchContents m c) (Proc.devRef .tc b) = after headOps (atHead m c) (Proc.devRef .tc b) := by
  unfold ops atHead
  rw [after_append, after_append, after_append, after_append, after_append]

theorem feat_run : atHead m c main_v83 = refFeat4 m c := by
  unfold atHead
  rw [layer4_run, layer3_run, layer2_run, layer1_run]
  rfl

theorem run (ρ : Dev nD → PrngReg) :
    θ_run defs (onTc (τ := τ) (main (F := Ideal))) ⟨m, fun _ => 0, ρ⟩ fun r => ∀ c : Dev nD,
      r.2.mem ((c.tc : Thread nD τ).loc main_v87)
        = refScores (refFeat4 m c) (m ((c.tc : Thread nD τ).loc main_arg10)) (m ((c.tc : Thread nD τ).loc main_arg11))
      ∧ r.2.mem ((c.tc : Thread nD τ).loc main_v98)
        = refProbs (refFeat4 m c) (m ((c.tc : Thread nD τ).loc main_arg10)) (m ((c.tc : Thread nD τ).loc main_arg11))
      ∧ r.2.mem ((c.tc : Thread nD τ).loc main_v83) = refFeat4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    have k10 : atHead m c main_arg10 = m ((c.tc : Thread nD τ).loc main_arg10) := by simp (disch := decide) only [atHead, keeps] <;> rfl
    have k11 : atHead m c main_arg11 = m ((c.tc : Thread nD τ).loc main_arg11) := by simp (disch := decide) only [atHead, keeps] <;> rfl
    exact ⟨(h c main_v87).trans ((ops_run m c _).trans ((head_scores _).trans (by rw [feat_run m c, k10, k11]))),
      (h c main_v98).trans ((ops_run m c _).trans ((head_probs _).trans (by rw [feat_run m c, k10, k11]))),
      (h c main_v83).trans ((ops_run m c _).trans ((keeps _ _ _ (by decide)).trans (feat_run m c))),
      (h c main_arg0).trans ((ops_run m c _).trans (by simp (disch := decide) only [atHead, keeps] <;> rfl)),
      (h c main_arg1).trans ((ops_run m c _).trans (by simp (disch := decide) only [atHead, keeps] <;> rfl)),
      (h c main_arg2).trans ((ops_run m c _).trans (by simp (disch := decide) only [atHead, keeps] <;> rfl)),
      (h c main_arg3).trans ((ops_run m c _).trans (by simp (disch := decide) only [atHead, keeps] <;> rfl)),
      (h c main_arg4).trans ((ops_run m c _).trans (by simp (disch := decide) only [atHead, keeps] <;> rfl)),
      (h c main_arg5).trans ((ops_run m c _).trans (by simp (disch := decide) only [atHead, keeps] <;> rfl)),
      (h c main_arg6).trans ((ops_run m c _).trans (by simp (disch := decide) only [atHead, keeps] <;> rfl)),
      (h c main_arg7).trans ((ops_run m c _).trans (by simp (disch := decide) only [atHead, keeps] <;> rfl)),
      (h c main_arg8).trans ((ops_run m c _).trans (by simp (disch := decide) only [atHead, keeps] <;> rfl)),
      (h c main_arg9).trans ((ops_run m c _).trans (by simp (disch := decide) only [atHead, keeps] <;> rfl)),
      (h c main_arg10).trans ((ops_run m c _).trans (by simp (disch := decide) only [atHead, keeps] <;> rfl)),
      (h c main_arg11).trans ((ops_run m c _).trans (by simp (disch := decide) only [atHead, keeps] <;> rfl))⟩)
    (run_seq scopedRefs_eq scopedSems_eq defs main (fun _ => ops) main_eq (fun _ => ops_sub) m ρ (fun _ => ops_fresh))

end Cert.ReferenceIdeal.Hand

end
-- ==== Proof.KB.BodyLib.lean ====
import proofs.«422636_j31413390803462_1_alg».proof.Proof.Gen.Kernel
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

theorem zoffs : (![0, 0] : Fin 2 → ℕ) = fun _ => 0 := funext fun a => by fin_cases a <;> rfl

/-- A whole-buffer store made last decides what the buffer reads as. -/
theorem readStored {κ : Kind} {sp : Space} {S : Shape} {e : EltTy} (v : View sig κ sp S e) (f : v.ty.Contents (Elt F))
    {off : Fin S.rank → ℕ} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

theorem loadStored {κ : Kind} {sp : Space} {S : Shape} {e : EltTy} (v : View sig κ sp S e)
    {off : Fin S.rank → ℕ} (hz : off = fun _ => 0) (inb : ∀ a, off a + S.size a ≤ S.size a)
    (p : S.Idx → Elt F e) (L : List (View.Piece (Elt F) S e)) :
    v.readCov ((⟨Rect.unit off S.size inb, p⟩ : View.Piece (Elt F) S e) :: L) (Rect.unit off S.size inb).toLoadRect = p := by
  rw [View.readCov_eq_canon_ld _ _ _ (fun y => ⟨_, List.mem_cons_self, View.mem_set_unit_zero hz inb y⟩),
    View.canon_cons_unit_zero hz, View.ld_unit_zero hz]

theorem loadHeld {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

end Cert.Kernel.Hand

end
-- ==== Proof.KB.GBody.lean ====
import proofs.«422636_j31413390803462_1_alg».proof.Proof.KB.BodyLib
import proofs.«422636_j31413390803462_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The point is the first node tile of its edge block. -/
abbrev firstTile (i : grid2.Coords) : Prop :=
  (Scalar.cmpi .ne (Scalar.extui (Scalar.cmpi .eq (BitVec.ofNat 32 (i 1).val) 0#32)) 0#32) = 1#1

/-- Every load and store of the body is of a whole buffer, so each buffer ends at the payload last stored into it. -/
theorem sound_gather (c : Dev nD) (E : Set ℕ) (i : grid2.Coords)
    (arg2 : Memref sig .tc .vmem S2000x128 .f32) (harg2 : arg2.IsWhole) (arg3 : Memref sig .tc .vmem S128x128 .f32) (harg3 : arg3.IsWhole)
    (arg4 : Memref sig .tc .vmem S1x3200 .i32) (harg4 : arg4.IsWhole) (arg5 : Memref sig .tc .vmem S3200x128 .bf16) (harg5 : arg5.IsWhole)
    (arg6 : Memref sig .tc .vmem S3200x128 .f32) (harg6 : arg6.IsWhole)
    (x : Vec F S2000x128 .f32) (w : Vec F S128x128 .f32) (s : Vec F S1x3200 .i32) (a r : Vec F S3200x128 .f32)
    (hr : r = if firstTile i then k2_pay1 else a) (K : PUnit → sProp 𝕄) :
    iprop(owns (c : Thread nD τ) arg2 fullShare x ∗ owns (c : Thread nD τ) arg3 fullShare w ∗ owns (c : Thread nD τ) arg4 fullShare s
        ∗ (∃ d, owns (c : Thread nD τ) arg5 fullShare d) ∗ owns (c : Thread nD τ) arg6 fullShare a
        ∗ (iprop(owns (c : Thread nD τ) arg2 fullShare x ∗ owns (c : Thread nD τ) arg3 fullShare w ∗ owns (c : Thread nD τ) arg4 fullShare s
            ∗ owns (c : Thread nD τ) arg5 fullShare (k2_pay3 (k2_pay2 i s x w r))
            ∗ owns (c : Thread nD τ) arg6 fullShare (k2_pay2 i s x w r)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel owns
  iintro ⟨⟨%fx, %hfx, Hx⟩, ⟨%fw, %hfw, Hw⟩, ⟨%fs, %hfs, Hs⟩, ⟨%d, %fo, -, Ho⟩, ⟨%fa, %hfa, Ha⟩, Hk⟩
  obtain rfl := harg2.eq_unread hfx; obtain rfl := harg3.eq_unread hfw; obtain rfl := harg4.eq_unread hfs; obtain rfl := harg6.eq_unread hfa
  by_cases hc : firstTile i <;> [rw [if_pos hc] at hr; rw [if_neg hc] at hr] <;> subst hr
  all_goals
    sl_exec (disch := first | exact hc)
    sl_step
    iapply Hk
    isplitl [Hx]
    · iexists _; isplitr; · ipureintro; exact harg2.read_unread _
      iexact Hx
    isplitl [Hw]
    · iexists _; isplitr; · ipureintro; exact harg3.read_unread _
      iexact Hw
    isplitl [Hs]
    · iexists _; isplitr; · ipureintro; exact harg4.read_unread _
      iexact Hs
    isplitl [Ho]
    all_goals
      iexists _; isplitr
      swap; · first | iexact Ho | iexact Ha
      ipureintro
      sl_unfold_words
      simp only [readStored (S := S3200x128) _ _ zoffs, loadStored (S := S3200x128) _ zoffs, loadHeld (S := S1x3200) harg4 zoffs,
        loadHeld (S := S2000x128) harg2 zoffs, loadHeld (S := S128x128) harg3 zoffs, loadHeld (S := S3200x128) harg6 zoffs]

/-- The first launch's product is the later launches': a shape cast to the same shape is the identity. -/
theorem k0_pay2_eq : @k0_pay2 F _ = k2_pay2 := by
  funext i s x w a; unfold k0_pay2 k2_pay2; simp only [shapeCast_self]

theorem cc0_eq : cc0__gather_kernel (F := F) = cc2__gather_kernel := by
  rw [cc0__gather_kernel_eq_skeleton, cc2__gather_kernel_eq_skeleton]
  unfold cc0__gather_kernel_skel cc2__gather_kernel_skel
  rw [k0_pay2_eq]; rfl

end Cert.Kernel.Hand

end
-- ==== Proof.KB.G0.lean ====
import proofs.«422636_j31413390803462_1_alg».proof.Proof.Gen.Kernel.Launch
import proofs.«422636_j31413390803462_1_alg».proof.Proof.Gen.Kernel.Points
import proofs.«422636_j31413390803462_1_alg».proof.Proof.KB.GBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S2000x128 .f32 := iblk0 V c 0 t
abbrev wblk0 (c : Dev nD) (t : Fin cfg0.N) : Vec F S128x128 .f32 := iblk0 V c 1 t
abbrev sblk0 (c : Dev nD) (t : Fin cfg0.N) : Vec F S1x3200 .i32 := iblk0 V c 2 t

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

def acc0 (c : Dev nD) : (n : ℕ) → n < cfg0.N → Vec F S3200x128 .f32
  | 0, hn => k0_pay2 (grid0.coords ⟨0, hn⟩) (sblk0 V c ⟨0, hn⟩) (xblk0 V c ⟨0, hn⟩) (wblk0 V c ⟨0, hn⟩) (k0_pay1 (F := F))
  | n + 1, hn =>
    k0_pay2 (grid0.coords ⟨n + 1, hn⟩) (sblk0 V c ⟨n + 1, hn⟩) (xblk0 V c ⟨n + 1, hn⟩) (wblk0 V c ⟨n + 1, hn⟩)
      (if (n + 1) % 25 = 0 then (k0_pay1 (F := F)) else acc0 c n (Nat.lt_of_succ_lt hn))

theorem acc0_first (c : Dev nD) (t : Fin cfg0.N) (h : t.val % 25 = 0) :
    acc0 V c t.val t.isLt = k0_pay2 (grid0.coords t) (sblk0 V c t) (xblk0 V c t) (wblk0 V c t) (k0_pay1 (F := F)) := by
  obtain ⟨n, hn⟩ := t
  cases n with
  | zero => rfl
  | succ n => exact congrArg (k0_pay2 _ _ _ _) (if_pos h)

theorem acc0_next (c : Dev nD) (t : Fin cfg0.N) (h : ¬ t.val % 25 = 0) :
    acc0 V c t.val t.isLt = k0_pay2 (grid0.coords t) (sblk0 V c t) (xblk0 V c t) (wblk0 V c t)
      (acc0 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

def Phi0 (c : Dev nD) : (n : ℕ) → n ≤ cfg0.N → sProp 𝕄
  | 0, _ => Pipeline.ΦA spec0 c
  | n + 1, hn => iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- At every position the accumulator is held, past the first at what the point before left. -/
theorem Phi0_acc (c : Dev nD) (n : ℕ) (h : n ≤ cfg0.N) :
    Phi0 V c n h ⊢ iprop(∃ a, ⌜∀ hz : n ≠ 0, a = acc0 V c (n - 1) (by omega)⌝
      ∗ owns (c : Thread nD τ) (Memref.whole cc0_scratch0) fullShare a
      ∗ Pipeline.scopedRestBut (Ix := Unit) (Name := ℕ) (U := UR sig nD τ) (Lvl := ℕ) (Val := Elt F) spec0 c [cc0_scratch0]
      ∗ (∃ r, prngReg c r)) := by
  cases n with
  | zero =>
    rw [show Phi0 V c 0 h = Pipeline.ΦA spec0 c from rfl]; unfold Pipeline.ΦA; rw [scopedRest0_split]; simp only [owns_whole]
    iintro ⟨⟨⟨%a, Ha⟩, Hr⟩, Hg⟩
    iexists a; isplitr; · ipureintro; exact fun hz => absurd rfl hz
    iframe
  | succ n =>
    unfold Phi0
    iintro ⟨Ha, Hr, Hg⟩
    iexists acc0 V c n h; isplitr; · ipureintro; exact fun _ => rfl
    iframe

/-- One step of the accumulator's recursion, from what the body finds in the accumulator. -/
theorem acc0_step (c : Dev nD) (t : Fin cfg0.N) (a : Vec F S3200x128 .f32)
    (ha : ∀ hz : t.val ≠ 0, a = acc0 V c (t.val - 1) (Nat.lt_of_le_of_lt (Nat.sub_le _ _) t.isLt)) :
    k2_pay2 (grid0.coords t) (sblk0 V c t) (xblk0 V c t) (wblk0 V c t) (if firstTile (grid0.coords t) then k2_pay1 else a)
      = acc0 V c t.val t.isLt := by
  by_cases hm : t.val % 25 = 0
  · rw [acc0_first V c t hm, k0_pay2_eq, if_pos ((hcond0_0 t).mpr hm)]; rfl
  · rw [acc0_next V c t hm, k0_pay2_eq, if_neg fun h => hm ((hcond0_0 t).mp h), ha fun e => hm (by rw [e])]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The inputs hold their blocks, the body runs on them and on what the accumulator holds, and leaves the recursion's next value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl,
    after0_0, after0_1, after0_2, after0_3]
  rw [cc0_eq, show @k0_pay3 F _ = k2_pay3 from rfl]
  iintro ⟨HΦ, Ho, ⟨%dx, Hx⟩, ⟨%dw, Hw⟩, ⟨%ds, Hs⟩, ⟨%dy, Hy⟩⟩
  ihave HΦ := (Phi0_acc V c t.val (Nat.le_of_lt t.isLt)) $$ HΦ
  icases HΦ with ⟨%a, %ha, Ha, Hr, Hg⟩
  iapply (sound_gather c Set.univ (grid0.coords t) _ _ _ _ _ _ _ _ (Memref.whole cc0_scratch0) (Memref.isWhole_whole _)
    (xblk0 V c t) (wblk0 V c t) (sblk0 V c t) a _ rfl _)
  iframe Hx Hw Hs Ha
  isplitl [Hy]; · iexists _; iexact Hy
  iintro ⟨Hx, Hw, Hs, Hy, Ha⟩
  rw [acc0_step V c t a ha]
  isplitl [Ha Hr Hg]
  · rw [Phi0]
    iframe
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c cfg0.N (Nat.le_refl _) from rfl]
  refine (Phi0_acc V c _ _).trans ?_
  unfold Pipeline.ΦA; rw [scopedRest0_split]; simp only [owns_whole]
  iintro ⟨%a, -, Ha, Hr, Hg⟩
  iframe Hr Hg
  iexists _; iexact Ha

end Cert.Kernel.Hand

end
-- ==== Proof.KB.ScatterLib.lean ====
import proofs.«422636_j31413390803462_1_alg».proof.Proof.Gen.Kernel.Launch
import proofs.«422636_j31413390803462_1_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem sZeros : (![0, 0] : Fin 2 → ℕ) = fun _ => 0 := funext fun a => by fin_cases a <;> rfl

/-- A buffer reads, after stores the last of which went through its whole rectangle, that store's payload. -/
theorem sStored {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole rectangle after such a store reads the stored payload. -/
theorem sLoaded {sg : RefSig} {κ : Kind} {sp : Space} {S : Shape} {e : EltTy} (v : View sg κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

abbrev isFirst (i : grid1.Coords) : Prop := (Scalar.cmpi .ne (Scalar.extui (Scalar.cmpi .eq (BitVec.ofNat 32 (i 1).val) 0#32)) 0#32) = 1#1
abbrev isLast (i : grid1.Coords) : Prop := k1_cond2 i = 1#1
theorem isFirst_iff : ∀ t : Fin grid1.N, isFirst (grid1.coords t) ↔ t.val % 200 = 0 := by decide +kernel
theorem isLast_iff : ∀ t : Fin grid1.N, isLast (grid1.coords t) ↔ t.val % 200 = 199 := by decide +kernel

set_option maxHeartbeats 1000000 in
/-- One run of the body: the accumulator (zero at a first block) gains the block's product; a last block writes the output. -/
theorem sound_scatter (c : Dev nD) (E : Set ℕ) (i : grid1.Coords)
    (mD : Memref sig .tc .vmem S1x3200 .i32) (hD : mD.IsWhole) (mG : Memref sig .tc .vmem S3200x128 .bf16) (hG : mG.IsWhole)
    (mB : Memref sig .tc .vmem S1x128 .f32) (hB : mB.IsWhole) (mO : Memref sig .tc .vmem S2000x128 .f32) (hO : mO.IsWhole)
    (mS : Memref sig .tc .vmem S2000x128 .f32) (hS : mS.IsWhole)
    (xd : Vec F S1x3200 .i32) (xg : Vec F S3200x128 .bf16) (xb : Vec F S1x128 .f32) (xo xs : Vec F S2000x128 .f32)
    (K : PUnit → sProp 𝕄) :
    iprop(owns (c : Thread nD τ) mD fullShare xd ∗ owns (c : Thread nD τ) mG fullShare xg ∗ owns (c : Thread nD τ) mB fullShare xb
        ∗ owns (c : Thread nD τ) mO fullShare xo ∗ owns (c : Thread nD τ) mS fullShare xs
        ∗ (iprop(owns (c : Thread nD τ) mD fullShare xd ∗ owns (c : Thread nD τ) mG fullShare xg ∗ owns (c : Thread nD τ) mB fullShare xb
            ∗ owns (c : Thread nD τ) mO fullShare
                (if isLast i then k1_pay3 (k1_pay2 i xd xg (if isFirst i then k1_pay1 else xs)) xb else xo)
            ∗ owns (c : Thread nD τ) mS fullShare (k1_pay2 i xd xg (if isFirst i then k1_pay1 else xs))) -∗ K ⟨⟩))
      ⊢ wp frame (wpE (defs₀ (F := F)) Variants.none c none) E (cc1__scatter_kernel i mD hD mG hG mB hB mO hO mS hS) K := by
  by_cases hF : isFirst i <;> by_cases hL : isLast i <;>
    (first | rw [if_pos hF] | rw [if_neg hF]) <;> (first | rw [if_pos hL] | rw [if_neg hL])
  all_goals
    simp only [cc1__scatter_kernel_eq_skeleton]; unfold cc1__scatter_kernel_skel
    unfold owns
    iintro ⟨⟨%fd, %hfd, HD⟩, ⟨%fg, %hfg, HG⟩, ⟨%fb, %hfb, HB⟩, ⟨%fo, %hfo, HO⟩, ⟨%fs, %hfs, HS⟩, Hk⟩
    obtain rfl := hD.eq_unread hfd; obtain rfl := hG.eq_unread hfg; obtain rfl := hB.eq_unread hfb
    obtain rfl := hO.eq_unread hfo; obtain rfl := hS.eq_unread hfs
    sl_exec (disch := first | sl_exact hF | sl_exact hL)
    sl_step
    iapply Hk
    isplitl [HD]
    · iexists _; isplitr; · ipureintro; exact hfd
      iexact HD
    isplitl [HG]
    · iexists _; isplitr; · ipureintro; exact hfg
      iexact HG
    isplitl [HB]
    · iexists _; isplitr; · ipureintro; exact hfb
      iexact HB
    isplitl [HO]
    · iexists _; isplitr
      swap; · iexact HO
      ipureintro
      sl_unfold_words
      simp only [sStored (S := S2000x128) _ _ sZeros, View.readAt_eq_ld, hfd, hfg, hfb, hfo, hfs,
        View.ld_unit_zero (S := S1x3200) sZeros, View.ld_unit_zero (S := S3200x128) sZeros,
        View.ld_unit_zero (S := S2000x128) sZeros, View.ld_unit_zero (S := S1x128) sZeros,
        sLoaded (S := S2000x128) _ sZeros]
    iexists _; isplitr
    swap; · iexact HS
    ipureintro
    sl_unfold_words
    simp only [sStored (S := S2000x128) _ _ sZeros, View.readAt_eq_ld, hfd, hfg, hfs,
      View.ld_unit_zero (S := S1x3200) sZeros, View.ld_unit_zero (S := S3200x128) sZeros,
      View.ld_unit_zero (S := S2000x128) sZeros, sLoaded (S := S2000x128) _ sZeros]

theorem scatter3_eq : @cc3__scatter_kernel F _ = @cc1__scatter_kernel F _ := rfl
theorem scatter5_eq : @cc5__scatter_kernel F _ = @cc1__scatter_kernel F _ := rfl
theorem scatter7_eq : @cc7__scatter_kernel F _ = @cc1__scatter_kernel F _ := rfl

section Inv

variable {gr W : ℕ} (spec : Fin W → Pipeline.WinSpec sig gr) (s : Ref sig .tc) (c : Dev nD)

/-- Buffer `s` at contents `X`, beside the rest of what the launch hands over. -/
def heldAt (X : s.ty.shape.Idx → Elt F s.ty.elt) : sProp 𝕄 :=
  iprop(owns (c : Thread nD τ) (Memref.whole s) fullShare X
    ∗ Pipeline.scopedRestBut (Ix := Unit) (Name := ℕ) (U := UR sig nD τ) (Lvl := ℕ) (Val := Elt F) spec c [s]
    ∗ (∃ r, prngReg c r))

/-- The invariant of a launch accumulating in `s`: what the launch hands over, then `s` at what the point before left. -/
def PhiOf {N : ℕ} (a : (n : ℕ) → n < N → s.ty.shape.Idx → Elt F s.ty.elt) : (n : ℕ) → n ≤ N → sProp 𝕄
  | 0, _ => Pipeline.ΦA spec c
  | n + 1, hn => heldAt spec s c (a n hn)

variable (hs : (Pipeline.scopedRest (Ix := Unit) (Name := ℕ) (U := UR sig nD τ) (Lvl := ℕ) (Val := Elt F) spec c :
    sProp (MT nD τ sig Unit (Elt F) ℕ (UR sig nD τ) ℕ))
  = iprop(iprop((∃ f : Buf (Elt F) ((c : Thread nD τ).loc s), ((c : Thread nD τ).loc s) ↦{fullShare} f))
      ∗ Pipeline.scopedRestBut (Ix := Unit) (Name := ℕ) (U := UR sig nD τ) (Lvl := ℕ) (Val := Elt F) spec c [s]))
include hs

theorem PhiOf_open {N : ℕ} (a : (n : ℕ) → n < N → s.ty.shape.Idx → Elt F s.ty.elt) (n : ℕ) (h : n ≤ N) :
    PhiOf spec s c a n h ⊢ iprop(∃ d, ⌜∀ hn : n ≠ 0, d = a (n - 1) (by omega)⌝ ∗ heldAt spec s c d) := by
  cases n with
  | zero =>
    show Pipeline.ΦA spec c ⊢ _
    unfold Pipeline.ΦA heldAt; rw [hs]; simp only [owns_whole]
    iintro ⟨⟨⟨%f, HS⟩, HR⟩, Hg⟩
    iexists f; isplitr; · ipureintro; exact fun hn => absurd rfl hn
    isplitl [HS]; · iexact HS
    isplitl [HR]; · iexact HR
    iexact Hg
  | succ n =>
    show heldAt spec s c (a n h) ⊢ _
    iintro H; iexists a n h; isplitr; · ipureintro; exact fun _ => rfl
    iexact H

theorem PhiOf_close {N : ℕ} (a : (n : ℕ) → n < N → s.ty.shape.Idx → Elt F s.ty.elt) (n : ℕ) (h : n ≤ N) :
    PhiOf spec s c a n h ⊢ Pipeline.ΦA spec c := by
  refine (PhiOf_open spec s c hs a n h).trans ?_
  unfold Pipeline.ΦA heldAt; rw [hs]; simp only [owns_whole]
  iintro ⟨%f, -, HS, HR, Hg⟩
  isplitr [Hg]
  · isplitl [HS]; · iexists f; iexact HS
    iexact HR
  iexact Hg

end Inv

end Cert.Kernel.Hand

end
-- ==== Proof.KB.S1.lean ====
import proofs.«422636_j31413390803462_1_alg».proof.Proof.Gen.Kernel.Points
import proofs.«422636_j31413390803462_1_alg».proof.Proof.KB.ScatterLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev dblk1 (c : Dev nD) (t : Fin cfg1.N) : Vec F S1x3200 .i32 := iblk1 V c 0 t
abbrev gblk1 (c : Dev nD) (t : Fin cfg1.N) : Vec F S3200x128 .bf16 := iblk1 V c 1 t
abbrev bblk1 (c : Dev nD) (t : Fin cfg1.N) : Vec F S1x128 .f32 := iblk1 V c 2 t

def acc1 (c : Dev nD) : (n : ℕ) → n < cfg1.N → Vec F S2000x128 .f32
  | 0, hn => k1_pay2 (grid1.coords ⟨0, hn⟩) (dblk1 V c ⟨0, hn⟩) (gblk1 V c ⟨0, hn⟩) (k1_pay1 (F := F))
  | n + 1, hn =>
    k1_pay2 (grid1.coords ⟨n + 1, hn⟩) (dblk1 V c ⟨n + 1, hn⟩) (gblk1 V c ⟨n + 1, hn⟩)
      (if (n + 1) % 200 = 0 then (k1_pay1 (F := F)) else acc1 c n (Nat.lt_of_succ_lt hn))

theorem acc1_first (c : Dev nD) (t : Fin cfg1.N) (h : t.val % 200 = 0) :
    acc1 V c t.val t.isLt = k1_pay2 (grid1.coords t) (dblk1 V c t) (gblk1 V c t) (k1_pay1 (F := F)) := by
  obtain ⟨n, hn⟩ := t
  cases n with
  | zero => rfl
  | succ n => exact congrArg (k1_pay2 _ _ _) (if_pos h)

theorem acc1_next (c : Dev nD) (t : Fin cfg1.N) (h : ¬ t.val % 200 = 0) :
    acc1 V c t.val t.isLt = k1_pay2 (grid1.coords t) (dblk1 V c t) (gblk1 V c t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

def Phi1 (c : Dev nD) : (n : ℕ) → n ≤ cfg1.N → sProp 𝕄 := PhiOf spec1 cc1_scratch0 c (acc1 V c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (bblk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val t.isLt) (bblk1 V c t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem idleAt1_3 : ∀ t : Fin cfg1.N, ¬isLast (grid1.coords t) → cfg1.idle 3 (grid1.coords t) = true := by decide +kernel
theorem liveAt1_3 : ∀ t : Fin cfg1.N, isLast (grid1.coords t) → cfg1.idle 3 (grid1.coords t) = false := by decide +kernel
theorem noFlush1_3 : ∀ t : Fin cfg1.N, ¬isLast (grid1.coords t) → (cfg1.win 3).flush t = false := by decide +kernel

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

/-- The output's buffer after the body, given the accumulator `a` the point leaves: written at a last block, else as found. -/
theorem leaves1_3 (c : Dev nD) (t : Fin cfg1.N) (d) (a) (ha : a = acc1 V c t.val t.isLt) :
    owns (c : Thread nD τ) (st1_3 t) fullShare
        (if isLast (grid1.coords t) then k1_pay3 a (bblk1 V c t) else (dat1 V c).before 3 t d)
      ⊢ (dat1 V c).leavesExact 3 t := by
  subst ha
  by_cases h : isLast (grid1.coords t)
  · rw [if_pos h]; unfold Dat.leavesExact; rw [liveAt1_3 t h]; exact Entails.refl _
  · rw [if_neg h, Dat.leavesExact_idle (dat1 V c) 3 t (idleAt1_3 t h) (noFlush1_3 t h)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point: the invariant lends it the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = heldAt spec1 cc1_scratch0 c (acc1 V c t.val t.isLt) from rfl]
  rw [leaves1_0, leaves1_1, leaves1_2,
    show (dat1 V c).Φ t.castSucc = PhiOf spec1 cc1_scratch0 c (acc1 V c) t.val (Nat.le_of_lt t.isLt) from rfl]
  iintro ⟨HΦ, Ho, ⟨%dd, HD⟩, ⟨%dg, HG⟩, ⟨%db, HB⟩, ⟨%dO, HO⟩⟩
  ihave HΦ := (PhiOf_open spec1 cc1_scratch0 c (scopedRest1_split c) (acc1 V c) t.val (Nat.le_of_lt t.isLt)) $$ HΦ
  unfold heldAt
  icases HΦ with ⟨%xs, %hxs, HS, HR, Hg⟩
  have hacc : acc1 V c t.val t.isLt
      = k1_pay2 (grid1.coords t) (dblk1 V c t) (gblk1 V c t) (if isFirst (grid1.coords t) then k1_pay1 else xs) := by
    by_cases hF : t.val % 200 = 0
    · exact (acc1_first V c t hF).trans (congrArg _ (if_pos ((isFirst_iff t).mpr hF)).symm)
    · exact (acc1_next V c t hF).trans (congrArg _ ((hxs fun e => hF (by rw [e])).symm.trans
        (if_neg fun h => hF ((isFirst_iff t).mp h)).symm))
  rw [hacc]
  iapply (sound_scatter c Set.univ (grid1.coords t) _ _ _ _ _ _ _ _ _ _ (dblk1 V c t) (gblk1 V c t) (bblk1 V c t) _ xs _)
  iframe HD HG HB HO HS
  iintro ⟨HD, HG, HB, HO, HS⟩
  iframe HS HR Hg Ho HD HG HB
  iapply (leaves1_3 V c t dO _ hacc.symm)
  iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c :=
  PhiOf_close spec1 cc1_scratch0 c (scopedRest1_split c) (acc1 V c) cfg1.N (Nat.le_refl _)

end Cert.Kernel.Hand

end
-- ==== Proof.KB.G2.lean ====
import proofs.«422636_j31413390803462_1_alg».proof.Proof.Gen.Kernel.Launch
import proofs.«422636_j31413390803462_1_alg».proof.Proof.Gen.Kernel.Points
import proofs.«422636_j31413390803462_1_alg».proof.Proof.KB.GBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S2000x128 .f32 := iblk2 V c 0 t
abbrev wblk2 (c : Dev nD) (t : Fin cfg2.N) : Vec F S128x128 .f32 := iblk2 V c 1 t
abbrev sblk2 (c : Dev nD) (t : Fin cfg2.N) : Vec F S1x3200 .i32 := iblk2 V c 2 t

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

def acc2 (c : Dev nD) : (n : ℕ) → n < cfg2.N → Vec F S3200x128 .f32
  | 0, hn => k2_pay2 (grid2.coords ⟨0, hn⟩) (sblk2 V c ⟨0, hn⟩) (xblk2 V c ⟨0, hn⟩) (wblk2 V c ⟨0, hn⟩) (k2_pay1 (F := F))
  | n + 1, hn =>
    k2_pay2 (grid2.coords ⟨n + 1, hn⟩) (sblk2 V c ⟨n + 1, hn⟩) (xblk2 V c ⟨n + 1, hn⟩) (wblk2 V c ⟨n + 1, hn⟩)
      (if (n + 1) % 25 = 0 then (k2_pay1 (F := F)) else acc2 c n (Nat.lt_of_succ_lt hn))

theorem acc2_first (c : Dev nD) (t : Fin cfg2.N) (h : t.val % 25 = 0) :
    acc2 V c t.val t.isLt = k2_pay2 (grid2.coords t) (sblk2 V c t) (xblk2 V c t) (wblk2 V c t) (k2_pay1 (F := F)) := by
  obtain ⟨n, hn⟩ := t
  cases n with
  | zero => rfl
  | succ n => exact congrArg (k2_pay2 _ _ _ _) (if_pos h)

theorem acc2_next (c : Dev nD) (t : Fin cfg2.N) (h : ¬ t.val % 25 = 0) :
    acc2 V c t.val t.isLt = k2_pay2 (grid2.coords t) (sblk2 V c t) (xblk2 V c t) (wblk2 V c t)
      (acc2 V c (t.val - 1) (Nat.lt_of_le_of_lt (Nat.sub_le _ _) t.isLt)) := by
  obtain ⟨n, hn⟩ := t
  cases n with
  | zero => exact absurd (Nat.zero_mod _) h
  | succ n => exact congrArg (k2_pay2 _ _ _ _) (if_neg h)

def Phi2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (acc2 V c t.val t.isLt) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- At every position the accumulator is held, past the first at what the point before left. -/
theorem Phi2_acc (c : Dev nD) (n : ℕ) (h : n ≤ cfg2.N) :
    Phi2 V c n h ⊢ iprop(∃ a, ⌜∀ hz : n ≠ 0, a = acc2 V c (n - 1) (by omega)⌝
      ∗ owns (c : Thread nD τ) (Memref.whole cc2_scratch0) fullShare a
      ∗ Pipeline.scopedRestBut (Ix := Unit) (Name := ℕ) (U := UR sig nD τ) (Lvl := ℕ) (Val := Elt F) spec2 c [cc2_scratch0]
      ∗ (∃ r, prngReg c r)) := by
  cases n with
  | zero =>
    rw [show Phi2 V c 0 h = Pipeline.ΦA spec2 c from rfl]; unfold Pipeline.ΦA; rw [scopedRest2_split]; simp only [owns_whole]
    iintro ⟨⟨⟨%a, Ha⟩, Hr⟩, Hg⟩
    iexists a; isplitr; · ipureintro; exact fun hz => absurd rfl hz
    iframe
  | succ n =>
    unfold Phi2
    iintro ⟨Ha, Hr, Hg⟩
    iexists acc2 V c n h; isplitr; · ipureintro; exact fun _ => rfl
    iframe

/-- One step of the accumulator's recursion, from what the body finds in the accumulator. -/
theorem acc2_step (c : Dev nD) (t : Fin cfg2.N) (a : Vec F S3200x128 .f32)
    (ha : ∀ hz : t.val ≠ 0, a = acc2 V c (t.val - 1) (Nat.lt_of_le_of_lt (Nat.sub_le _ _) t.isLt)) :
    k2_pay2 (grid2.coords t) (sblk2 V c t) (xblk2 V c t) (wblk2 V c t) (if firstTile (grid2.coords t) then k2_pay1 else a)
      = acc2 V c t.val t.isLt := by
  by_cases hm : t.val % 25 = 0
  · rw [acc2_first V c t hm, if_pos ((hcond2_0 t).mpr hm)]
  · rw [acc2_next V c t hm, if_neg fun h => hm ((hcond2_0 t).mp h), ha fun e => hm (by rw [e])]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The inputs hold their blocks, the body runs on them and on what the accumulator holds, and leaves the recursion's next value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl,
    after2_0, after2_1, after2_2, after2_3]
  iintro ⟨HΦ, Ho, ⟨%dx, Hx⟩, ⟨%dw, Hw⟩, ⟨%ds, Hs⟩, ⟨%dy, Hy⟩⟩
  ihave HΦ := (Phi2_acc V c t.val (Nat.le_of_lt t.isLt)) $$ HΦ
  icases HΦ with ⟨%a, %ha, Ha, Hr, Hg⟩
  iapply (sound_gather c Set.univ (grid2.coords t) _ _ _ _ _ _ _ _ (Memref.whole cc2_scratch0) (Memref.isWhole_whole _)
    (xblk2 V c t) (wblk2 V c t) (sblk2 V c t) a _ rfl _)
  iframe Hx Hw Hs Ha
  isplitl [Hy]; · iexists _; iexact Hy
  iintro ⟨Hx, Hw, Hs, Hy, Ha⟩
  rw [acc2_step V c t a ha]
  isplitl [Ha Hr Hg]
  · rw [Phi2]
    iframe
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]

theorem hout2 (c : Dev nD) : (dat2 V c).Φ (Fin.last cfg2.N) ⊢ Pipeline.ΦA spec2 c := by
  rw [show (dat2 V c).Φ (Fin.last cfg2.N) = Phi2 V c cfg2.N (Nat.le_refl _) from rfl]
  refine (Phi2_acc V c _ _).trans ?_
  unfold Pipeline.ΦA; rw [scopedRest2_split]; simp only [owns_whole]
  iintro ⟨%a, -, Ha, Hr, Hg⟩
  iframe Hr Hg
  iexists _; iexact Ha

end Cert.Kernel.Hand

end
-- ==== Proof.KB.S3.lean ====
import proofs.«422636_j31413390803462_1_alg».proof.Proof.Gen.Kernel.Points
import proofs.«422636_j31413390803462_1_alg».proof.Proof.KB.ScatterLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev dblk3 (c : Dev nD) (t : Fin cfg3.N) : Vec F S1x3200 .i32 := iblk3 V c 0 t
abbrev gblk3 (c : Dev nD) (t : Fin cfg3.N) : Vec F S3200x128 .bf16 := iblk3 V c 1 t
abbrev bblk3 (c : Dev nD) (t : Fin cfg3.N) : Vec F S1x128 .f32 := iblk3 V c 2 t

def acc3 (c : Dev nD) : (n : ℕ) → n < cfg3.N → Vec F S2000x128 .f32
  | 0, hn => k3_pay2 (grid3.coords ⟨0, hn⟩) (dblk3 V c ⟨0, hn⟩) (gblk3 V c ⟨0, hn⟩) (k3_pay1 (F := F))
  | n + 1, hn =>
    k3_pay2 (grid3.coords ⟨n + 1, hn⟩) (dblk3 V c ⟨n + 1, hn⟩) (gblk3 V c ⟨n + 1, hn⟩)
      (if (n + 1) % 200 = 0 then (k3_pay1 (F := F)) else acc3 c n (Nat.lt_of_succ_lt hn))

theorem acc3_first (c : Dev nD) (t : Fin cfg3.N) (h : t.val % 200 = 0) :
    acc3 V c t.val t.isLt = k3_pay2 (grid3.coords t) (dblk3 V c t) (gblk3 V c t) (k3_pay1 (F := F)) := by
  obtain ⟨n, hn⟩ := t
  cases n with
  | zero => rfl
  | succ n => exact congrArg (k3_pay2 _ _ _) (if_pos h)

theorem acc3_next (c : Dev nD) (t : Fin cfg3.N) (h : ¬ t.val % 200 = 0) :
    acc3 V c t.val t.isLt = k3_pay2 (grid3.coords t) (dblk3 V c t) (gblk3 V c t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay2 _ _ _) (if_neg h)

def Phi3 (c : Dev nD) : (n : ℕ) → n ≤ cfg3.N → sProp 𝕄 := PhiOf spec3 cc3_scratch0 c (acc3 V c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (bblk3 V c t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = k3_pay3 (acc3 V c t.val t.isLt) (bblk3 V c t) := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem idleAt3_3 : ∀ t : Fin cfg3.N, ¬isLast (grid3.coords t) → cfg3.idle 3 (grid3.coords t) = true := by decide +kernel
theorem liveAt3_3 : ∀ t : Fin cfg3.N, isLast (grid3.coords t) → cfg3.idle 3 (grid3.coords t) = false := by decide +kernel
theorem noFlush3_3 : ∀ t : Fin cfg3.N, ¬isLast (grid3.coords t) → (cfg3.win 3).flush t = false := by decide +kernel

theorem leaves3_0 (c : Dev nD) (t : Fin cfg3.N) :
    (dat3 V c).leavesExact 0 t = owns (c : Thread nD τ) (st3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (st3_1 t) fullShare (iblk3 V c 1 t) := by
  unfold Dat.leavesExact; rw [show cfg3.idle 1 (cfg3.grid.coords t) = false from rfl, after3_1]
theorem leaves3_2 (c : Dev nD) (t : Fin cfg3.N) :
    (dat3 V c).leavesExact 2 t = owns (c : Thread nD τ) (st3_2 t) fullShare (iblk3 V c 2 t) := by
  unfold Dat.leavesExact; rw [show cfg3.idle 2 (cfg3.grid.coords t) = false from rfl, after3_2]

/-- The output's buffer after the body, given the accumulator `a` the point leaves: written at a last block, else as found. -/
theorem leaves3_3 (c : Dev nD) (t : Fin cfg3.N) (d) (a) (ha : a = acc3 V c t.val t.isLt) :
    owns (c : Thread nD τ) (st3_3 t) fullShare
        (if isLast (grid3.coords t) then k1_pay3 a (bblk3 V c t) else (dat3 V c).before 3 t d)
      ⊢ (dat3 V c).leavesExact 3 t := by
  subst ha
  by_cases h : isLast (grid3.coords t)
  · rw [if_pos h]; unfold Dat.leavesExact; rw [liveAt3_3 t h]; exact Entails.refl _
  · rw [if_neg h, Dat.leavesExact_idle (dat3 V c) 3 t (idleAt3_3 t h) (noFlush3_3 t h)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The body at any point: the invariant lends it the accumulator and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [scatter3_eq]
  simp only [before3_0, before3_1, before3_2]
  rw [show (dat3 V c).owesAt () t.succ = (dat3 V c).owesAt () t.castSucc from rfl]
  rw [show (dat3 V c).Φ t.succ = heldAt spec3 cc3_scratch0 c (acc3 V c t.val t.isLt) from rfl]
  rw [leaves3_0, leaves3_1, leaves3_2,
    show (dat3 V c).Φ t.castSucc = PhiOf spec3 cc3_scratch0 c (acc3 V c) t.val (Nat.le_of_lt t.isLt) from rfl]
  iintro ⟨HΦ, Ho, ⟨%dd, HD⟩, ⟨%dg, HG⟩, ⟨%db, HB⟩, ⟨%dO, HO⟩⟩
  ihave HΦ := (PhiOf_open spec3 cc3_scratch0 c (scopedRest3_split c) (acc3 V c) t.val (Nat.le_of_lt t.isLt)) $$ HΦ
  unfold heldAt
  icases HΦ with ⟨%xs, %hxs, HS, HR, Hg⟩
  have hacc : acc3 V c t.val t.isLt
      = k1_pay2 (grid3.coords t) (dblk3 V c t) (gblk3 V c t) (if isFirst (grid3.coords t) then k1_pay1 else xs) := by
    by_cases hF : t.val % 200 = 0
    · exact (acc3_first V c t hF).trans (congrArg _ (if_pos ((isFirst_iff t).mpr hF)).symm)
    · exact (acc3_next V c t hF).trans (congrArg _ ((hxs fun e => hF (by rw [e])).symm.trans
        (if_neg fun h => hF ((isFirst_iff t).mp h)).symm))
  rw [hacc]
  iapply (sound_scatter c Set.univ (grid3.coords t) _ _ _ _ _ _ _ _ _ _ (dblk3 V c t) (gblk3 V c t) (bblk3 V c t) _ xs _)
  iframe HD HG HB HO HS
  iintro ⟨HD, HG, HB, HO, HS⟩
  iframe HS HR Hg Ho HD HG HB
  iapply (leaves3_3 V c t dO _ hacc.symm)
  iexact HO

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c :=
  PhiOf_close spec3 cc3_scratch0 c (scopedRest3_split c) (acc3 V c) cfg3.N (Nat.le_refl _)

end Cert.Kernel.Hand

end
-- ==== Proof.KB.G4.lean ====
import proofs.«422636_j31413390803462_1_alg».proof.Proof.Gen.Kernel.Launch
import proofs.«422636_j31413390803462_1_alg».proof.Proof.Gen.Kernel.Points
import proofs.«422636_j31413390803462_1_alg».proof.Proof.KB.GBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xblk4 (c : Dev nD) (t : Fin cfg4.N) : Vec F S2000x128 .f32 := iblk4 V c 0 t
abbrev wblk4 (c : Dev nD) (t : Fin cfg4.N) : Vec F S128x128 .f32 := iblk4 V c 1 t
abbrev sblk4 (c : Dev nD) (t : Fin cfg4.N) : Vec F S1x3200 .i32 := iblk4 V c 2 t

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

def acc4 (c : Dev nD) : (n : ℕ) → n < cfg4.N → Vec F S3200x128 .f32
  | 0, hn => k4_pay2 (grid4.coords ⟨0, hn⟩) (sblk4 V c ⟨0, hn⟩) (xblk4 V c ⟨0, hn⟩) (wblk4 V c ⟨0, hn⟩) (k4_pay1 (F := F))
  | n + 1, hn =>
    k4_pay2 (grid4.coords ⟨n + 1, hn⟩) (sblk4 V c ⟨n + 1, hn⟩) (xblk4 V c ⟨n + 1, hn⟩) (wblk4 V c ⟨n + 1, hn⟩)
      (if (n + 1) % 25 = 0 then (k4_pay1 (F := F)) else acc4 c n (Nat.lt_of_succ_lt hn))

theorem acc4_first (c : Dev nD) (t : Fin cfg4.N) (h : t.val % 25 = 0) :
    acc4 V c t.val t.isLt = k4_pay2 (grid4.coords t) (sblk4 V c t) (xblk4 V c t) (wblk4 V c t) (k4_pay1 (F := F)) := by
  obtain ⟨n, hn⟩ := t
  cases n with
  | zero => rfl
  | succ n => exact congrArg (k4_pay2 _ _ _ _) (if_pos h)

theorem acc4_next (c : Dev nD) (t : Fin cfg4.N) (h : ¬ t.val % 25 = 0) :
    acc4 V c t.val t.isLt = k4_pay2 (grid4.coords t) (sblk4 V c t) (xblk4 V c t) (wblk4 V c t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 _ _ _ _) (if_neg h)

def Phi4 (c : Dev nD) : (n : ℕ) → n ≤ cfg4.N → sProp 𝕄
  | 0, _ => Pipeline.ΦA spec4 c
  | n + 1, hn => iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val t.isLt) := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-- At every position the accumulator is held, past the first at what the point before left. -/
theorem Phi4_acc (c : Dev nD) (n : ℕ) (h : n ≤ cfg4.N) :
    Phi4 V c n h ⊢ iprop(∃ a, ⌜∀ hz : n ≠ 0, a = acc4 V c (n - 1) (by omega)⌝
      ∗ owns (c : Thread nD τ) (Memref.whole cc4_scratch0) fullShare a
      ∗ Pipeline.scopedRestBut (Ix := Unit) (Name := ℕ) (U := UR sig nD τ) (Lvl := ℕ) (Val := Elt F) spec4 c [cc4_scratch0]
      ∗ (∃ r, prngReg c r)) := by
  cases n with
  | zero =>
    rw [show Phi4 V c 0 h = Pipeline.ΦA spec4 c from rfl]; unfold Pipeline.ΦA; rw [scopedRest4_split]; simp only [owns_whole]
    iintro ⟨⟨⟨%a, Ha⟩, Hr⟩, Hg⟩
    iexists a; isplitr; · ipureintro; exact fun hz => absurd rfl hz
    iframe
  | succ n =>
    unfold Phi4
    iintro ⟨Ha, Hr, Hg⟩
    iexists acc4 V c n h; isplitr; · ipureintro; exact fun _ => rfl
    iframe

/-- One step of the accumulator's recursion, from what the body finds in the accumulator. -/
theorem acc4_step (c : Dev nD) (t : Fin cfg4.N) (a : Vec F S3200x128 .f32)
    (ha : ∀ hz : t.val ≠ 0, a = acc4 V c (t.val - 1) (Nat.lt_of_le_of_lt (Nat.sub_le _ _) t.isLt)) :
    k2_pay2 (grid4.coords t) (sblk4 V c t) (xblk4 V c t) (wblk4 V c t) (if firstTile (grid4.coords t) then k2_pay1 else a)
      = acc4 V c t.val t.isLt := by
  by_cases hm : t.val % 25 = 0
  · rw [acc4_first V c t hm, if_pos ((hcond4_0 t).mpr hm)]; rfl
  · rw [acc4_next V c t hm, if_neg fun h => hm ((hcond4_0 t).mp h), ha fun e => hm (by rw [e])]; rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The inputs hold their blocks, the body runs on them and on what the accumulator holds, and leaves the recursion's next value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) t.isLt from rfl,
    show (dat4 V c).Φ t.castSucc = Phi4 V c t.val (Nat.le_of_lt t.isLt) from rfl,
    after4_0, after4_1, after4_2, after4_3]
  rw [show cc4__gather_kernel (F := F) = cc2__gather_kernel from rfl, show @k4_pay3 F _ = k2_pay3 from rfl]
  iintro ⟨HΦ, Ho, ⟨%dx, Hx⟩, ⟨%dw, Hw⟩, ⟨%ds, Hs⟩, ⟨%dy, Hy⟩⟩
  ihave HΦ := (Phi4_acc V c t.val (Nat.le_of_lt t.isLt)) $$ HΦ
  icases HΦ with ⟨%a, %ha, Ha, Hr, Hg⟩
  iapply (sound_gather c Set.univ (grid4.coords t) _ _ _ _ _ _ _ _ (Memref.whole cc4_scratch0) (Memref.isWhole_whole _)
    (xblk4 V c t) (wblk4 V c t) (sblk4 V c t) a _ rfl _)
  iframe Hx Hw Hs Ha
  isplitl [Hy]; · iexists _; iexact Hy
  iintro ⟨Hx, Hw, Hs, Hy, Ha⟩
  rw [acc4_step V c t a ha]
  isplitl [Ha Hr Hg]
  · rw [Phi4]
    iframe
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Pipeline.ΦA spec4 c from rfl]

theorem hout4 (c : Dev nD) : (dat4 V c).Φ (Fin.last cfg4.N) ⊢ Pipeline.ΦA spec4 c := by
  rw [show (dat4 V c).Φ (Fin.last cfg4.N) = Phi4 V c cfg4.N (Nat.le_refl _) from rfl]
  refine (Phi4_acc V c _ _).trans ?_
  unfold Pipeline.ΦA; rw [scopedRest4_split]; simp only [owns_whole]
  iintro ⟨%a, -, Ha, Hr, Hg⟩
  iframe Hr Hg
  iexists _; iexact Ha

end Cert.Kernel.Hand

end
-- ==== Proof.KB.S5.lean ====
import proofs.«422636_j31413390803462_1_alg».proof.Proof.Gen.Kernel.Points
import proofs.«422636_j31413390803462_1_alg».proof.Proof.KB.ScatterLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev dblk5 (c : Dev nD) (t : Fin cfg5.N) : Vec F S1x3200 .i32 := iblk5 V c 0 t
abbrev gblk5 (c : Dev nD) (t : Fin cfg5.N) : Vec F S3200x128 .bf16 := iblk5 V c 1 t
abbrev bblk5 (c : Dev nD) (t : Fin cfg5.N) : Vec F S1x128 .f32 := iblk5 V c 2 t

def acc5 (c : Dev nD) : (n : ℕ) → n < cfg5.N → Vec F S2000x128 .f32
  | 0, hn => k5_pay2 (grid5.coords ⟨0, hn⟩) (dblk5 V c ⟨0, hn⟩) (gblk5 V c ⟨0, hn⟩) (k5_pay1 (F := F))
  | n + 1, hn =>
    k5_pay2 (grid5.coords ⟨n + 1, hn⟩) (dblk5 V c ⟨n + 1, hn⟩) (gblk5 V c ⟨n + 1, hn⟩)
      (if (n + 1) % 200 = 0 then (k5_pay1 (F := F)) else acc5 c n (Nat.lt_of_succ_lt hn))

theorem acc5_first (c : Dev nD) (t : Fin cfg5.N) (h : t.val % 200 = 0) :
    acc5 V c t.val t.isLt = k5_pay2 (grid5.coords t) (dblk5 V c t) (gblk5 V c t) (k5_pay1 (F := F)) := by
  obtain ⟨n, hn⟩ := t
  cases n with
  | zero => rfl
  | succ n => exact congrArg (k5_pay2 _ _ _) (if_pos h)

theorem acc5_next (c : Dev nD) (t : Fin cfg5.N) (h : ¬ t.val % 200 = 0) :
    acc5 V c t.val t.isLt = k5_pay2 (grid5.coords t) (dblk5 V c t) (gblk5 V c t)
      (acc5 V c (t.val - 1) (Nat.lt_of_le_of_lt (Nat.sub_le _ _) t.isLt)) := by
  obtain ⟨n, hn⟩ := t
  cases n with
  | zero => exact absurd (Nat.zero_mod _) h
  | succ n => exact congrArg (k5_pay2 _ _ _) (if_neg h)

def Phi5 (c : Dev nD) : (n : ℕ) → n ≤ cfg5.N → sProp 𝕄 := PhiOf spec5 cc5_scratch0 c (acc5 V c)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (bblk5 V c t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val t.isLt) (bblk5 V c t) := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem idleAt5_3 : ∀ t : Fin cfg5.N, ¬isLast (grid5.coords t) → cfg5.idle 3 (grid5.coords t) = true := by decide +kernel
theorem liveAt5_3 : ∀ t : Fin cfg5.N, isLast (grid5.coords t) → cfg5.idle 3 (grid5.coords t) = false := by decide +kernel
theorem noFlush5_3 : ∀ t : Fin cfg5.N, ¬isLast (grid5.coords t) → (cfg5.win 3).flush t = false := by decide +kernel

theorem leaves5_0 (c : Dev nD) (t : Fin cfg5.N) :
    (dat5 V c).leavesExact 0 t = owns (c : Thread nD τ) (st5_0 t) fullShare (iblk5 V c 0 t) := by
  unfold Dat.leavesExact; rw [show cfg5.idle 0 (cfg5.grid.coords t) = false from rfl, after5_0]
theorem leaves5_1 (c : Dev nD) (t : Fin cfg5.N) :
    (dat5 V c).leavesExact 1 t = owns (c : Thread nD τ) (st5_1 t) fullShare (iblk5 V c 1 t) := by
  unfold Dat.leavesExact; rw [show cfg5.idle 1 (cfg5.grid.coords t) = false from rfl, after5_1]
theorem leaves5_2 (c : Dev nD) (t : Fin cfg5.N) :
    (dat5 V c).leavesExact 2 t = owns (c : Thread nD τ) (st5_2 t) fullShare (iblk5 V c 2 t) := by
  unfold Dat.leavesExact; rw [show cfg5.idle 2 (cfg5.grid.coords t) = false from rfl, after5_2]

/-- The output's buffer after the body, given the accumulator `a` the point leaves: written at a last block, else as found. -/
theorem leaves5_3 (c : Dev nD) (t : Fin cfg5.N) (d) (a) (ha : a = acc5 V c t.val t.isLt) :
    owns (c : Thread nD τ) (st5_3 t) fullShare
        (if isLast (grid5.coords t) then k1_pay3 a (bblk5 V c t) else (dat5 V c).before 3 t d)
      ⊢ (dat5 V c).leavesExact 3 t := by
  subst ha
  by_cases h : isLast (grid5.coords t)
  · rw [if_pos h]; unfold Dat.leavesExact; rw [liveAt5_3 t h]; exact Entails.refl _
  · rw [if_neg h, Dat.leavesExact_idle (dat5 V c) 3 t (idleAt5_3 t h) (noFlush5_3 t h)]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The body at any point: the invariant lends it the accumulator and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [scatter5_eq]
  simp only [before5_0, before5_1, before5_2]
  rw [show (dat5 V c).owesAt () t.succ = (dat5 V c).owesAt () t.castSucc from rfl]
  rw [show (dat5 V c).Φ t.succ = heldAt spec5 cc5_scratch0 c (acc5 V c t.val t.isLt) from rfl]
  rw [leaves5_0, leaves5_1, leaves5_2,
    show (dat5 V c).Φ t.castSucc = PhiOf spec5 cc5_scratch0 c (acc5 V c) t.val (Nat.le_of_lt t.isLt) from rfl]
  iintro ⟨HΦ, Ho, ⟨%dd, HD⟩, ⟨%dg, HG⟩, ⟨%db, HB⟩, ⟨%dO, HO⟩⟩
  ihave HΦ := (PhiOf_open spec5 cc5_scratch0 c (scopedRest5_split c) (acc5 V c) t.val (Nat.le_of_lt t.isLt)) $$ HΦ
  unfold heldAt
  icases HΦ with ⟨%xs, %hxs, HS, HR, Hg⟩
  have hacc : acc5 V c t.val t.isLt
      = k1_pay2 (grid5.coords t) (dblk5 V c t) (gblk5 V c t) (if isFirst (grid5.coords t) then k1_pay1 else xs) := by
    by_cases hF : t.val % 200 = 0
    · exact (acc5_first V c t hF).trans (congrArg _ (if_pos ((isFirst_iff t).mpr hF)).symm)
    · exact (acc5_next V c t hF).trans (congrArg _ ((hxs fun e => hF (by rw [e])).symm.trans
        (if_neg fun h => hF ((isFirst_iff t).mp h)).symm))
  rw [hacc]
  iapply (sound_scatter c Set.univ (grid5.coords t) _ _ _ _ _ _ _ _ _ _ (dblk5 V c t) (gblk5 V c t) (bblk5 V c t) _ xs _)
  iframe HD HG HB HO HS
  iintro ⟨HD, HG, HB, HO, HS⟩
  iframe HS HR Hg Ho HD HG HB
  iapply (leaves5_3 V c t dO _ hacc.symm)
  iexact HO

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Pipeline.ΦA spec5 c from rfl]

theorem hout5 (c : Dev nD) : (dat5 V c).Φ (Fin.last cfg5.N) ⊢ Pipeline.ΦA spec5 c :=
  PhiOf_close spec5 cc5_scratch0 c (scopedRest5_split c) (acc5 V c) cfg5.N (Nat.le_refl _)

end Cert.Kernel.Hand

end
-- ==== Proof.KB.G6.lean ====
import proofs.«422636_j31413390803462_1_alg».proof.Proof.Gen.Kernel.Launch
import proofs.«422636_j31413390803462_1_alg».proof.Proof.Gen.Kernel.Points
import proofs.«422636_j31413390803462_1_alg».proof.Proof.KB.GBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xblk6 (c : Dev nD) (t : Fin cfg6.N) : Vec F S2000x128 .f32 := iblk6 V c 0 t
abbrev wblk6 (c : Dev nD) (t : Fin cfg6.N) : Vec F S128x128 .f32 := iblk6 V c 1 t
abbrev sblk6 (c : Dev nD) (t : Fin cfg6.N) : Vec F S1x3200 .i32 := iblk6 V c 2 t

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 25 = 0 :=
  (by decide +kernel : ∀ t : Fin grid6.N, cond6_0 (grid6.coords t) ↔ t.val % 25 = 0)

def acc6 (c : Dev nD) : (n : ℕ) → n < cfg6.N → Vec F S3200x128 .f32
  | 0, hn => k6_pay2 (grid6.coords ⟨0, hn⟩) (sblk6 V c ⟨0, hn⟩) (xblk6 V c ⟨0, hn⟩) (wblk6 V c ⟨0, hn⟩) (k6_pay1 (F := F))
  | n + 1, hn =>
    k6_pay2 (grid6.coords ⟨n + 1, hn⟩) (sblk6 V c ⟨n + 1, hn⟩) (xblk6 V c ⟨n + 1, hn⟩) (wblk6 V c ⟨n + 1, hn⟩)
      (if (n + 1) % 25 = 0 then (k6_pay1 (F := F)) else acc6 c n (Nat.lt_of_succ_lt hn))

theorem acc6_first (c : Dev nD) (t : Fin cfg6.N) (h : t.val % 25 = 0) :
    acc6 V c t.val t.isLt = k6_pay2 (grid6.coords t) (sblk6 V c t) (xblk6 V c t) (wblk6 V c t) (k6_pay1 (F := F)) := by
  obtain ⟨n, hn⟩ := t
  cases n with
  | zero => rfl
  | succ n => exact congrArg (k6_pay2 _ _ _ _) (if_pos h)

theorem acc6_next (c : Dev nD) (t : Fin cfg6.N) (h : ¬ t.val % 25 = 0) :
    acc6 V c t.val t.isLt = k6_pay2 (grid6.coords t) (sblk6 V c t) (xblk6 V c t) (wblk6 V c t)
      (acc6 V c (t.val - 1) (Nat.lt_of_le_of_lt (Nat.sub_le _ _) t.isLt)) := by
  obtain ⟨n, hn⟩ := t
  cases n with
  | zero => exact absurd (Nat.zero_mod _) h
  | succ n => exact congrArg (k6_pay2 _ _ _ _) (if_neg h)

def Phi6 (c : Dev nD) : (n : ℕ) → n ≤ cfg6.N → sProp 𝕄
  | 0, _ => Pipeline.ΦA spec6 c
  | n + 1, hn => iprop(owns (c : Thread nD τ) (Memref.whole cc6_scratch0) fullShare (acc6 V c n hn)
      ∗ Pipeline.scopedRestBut (Ix := Unit) (Name := ℕ) (U := UR sig nD τ) (Lvl := ℕ) (Val := Elt F) spec6 c [cc6_scratch0]
      ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt)
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = k6_pay3 (acc6 V c t.val t.isLt) := by dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

/-- At every position the accumulator is held, past the first at what the point before left. -/
theorem Phi6_acc (c : Dev nD) (n : ℕ) (h : n ≤ cfg6.N) :
    Phi6 V c n h ⊢ iprop(∃ a, ⌜∀ hz : n ≠ 0, a = acc6 V c (n - 1) (by omega)⌝
      ∗ owns (c : Thread nD τ) (Memref.whole cc6_scratch0) fullShare a
      ∗ Pipeline.scopedRestBut (Ix := Unit) (Name := ℕ) (U := UR sig nD τ) (Lvl := ℕ) (Val := Elt F) spec6 c [cc6_scratch0]
      ∗ (∃ r, prngReg c r)) := by
  cases n with
  | zero =>
    rw [show Phi6 V c 0 h = Pipeline.ΦA spec6 c from rfl]; unfold Pipeline.ΦA; rw [scopedRest6_split]; simp only [owns_whole]
    iintro ⟨⟨⟨%a, Ha⟩, Hr⟩, Hg⟩
    iexists a; isplitr; · ipureintro; exact fun hz => absurd rfl hz
    iframe
  | succ n =>
    unfold Phi6
    iintro ⟨Ha, Hr, Hg⟩
    iexists acc6 V c n h; isplitr; · ipureintro; exact fun _ => rfl
    iframe

/-- One step of the accumulator's recursion, from what the body finds in the accumulator. -/
theorem acc6_step (c : Dev nD) (t : Fin cfg6.N) (a : Vec F S3200x128 .f32)
    (ha : ∀ hz : t.val ≠ 0, a = acc6 V c (t.val - 1) (Nat.lt_of_le_of_lt (Nat.sub_le _ _) t.isLt)) :
    k2_pay2 (grid6.coords t) (sblk6 V c t) (xblk6 V c t) (wblk6 V c t) (if firstTile (grid6.coords t) then k2_pay1 else a)
      = acc6 V c t.val t.isLt := by
  by_cases hm : t.val % 25 = 0
  · rw [acc6_first V c t hm, if_pos ((hcond6_0 t).mpr hm)]; rfl
  · rw [acc6_next V c t hm, if_neg fun h => hm ((hcond6_0 t).mp h), ha fun e => hm (by rw [e])]; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The inputs hold their blocks, the body runs on them and on what the accumulator holds, and leaves the recursion's next value. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl,
    show (dat6 V c).Φ t.castSucc = Phi6 V c t.val (Nat.le_of_lt t.isLt) from rfl,
    after6_0, after6_1, after6_2, after6_3]
  rw [show cc6__gather_kernel (F := F) = cc2__gather_kernel from rfl, show @k6_pay3 F _ = k2_pay3 from rfl]
  iintro ⟨HΦ, Ho, ⟨%dx, Hx⟩, ⟨%dw, Hw⟩, ⟨%ds, Hs⟩, ⟨%dy, Hy⟩⟩
  ihave HΦ := (Phi6_acc V c t.val (Nat.le_of_lt t.isLt)) $$ HΦ
  icases HΦ with ⟨%a, %ha, Ha, Hr, Hg⟩
  iapply (sound_gather c Set.univ (grid6.coords t) _ _ _ _ _ _ _ _ (Memref.whole cc6_scratch0) (Memref.isWhole_whole _)
    (xblk6 V c t) (wblk6 V c t) (sblk6 V c t) a _ rfl _)
  iframe Hx Hw Hs Ha
  isplitl [Hy]; · iexists _; iexact Hy
  iintro ⟨Hx, Hw, Hs, Hy, Ha⟩
  rw [acc6_step V c t a ha]
  isplitl [Ha Hr Hg]
  · rw [Phi6]
    iframe
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = Pipeline.ΦA spec6 c from rfl]

theorem hout6 (c : Dev nD) : (dat6 V c).Φ (Fin.last cfg6.N) ⊢ Pipeline.ΦA spec6 c := by
  rw [show (dat6 V c).Φ (Fin.last cfg6.N) = Phi6 V c cfg6.N (Nat.le_refl _) from rfl]
  refine (Phi6_acc V c _ _).trans ?_
  unfold Pipeline.ΦA; rw [scopedRest6_split]; simp only [owns_whole]
  iintro ⟨%a, -, Ha, Hr, Hg⟩
  iframe Hr Hg
  iexists _; iexact Ha

end Cert.Kernel.Hand

end
-- ==== Proof.KB.S7.lean ====
import proofs.«422636_j31413390803462_1_alg».proof.Proof.Gen.Kernel.Points
import proofs.«422636_j31413390803462_1_alg».proof.Proof.KB.ScatterLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev dblk7 (c : Dev nD) (t : Fin cfg7.N) : Vec F S1x3200 .i32 := iblk7 V c 0 t
abbrev gblk7 (c : Dev nD) (t : Fin cfg7.N) : Vec F S3200x128 .bf16 := iblk7 V c 1 t
abbrev bblk7 (c : Dev nD) (t : Fin cfg7.N) : Vec F S1x128 .f32 := iblk7 V c 2 t

def acc7 (c : Dev nD) : (n : ℕ) → n < cfg7.N → Vec F S2000x128 .f32
  | 0, hn => k7_pay2 (grid7.coords ⟨0, hn⟩) (dblk7 V c ⟨0, hn⟩) (gblk7 V c ⟨0, hn⟩) (k7_pay1 (F := F))
  | n + 1, hn =>
    k7_pay2 (grid7.coords ⟨n + 1, hn⟩) (dblk7 V c ⟨n + 1, hn⟩) (gblk7 V c ⟨n + 1, hn⟩)
      (if (n + 1) % 200 = 0 then (k7_pay1 (F := F)) else acc7 c n (Nat.lt_of_succ_lt hn))

theorem acc7_first (c : Dev nD) (t : Fin cfg7.N) (h : t.val % 200 = 0) :
    acc7 V c t.val t.isLt = k7_pay2 (grid7.coords t) (dblk7 V c t) (gblk7 V c t) (k7_pay1 (F := F)) := by
  obtain ⟨n, hn⟩ := t
  cases n with
  | zero => rfl
  | succ n => exact congrArg (k7_pay2 _ _ _) (if_pos h)

theorem acc7_next (c : Dev nD) (t : Fin cfg7.N) (h : ¬ t.val % 200 = 0) :
    acc7 V c t.val t.isLt = k7_pay2 (grid7.coords t) (dblk7 V c t) (gblk7 V c t)
      (acc7 V c (t.val - 1) (Nat.lt_of_le_of_lt (Nat.sub_le _ _) t.isLt)) := by
  obtain ⟨n, hn⟩ := t
  cases n with
  | zero => exact absurd (Nat.zero_mod _) h
  | succ n => exact congrArg (k7_pay2 _ _ _) (if_neg h)

def Phi7 (c : Dev nD) : (n : ℕ) → n ≤ cfg7.N → sProp 𝕄 := PhiOf spec7 cc7_scratch0 c (acc7 V c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (acc7 V c t.val t.isLt) (bblk7 V c t)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = k7_pay3 (acc7 V c t.val t.isLt) (bblk7 V c t) := by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem idleAt7_3 : ∀ t : Fin cfg7.N, ¬isLast (grid7.coords t) → cfg7.idle 3 (grid7.coords t) = true := by decide +kernel
theorem liveAt7_3 : ∀ t : Fin cfg7.N, isLast (grid7.coords t) → cfg7.idle 3 (grid7.coords t) = false := by decide +kernel
theorem noFlush7_3 : ∀ t : Fin cfg7.N, ¬isLast (grid7.coords t) → (cfg7.win 3).flush t = false := by decide +kernel

theorem leaves7_0 (c : Dev nD) (t : Fin cfg7.N) :
    (dat7 V c).leavesExact 0 t = owns (c : Thread nD τ) (st7_0 t) fullShare (iblk7 V c 0 t) := by
  unfold Dat.leavesExact; rw [show cfg7.idle 0 (cfg7.grid.coords t) = false from rfl, after7_0]
theorem leaves7_1 (c : Dev nD) (t : Fin cfg7.N) :
    (dat7 V c).leavesExact 1 t = owns (c : Thread nD τ) (st7_1 t) fullShare (iblk7 V c 1 t) := by
  unfold Dat.leavesExact; rw [show cfg7.idle 1 (cfg7.grid.coords t) = false from rfl, after7_1]
theorem leaves7_2 (c : Dev nD) (t : Fin cfg7.N) :
    (dat7 V c).leavesExact 2 t = owns (c : Thread nD τ) (st7_2 t) fullShare (iblk7 V c 2 t) := by
  unfold Dat.leavesExact; rw [show cfg7.idle 2 (cfg7.grid.coords t) = false from rfl, after7_2]

/-- The output's buffer after the body, given the accumulator `a` the point leaves: written at a last block, else as found. -/
theorem leaves7_3 (c : Dev nD) (t : Fin cfg7.N) (d) (a) (ha : a = acc7 V c t.val t.isLt) :
    owns (c : Thread nD τ) (st7_3 t) fullShare
        (if isLast (grid7.coords t) then k1_pay3 a (bblk7 V c t) else (dat7 V c).before 3 t d)
      ⊢ (dat7 V c).leavesExact 3 t := by
  subst ha
  by_cases h : isLast (grid7.coords t)
  · rw [if_pos h]; unfold Dat.leavesExact; rw [liveAt7_3 t h]; exact Entails.refl _
  · rw [if_neg h, Dat.leavesExact_idle (dat7 V c) 3 t (idleAt7_3 t h) (noFlush7_3 t h)]
    iintro H; iexists d; iexact H

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- The body at any point: the invariant lends it the accumulator and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [scatter7_eq]
  simp only [before7_0, before7_1, before7_2]
  rw [show (dat7 V c).owesAt () t.succ = (dat7 V c).owesAt () t.castSucc from rfl]
  rw [show (dat7 V c).Φ t.succ = heldAt spec7 cc7_scratch0 c (acc7 V c t.val t.isLt) from rfl]
  rw [leaves7_0, leaves7_1, leaves7_2,
    show (dat7 V c).Φ t.castSucc = PhiOf spec7 cc7_scratch0 c (acc7 V c) t.val (Nat.le_of_lt t.isLt) from rfl]
  iintro ⟨HΦ, Ho, ⟨%dd, HD⟩, ⟨%dg, HG⟩, ⟨%db, HB⟩, ⟨%dO, HO⟩⟩
  ihave HΦ := (PhiOf_open spec7 cc7_scratch0 c (scopedRest7_split c) (acc7 V c) t.val (Nat.le_of_lt t.isLt)) $$ HΦ
  unfold heldAt
  icases HΦ with ⟨%xs, %hxs, HS, HR, Hg⟩
  have hacc : acc7 V c t.val t.isLt
      = k1_pay2 (grid7.coords t) (dblk7 V c t) (gblk7 V c t) (if isFirst (grid7.coords t) then k1_pay1 else xs) := by
    by_cases hF : t.val % 200 = 0
    · exact (acc7_first V c t hF).trans (congrArg _ (if_pos ((isFirst_iff t).mpr hF)).symm)
    · exact (acc7_next V c t hF).trans (congrArg _ ((hxs fun e => hF (by rw [e])).symm.trans
        (if_neg fun h => hF ((isFirst_iff t).mp h)).symm))
  rw [hacc]
  iapply (sound_scatter c Set.univ (grid7.coords t) _ _ _ _ _ _ _ _ _ _ (dblk7 V c t) (gblk7 V c t) (bblk7 V c t) _ xs _)
  iframe HD HG HB HO HS
  iintro ⟨HD, HG, HB, HO, HS⟩
  iframe HS HR Hg Ho HD HG HB
  iapply (leaves7_3 V c t dO _ hacc.symm)
  iexact HO

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = Pipeline.ΦA spec7 c from rfl]

theorem hout7 (c : Dev nD) : (dat7 V c).Φ (Fin.last cfg7.N) ⊢ Pipeline.ΦA spec7 c :=
  PhiOf_close spec7 cc7_scratch0 c (scopedRest7_split c) (acc7 V c) cfg7.N (Nat.le_refl _)

end Cert.Kernel.Hand

end
-- ==== Proof.KB.F8.lean ====
import proofs.«422636_j31413390803462_1_alg».proof.Proof.Gen.Kernel.Launch
import proofs.«422636_j31413390803462_1_alg».proof.Proof.Gen.Kernel.Skeleton
import proofs.«422636_j31413390803462_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev xblk8 (c : Dev nD) (t : Fin cfg8.N) : Vec F S5000x128 .f32 := iblk8 V c 0 t
abbrev wblk8 (c : Dev nD) (t : Fin cfg8.N) : Vec F S128x40 .f32 := iblk8 V c 1 t
abbrev bblk8 (c : Dev nD) (t : Fin cfg8.N) : Vec F S1x40 .f32 := iblk8 V c 2 t

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k8_pay1 (xblk8 V c t) (wblk8 V c t) (bblk8 V c t)
    | ⟨4, _⟩ => k8_pay2 (xblk8 V c t) (wblk8 V c t) (bblk8 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) : (dat8 V c).after 3 t = k8_pay1 (xblk8 V c t) (wblk8 V c t) (bblk8 V c t) := by dsimp only [dat8]
theorem after8_4 (c : Dev nD) (t : Fin cfg8.N) : (dat8 V c).after 4 t = k8_pay2 (xblk8 V c t) (wblk8 V c t) (bblk8 V c t) := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

theorem zoff8 : (![0, 0] : Fin 2 → Nat) = fun _ => 0 := funext fun a => by
  match a with
  | ⟨0, _⟩ => rfl
  | ⟨1, _⟩ => rfl

theorem cover8 (p : Vec F S5000x40 .f32) (y : S5000x40.Idx) :
    ∃ pc ∈ ([⟨Rect.unit (s := S5000x40) ![0, 0] S5000x40.size inb_S5000x40_S5000x40_0_0, p⟩] : List (View.Piece (Elt F) S5000x40 .f32)),
      y ∈ pc.1.set :=
  ⟨_, List.mem_singleton_self _, View.mem_set_unit_zero zoff8 inb_S5000x40_S5000x40_0_0 y⟩

set_option maxHeartbeats 1000000 in

theorem sound_kernel8 (c : Dev nD) (E : Set ℕ) (i : grid8.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (arg5 : Memref sig .tc .vmem S5000x40 .f32) (harg5 : arg5.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k8_pay1 x0 x1 x2) ∗ owns (c : Thread nD τ) arg5 fullShare (k8_pay2 x0 x1 x2)) -∗ K ⟨⟩))
      ⊢ wp frame (wpE (defs₀ (F := F)) Variants.none c none) E (cc8__final_kernel i arg1 harg1 arg2 harg2 arg3 harg3 arg4 harg4 arg5 harg5) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover8 _),
      View.canon_unit_zero zoff8]
    simp only [View.readAt_eq_ld, View.ld_unit_zero (S := S5000x128) zoff8, View.ld_unit_zero (S := S128x40) zoff8,
      View.ld_unit_zero (S := S1x40) zoff8]
  iexists _; isplitr
  swap; · iexact H4
  ipureintro
  rw [View.read_writes_eq_canon _ _ _ (cover8 _),
    View.canon_unit_zero zoff8]
  simp only [View.readAt_eq_ld, View.ld_unit_zero (S := S5000x128) zoff8, View.ld_unit_zero (S := S128x40) zoff8,
    View.ld_unit_zero (S := S1x40) zoff8]

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.Kernel.Hand

end
-- ==== Proof.KB.RegOf.lean ====
import proofs.«422636_j31413390803462_1_alg».proof.Proof.Gen.Kernel.Launch
import Idealize.ShloMosaic.Lib.Pipeline.FrameSuffix
import Idealize.ShloMosaic.Lib.Pipeline.RegionsLoop

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable {a : (p : Fin 9) → (pcfgs (F := F) p).Adm}
  (pdats : (p : Fin 9) → (c : Dev nD) → Dat τ (Elt F) Unit ℕ (UR sig nD τ) ℕ (Pipeline.pin (pcfgs (F := F)) a p) c)
  {p : Fin 9} (hl : Pipeline.LaunchFacts (nD := nD) (τ := τ) cfgs p) (Wi : Dev nD → Valuation τ sig (Elt F))
  (hbody : ∀ c, BodyObligation (pdats p c) (defs₀ (F := F)) Variants.none () Set.univ)
  (howed : ∀ c t, (pdats p c).owed t = 0) (hq : ∀ c w, (pdats p c).q w = fullShare) (hrec : ∀ c, (pdats p c).recorded 0 = Set.univ)
  (hA : ∀ c w, (pdats p c).A w = Wi c (Pipeline.arrRef (cfgs p).spec w))
  (hin : ∀ c, Pipeline.ΦA (cfgs p).spec c ⊢ (pdats p c).Φ 0)
  (hout : ∀ c, (pdats p c).Φ (Fin.last (cfgs p).N) ⊢ Pipeline.ΦA (cfgs p).spec c)

abbrev riding (c : Dev nD) : sProp 𝕄 := iprop((∃ r, prngReg c r) ∗ ∃ W, owes (c : Thread nD τ) (0 : CellTallies nD τ sig Unit) W)

/-- `Wi c` with launch `p`'s arrays replaced by their final contents. -/
abbrev leaves (p : Fin 9) (c : Dev nD) : Valuation τ sig (Elt F) :=
  Pipeline.withArrays (cfgs p).spec c (Wi c) fun w => (pdats p c).arrAt w (cfgs p).N

/-- Launch `p` as an item of the run: entered at the valuation `Wi`, left at `leaves`. -/
def regOf : Pipeline.RegionSeg (pcfgs (F := F)) a pdats () defs₀ Variants.none (fun _ => (∅ : Finset Unit)) (fun _ _ => (0 : ℕ)) p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (Wi c) ∗ riding c)
  post c := iprop(StableHlo.held (c : Thread nD τ) (Pipeline.ucRefs τ sig) (leaves pdats Wi p c) ∗ riding c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) a pdats hl.win hl.arr_whole c
      ((pdats p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro HΦ
    ihave HA := h $$ HΦ
    icases HA with ⟨Hr, Hp⟩
    isplitl [Hp]; · iexact Hp
    isplitr; · iempintro
    iexact Hr
  hexit c := by
    have hF w : leaves pdats Wi p c (Pipeline.arrRef (cfgs p).spec w) = (pdats p c).arrAt w (cfgs p).N :=
      Pipeline.withArrays_arr _ hl.win.arr_inj c _ _ w
    have hjoin := Pipeline.unscopedBufs_of_arrays (p := p) (pcfgs (F := F)) a (Ix := Unit) (Name := ℕ) (U := UR sig nD τ) (Lvl := ℕ)
      hl.win hl.arr_whole c pdats ((pdats p c).share_full (hq c))
      (fun b => Wi c b) (fun b => leaves pdats Wi p c b) ((pdats p c).arrAt · (cfgs p).N) (fun w => (hF w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.Kernel.Hand

end
-- ==== Proof.KB.Chain.lean ====
import proofs.«422636_j31413390803462_1_alg».proof.Proof.KB.G0
import proofs.«422636_j31413390803462_1_alg».proof.Proof.KB.S1
import proofs.«422636_j31413390803462_1_alg».proof.Proof.KB.G2
import proofs.«422636_j31413390803462_1_alg».proof.Proof.KB.S3
import proofs.«422636_j31413390803462_1_alg».proof.Proof.KB.G4
import proofs.«422636_j31413390803462_1_alg».proof.Proof.KB.S5
import proofs.«422636_j31413390803462_1_alg».proof.Proof.KB.G6
import proofs.«422636_j31413390803462_1_alg».proof.Proof.KB.S7
import proofs.«422636_j31413390803462_1_alg».proof.Proof.KB.F8
import proofs.«422636_j31413390803462_1_alg».proof.Proof.KB.RegOf

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev Wlaunch : Dev nD → Valuation τ sig (Elt F) := fun c b => m (c, b)

-- The valuations between the items of the run: `WinN` before launch N, `WoutN` after it.
abbrev Win0 : Dev nD → Valuation τ sig (Elt F) := fun c => StableHlo.after hostOps0 (Wlaunch m c)
abbrev Vin0 : (c : Dev nD) → (b : Ref sig .tc) → Buf (Elt F) ((c : Thread nD τ).loc b) := fun c b => Win0 m c b
def Wout0 (c : Dev nD) : Valuation τ sig (Elt F) :=
  Pipeline.withArrays spec0 c (Win0 m c) fun w => (dat0 (Vin0 m) c).arrAt w cfg0.N
theorem Wout0_arr (c : Dev nD) (w : Fin cfg0.W) :
    Wout0 m c (Proc.devRef .tc (Pipeline.arrRef spec0 w)) = (dat0 (Vin0 m) c).arrAt w cfg0.N :=
  Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) :=
  Pipeline.withArrays_of_ne spec0 c _ _ b hb

abbrev Win1 : Dev nD → Valuation τ sig (Elt F) := fun c => StableHlo.after hostOps1 (Wout0 m c)
abbrev Vin1 : (c : Dev nD) → (b : Ref sig .tc) → Buf (Elt F) ((c : Thread nD τ).loc b) := fun c b => Win1 m c b
def Wout1 (c : Dev nD) : Valuation τ sig (Elt F) :=
  Pipeline.withArrays spec1 c (Win1 m c) fun w => (dat1 (Vin1 m) c).arrAt w cfg1.N
theorem Wout1_arr (c : Dev nD) (w : Fin cfg1.W) :
    Wout1 m c (Proc.devRef .tc (Pipeline.arrRef spec1 w)) = (dat1 (Vin1 m) c).arrAt w cfg1.N :=
  Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) :=
  Pipeline.withArrays_of_ne spec1 c _ _ b hb

abbrev Win2 : Dev nD → Valuation τ sig (Elt F) := fun c => Wout1 m c
abbrev Vin2 : (c : Dev nD) → (b : Ref sig .tc) → Buf (Elt F) ((c : Thread nD τ).loc b) := fun c b => Win2 m c b
def Wout2 (c : Dev nD) : Valuation τ sig (Elt F) :=
  Pipeline.withArrays spec2 c (Win2 m c) fun w => (dat2 (Vin2 m) c).arrAt w cfg2.N
theorem Wout2_arr (c : Dev nD) (w : Fin cfg2.W) :
    Wout2 m c (Proc.devRef .tc (Pipeline.arrRef spec2 w)) = (dat2 (Vin2 m) c).arrAt w cfg2.N :=
  Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) :=
  Pipeline.withArrays_of_ne spec2 c _ _ b hb

abbrev Win3 : Dev nD → Valuation τ sig (Elt F) := fun c => StableHlo.after hostOps3 (Wout2 m c)
abbrev Vin3 : (c : Dev nD) → (b : Ref sig .tc) → Buf (Elt F) ((c : Thread nD τ).loc b) := fun c b => Win3 m c b
def Wout3 (c : Dev nD) : Valuation τ sig (Elt F) :=
  Pipeline.withArrays spec3 c (Win3 m c) fun w => (dat3 (Vin3 m) c).arrAt w cfg3.N
theorem Wout3_arr (c : Dev nD) (w : Fin cfg3.W) :
    Wout3 m c (Proc.devRef .tc (Pipeline.arrRef spec3 w)) = (dat3 (Vin3 m) c).arrAt w cfg3.N :=
  Pipeline.withArrays_arr spec3 launch3.win.arr_inj c _ _ w
theorem Wout3_of_ne (c : Dev nD) (b : Ref sig .tc) (hb : ∀ w, Pipeline.arrRef spec3 w ≠ b) :
    Wout3 m c (Proc.devRef .tc b) = Win3 m c (Proc.devRef .tc b) :=
  Pipeline.withArrays_of_ne spec3 c _ _ b hb

abbrev Win4 : Dev nD → Valuation τ sig (Elt F) := fun c => Wout3 m c
abbrev Vin4 : (c : Dev nD) → (b : Ref sig .tc) → Buf (Elt F) ((c : Thread nD τ).loc b) := fun c b => Win4 m c b
def Wout4 (c : Dev nD) : Valuation τ sig (Elt F) :=
  Pipeline.withArrays spec4 c (Win4 m c) fun w => (dat4 (Vin4 m) c).arrAt w cfg4.N
theorem Wout4_arr (c : Dev nD) (w : Fin cfg4.W) :
    Wout4 m c (Proc.devRef .tc (Pipeline.arrRef spec4 w)) = (dat4 (Vin4 m) c).arrAt w cfg4.N :=
  Pipeline.withArrays_arr spec4 launch4.win.arr_inj c _ _ w
theorem Wout4_of_ne (c : Dev nD) (b : Ref sig .tc) (hb : ∀ w, Pipeline.arrRef spec4 w ≠ b) :
    Wout4 m c (Proc.devRef .tc b) = Win4 m c (Proc.devRef .tc b) :=
  Pipeline.withArrays_of_ne spec4 c _ _ b hb

abbrev Win5 : Dev nD → Valuation τ sig (Elt F) := fun c => StableHlo.after hostOps5 (Wout4 m c)
abbrev Vin5 : (c : Dev nD) → (b : Ref sig .tc) → Buf (Elt F) ((c : Thread nD τ).loc b) := fun c b => Win5 m c b
def Wout5 (c : Dev nD) : Valuation τ sig (Elt F) :=
  Pipeline.withArrays spec5 c (Win5 m c) fun w => (dat5 (Vin5 m) c).arrAt w cfg5.N
theorem Wout5_arr (c : Dev nD) (w : Fin cfg5.W) :
    Wout5 m c (Proc.devRef .tc (Pipeline.arrRef spec5 w)) = (dat5 (Vin5 m) c).arrAt w cfg5.N :=
  Pipeline.withArrays_arr spec5 launch5.win.arr_inj c _ _ w
theorem Wout5_of_ne (c : Dev nD) (b : Ref sig .tc) (hb : ∀ w, Pipeline.arrRef spec5 w ≠ b) :
    Wout5 m c (Proc.devRef .tc b) = Win5 m c (Proc.devRef .tc b) :=
  Pipeline.withArrays_of_ne spec5 c _ _ b hb

abbrev Win6 : Dev nD → Valuation τ sig (Elt F) := fun c => Wout5 m c
abbrev Vin6 : (c : Dev nD) → (b : Ref sig .tc) → Buf (Elt F) ((c : Thread nD τ).loc b) := fun c b => Win6 m c b
def Wout6 (c : Dev nD) : Valuation τ sig (Elt F) :=
  Pipeline.withArrays spec6 c (Win6 m c) fun w => (dat6 (Vin6 m) c).arrAt w cfg6.N
theorem Wout6_arr (c : Dev nD) (w : Fin cfg6.W) :
    Wout6 m c (Proc.devRef .tc (Pipeline.arrRef spec6 w)) = (dat6 (Vin6 m) c).arrAt w cfg6.N :=
  Pipeline.withArrays_arr spec6 launch6.win.arr_inj c _ _ w
theorem Wout6_of_ne (c : Dev nD) (b : Ref sig .tc) (hb : ∀ w, Pipeline.arrRef spec6 w ≠ b) :
    Wout6 m c (Proc.devRef .tc b) = Win6 m c (Proc.devRef .tc b) :=
  Pipeline.withArrays_of_ne spec6 c _ _ b hb

abbrev Win7 : Dev nD → Valuation τ sig (Elt F) := fun c => StableHlo.after hostOps7 (Wout6 m c)
abbrev Vin7 : (c : Dev nD) → (b : Ref sig .tc) → Buf (Elt F) ((c : Thread nD τ).loc b) := fun c b => Win7 m c b
def Wout7 (c : Dev nD) : Valuation τ sig (Elt F) :=
  Pipeline.withArrays spec7 c (Win7 m c) fun w => (dat7 (Vin7 m) c).arrAt w cfg7.N
theorem Wout7_arr (c : Dev nD) (w : Fin cfg7.W) :
    Wout7 m c (Proc.devRef .tc (Pipeline.arrRef spec7 w)) = (dat7 (Vin7 m) c).arrAt w cfg7.N :=
  Pipeline.withArrays_arr spec7 launch7.win.arr_inj c _ _ w
theorem Wout7_of_ne (c : Dev nD) (b : Ref sig .tc) (hb : ∀ w, Pipeline.arrRef spec7 w ≠ b) :
    Wout7 m c (Proc.devRef .tc b) = Win7 m c (Proc.devRef .tc b) :=
  Pipeline.withArrays_of_ne spec7 c _ _ b hb

abbrev Win8 : Dev nD → Valuation τ sig (Elt F) := fun c => StableHlo.after hostOps8 (Wout7 m c)
abbrev Vin8 : (c : Dev nD) → (b : Ref sig .tc) → Buf (Elt F) ((c : Thread nD τ).loc b) := fun c b => Win8 m c b
def Wout8 (c : Dev nD) : Valuation τ sig (Elt F) :=
  Pipeline.withArrays spec8 c (Win8 m c) fun w => (dat8 (Vin8 m) c).arrAt w cfg8.N
theorem Wout8_arr (c : Dev nD) (w : Fin cfg8.W) :
    Wout8 m c (Proc.devRef .tc (Pipeline.arrRef spec8 w)) = (dat8 (Vin8 m) c).arrAt w cfg8.N :=
  Pipeline.withArrays_arr spec8 launch8.win.arr_inj c _ _ w
theorem Wout8_of_ne (c : Dev nD) (b : Ref sig .tc) (hb : ∀ w, Pipeline.arrRef spec8 w ≠ b) :
    Wout8 m c (Proc.devRef .tc b) = Win8 m c (Proc.devRef .tc b) :=
  Pipeline.withArrays_of_ne spec8 c _ _ b hb

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c

abbrev 𝒱₀ : Variants := Variants.none
abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (Wout8 m c) ∗ ∃ r, prngReg c r)

end Cert.Kernel.Hand

end
-- ==== Proof.KB.Run.lean ====
import proofs.«422636_j31413390803462_1_alg».proof.Proof.KB.Chain
import proofs.«422636_j31413390803462_1_alg».proof.Proof.KB.RegOf
import proofs.«422636_j31413390803462_1_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg0 : Pipeline.RegionSeg (pcfgs (F := F)) adm (pdats m) () defs₀ 𝒱₀ L lv 0 :=
  regOf (pdats m) launch0 (Win0 m) (body_obligation0 (Vin0 m)) (fun _ _ => rfl) (fun _ _ => rfl) (fun _ => rfl) (fun _ _ => rfl)
    (hin0 (Vin0 m)) (hout0 (Vin0 m))
def reg1 : Pipeline.RegionSeg (pcfgs (F := F)) adm (pdats m) () defs₀ 𝒱₀ L lv 1 :=
  regOf (pdats m) launch1 (Win1 m) (body_obligation1 (Vin1 m)) (fun _ _ => rfl) (fun _ _ => rfl) (fun _ => rfl) (fun _ _ => rfl)
    (hin1 (Vin1 m)) (hout1 (Vin1 m))
def reg2 : Pipeline.RegionSeg (pcfgs (F := F)) adm (pdats m) () defs₀ 𝒱₀ L lv 2 :=
  regOf (pdats m) launch2 (Win2 m) (body_obligation2 (Vin2 m)) (fun _ _ => rfl) (fun _ _ => rfl) (fun _ => rfl) (fun _ _ => rfl)
    (hin2 (Vin2 m)) (hout2 (Vin2 m))
def reg3 : Pipeline.RegionSeg (pcfgs (F := F)) adm (pdats m) () defs₀ 𝒱₀ L lv 3 :=
  regOf (pdats m) launch3 (Win3 m) (body_obligation3 (Vin3 m)) (fun _ _ => rfl) (fun _ _ => rfl) (fun _ => rfl) (fun _ _ => rfl)
    (hin3 (Vin3 m)) (hout3 (Vin3 m))
def reg4 : Pipeline.RegionSeg (pcfgs (F := F)) adm (pdats m) () defs₀ 𝒱₀ L lv 4 :=
  regOf (pdats m) launch4 (Win4 m) (body_obligation4 (Vin4 m)) (fun _ _ => rfl) (fun _ _ => rfl) (fun _ => rfl) (fun _ _ => rfl)
    (hin4 (Vin4 m)) (hout4 (Vin4 m))
def reg5 : Pipeline.RegionSeg (pcfgs (F := F)) adm (pdats m) () defs₀ 𝒱₀ L lv 5 :=
  regOf (pdats m) launch5 (Win5 m) (body_obligation5 (Vin5 m)) (fun _ _ => rfl) (fun _ _ => rfl) (fun _ => rfl) (fun _ _ => rfl)
    (hin5 (Vin5 m)) (hout5 (Vin5 m))
def reg6 : Pipeline.RegionSeg (pcfgs (F := F)) adm (pdats m) () defs₀ 𝒱₀ L lv 6 :=
  regOf (pdats m) launch6 (Win6 m) (body_obligation6 (Vin6 m)) (fun _ _ => rfl) (fun _ _ => rfl) (fun _ => rfl) (fun _ _ => rfl)
    (hin6 (Vin6 m)) (hout6 (Vin6 m))
def reg7 : Pipeline.RegionSeg (pcfgs (F := F)) adm (pdats m) () defs₀ 𝒱₀ L lv 7 :=
  regOf (pdats m) launch7 (Win7 m) (body_obligation7 (Vin7 m)) (fun _ _ => rfl) (fun _ _ => rfl) (fun _ => rfl) (fun _ _ => rfl)
    (hin7 (Vin7 m)) (hout7 (Vin7 m))
def reg8 : Pipeline.RegionSeg (pcfgs (F := F)) adm (pdats m) () defs₀ 𝒱₀ L lv 8 :=
  regOf (pdats m) launch8 (Win8 m) (body_obligation8 (Vin8 m)) (fun _ _ => rfl) (fun _ _ => rfl) (fun _ => rfl) (fun _ _ => rfl)
    (hin8 (Vin8 m)) (hout8 (Vin8 m))

abbrev segs : List (Pipeline.Seg (pcfgs (F := F)) adm (pdats m) () defs₀ 𝒱₀ L lv) :=
  [ .host (hseg hostOps0 hostOps0_sub hostOps0_fresh (Wlaunch m)),
    .region (reg0 m),
    .host (hseg hostOps1 hostOps1_sub hostOps1_fresh (Wout0 m)),
    .region (reg1 m),
    .region (reg2 m),
    .host (hseg hostOps3 hostOps3_sub hostOps3_fresh (Wout2 m)),
    .region (reg3 m),
    .region (reg4 m),
    .host (hseg hostOps5 hostOps5_sub hostOps5_fresh (Wout4 m)),
    .region (reg5 m),
    .region (reg6 m),
    .host (hseg hostOps7 hostOps7_sub hostOps7_fresh (Wout6 m)),
    .region (reg7 m),
    .host (hseg hostOps8 hostOps8_sub hostOps8_fresh (Wout7 m)),
    .region (reg8 m) ]

/-- Every fair run from memory `m` ends, and ends with each unscoped buffer at `Wout8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wout8 m c b) :=
  Pipeline.θ_run_regions_kit (pcfgs (F := F)) adm (pdats m) () cellOf_inj emb₁ defs₀ 𝒱₀ L lv m ρ main (segs m)
    (fun c Q => by
      rewrite [main_chain c, Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m c) ∗ riding c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wout8 m c b)
    (hfin := fun c s' => by
      iintro ⟨⟨Hh, -⟩, HSI⟩
      unfold StableHlo.held
      imodintro
      iapply (pointsTo_read_all (Pipeline.ucRefs τ sig) (fun b => (((c : Thread nD τ)).1, b)) (Wout8 m c) s')
      isplitl [Hh] <;> iassumption)
    (hQ := fun s h c => h c)

end Cert.Kernel.Hand

end
-- ==== Proof.KB.Keep.lean ====
import proofs.«422636_j31413390803462_1_alg».proof.Proof.KB.Chain
import proofs.«422636_j31413390803462_1_alg».proof.Proof.Gen.Kernel.Regions

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- A launch changes only its output arrays: an input array ends as it began, and a buffer that is no array of the launch is not touched. -/
theorem keepOf {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Pipeline.arrRef cfg.spec w)) (outs : List (Ref sig .tc))
    (hout : ∀ w, (cfg.win w).isOut = true → Pipeline.arrRef cfg.spec w ∈ outs) (r : Ref sig .tc) (h : r ∉ outs) :
    Pipeline.withArrays cfg.spec c W (fun w => dat.arrAt w cfg.N) r = W r := by
  by_cases hr : ∃ w, Pipeline.arrRef cfg.spec w = r
  · obtain ⟨w, rfl⟩ := hr
    exact (Pipeline.withArrays_arr _ hinj c _ _ w).trans
      ((dat.arrAt_in w (Bool.eq_false_iff.mpr fun ht => h (hout w ht)) cfg.N).trans (hA w))
  · exact Pipeline.withArrays_of_ne _ c _ _ r fun w e => hr ⟨w, e⟩

def bnd : ℕ → Dev nD → Valuation τ sig (Elt F)
  | 0 => Wlaunch m
  | 1 => Win0 m
  | 2 => Wout0 m
  | 3 => Win1 m
  | 4 => Wout1 m
  | 5 => Wout2 m
  | 6 => Win3 m
  | 7 => Wout3 m
  | 8 => Wout4 m
  | 9 => Win5 m
  | 10 => Wout5 m
  | 11 => Wout6 m
  | 12 => Win7 m
  | 13 => Wout7 m
  | 14 => Win8 m
  | _ => Wout8 m

def wr : ℕ → List (Ref sig .tc)
  | 1 => hostOps0_W
  | 2 => [main_v6]
  | 3 => hostOps1_W
  | 4 => [main_v8]
  | 5 => [main_v9]
  | 6 => hostOps3_W
  | 7 => [main_v11]
  | 8 => [main_v12]
  | 9 => hostOps5_W
  | 10 => [main_v14]
  | 11 => [main_v15]
  | 12 => hostOps7_W
  | 13 => [main_v17]
  | 14 => hostOps8_W
  | 15 => [main_v19_0, main_v19_1]
  | _ => []

theorem bnd_step (i : ℕ) (hi : i < 15) (c : Dev nD) (r : Ref sig .tc) (h : r ∉ wr (i + 1)) :
    bnd m (i + 1) c r = bnd m i c r := by
  match i, hi, h with
  | 0, _, h => exact StableHlo.after_of_writes_sub hostOps0 _ hostOps0_writes h
  | 1, _, h => exact keepOf (dat0 (Vin0 m) c) launch0.win.arr_inj _ (A_eq0 (Vin0 m) c) _ (by decide) r h
  | 2, _, h => exact StableHlo.after_of_writes_sub hostOps1 _ hostOps1_writes h
  | 3, _, h => exact keepOf (dat1 (Vin1 m) c) launch1.win.arr_inj _ (A_eq1 (Vin1 m) c) _ (by decide) r h
  | 4, _, h => exact keepOf (dat2 (Vin2 m) c) launch2.win.arr_inj _ (A_eq2 (Vin2 m) c) _ (by decide) r h
  | 5, _, h => exact StableHlo.after_of_writes_sub hostOps3 _ hostOps3_writes h
  | 6, _, h => exact keepOf (dat3 (Vin3 m) c) launch3.win.arr_inj _ (A_eq3 (Vin3 m) c) _ (by decide) r h
  | 7, _, h => exact keepOf (dat4 (Vin4 m) c) launch4.win.arr_inj _ (A_eq4 (Vin4 m) c) _ (by decide) r h
  | 8, _, h => exact StableHlo.after_of_writes_sub hostOps5 _ hostOps5_writes h
  | 9, _, h => exact keepOf (dat5 (Vin5 m) c) launch5.win.arr_inj _ (A_eq5 (Vin5 m) c) _ (by decide) r h
  | 10, _, h => exact keepOf (dat6 (Vin6 m) c) launch6.win.arr_inj _ (A_eq6 (Vin6 m) c) _ (by decide) r h
  | 11, _, h => exact StableHlo.after_of_writes_sub hostOps7 _ hostOps7_writes h
  | 12, _, h => exact keepOf (dat7 (Vin7 m) c) launch7.win.arr_inj _ (A_eq7 (Vin7 m) c) _ (by decide) r h
  | 13, _, h => exact StableHlo.after_of_writes_sub hostOps8 _ hostOps8_writes h
  | 14, _, h => exact keepOf (dat8 (Vin8 m) c) launch8.win.arr_inj _ (A_eq8 (Vin8 m) c) _ (by decide) r h
  | n + 15, hi, _ => exact absurd hi (by omega)

def wrFrom (i : ℕ) : ℕ → List (Ref sig .tc)
  | 0 => []
  | n + 1 => wr (i + n + 1) ++ wrFrom i n

theorem bnd_kept (i : ℕ) : ∀ n : ℕ, i + n ≤ 15 → ∀ (c : Dev nD) (r : Ref sig .tc), r ∉ wrFrom i n →
    bnd m (i + n) c r = bnd m i c r
  | 0, _, _, _, _ => rfl
  | n + 1, hn, c, r, h =>
    (bnd_step m (i + n) (by omega) c r fun hm => h (List.mem_append_left _ hm)).trans
      (bnd_kept i n (by omega) c r fun hm => h (List.mem_append_right _ hm))

theorem arg_kept0 (c : Dev nD) : Wout8 m c main_arg0 = m ((c : Thread nD τ).loc main_arg0) :=
  bnd_kept m 0 15 (by decide) c main_arg0 (by decide)
theorem arg_kept1 (c : Dev nD) : Wout8 m c main_arg1 = m ((c : Thread nD τ).loc main_arg1) :=
  bnd_kept m 0 15 (by decide) c main_arg1 (by decide)
theorem arg_kept2 (c : Dev nD) : Wout8 m c main_arg2 = m ((c : Thread nD τ).loc main_arg2) :=
  bnd_kept m 0 15 (by decide) c main_arg2 (by decide)
theorem arg_kept3 (c : Dev nD) : Wout8 m c main_arg3 = m ((c : Thread nD τ).loc main_arg3) :=
  bnd_kept m 0 15 (by decide) c main_arg3 (by decide)
theorem arg_kept4 (c : Dev nD) : Wout8 m c main_arg4 = m ((c : Thread nD τ).loc main_arg4) :=
  bnd_kept m 0 15 (by decide) c main_arg4 (by decide)
theorem arg_kept5 (c : Dev nD) : Wout8 m c main_arg5 = m ((c : Thread nD τ).loc main_arg5) :=
  bnd_kept m 0 15 (by decide) c main_arg5 (by decide)
theorem arg_kept6 (c : Dev nD) : Wout8 m c main_arg6 = m ((c : Thread nD τ).loc main_arg6) :=
  bnd_kept m 0 15 (by decide) c main_arg6 (by decide)
theorem arg_kept7 (c : Dev nD) : Wout8 m c main_arg7 = m ((c : Thread nD τ).loc main_arg7) :=
  bnd_kept m 0 15 (by decide) c main_arg7 (by decide)
theorem arg_kept8 (c : Dev nD) : Wout8 m c main_arg8 = m ((c : Thread nD τ).loc main_arg8) :=
  bnd_kept m 0 15 (by decide) c main_arg8 (by decide)
theorem arg_kept9 (c : Dev nD) : Wout8 m c main_arg9 = m ((c : Thread nD τ).loc main_arg9) :=
  bnd_kept m 0 15 (by decide) c main_arg9 (by decide)
theorem arg_kept10 (c : Dev nD) : Wout8 m c main_arg10 = m ((c : Thread nD τ).loc main_arg10) :=
  bnd_kept m 0 15 (by decide) c main_arg10 (by decide)
theorem arg_kept11 (c : Dev nD) : Wout8 m c main_arg11 = m ((c : Thread nD τ).loc main_arg11) :=
  bnd_kept m 0 15 (by decide) c main_arg11 (by decide)

theorem keptAt0_arg0 (c : Dev nD) : Win0 m c main_arg0 = m ((c : Thread nD τ).loc main_arg0) :=
  bnd_kept m 0 1 (by decide) c _ (by decide)

theorem keptAt0_arg2 (c : Dev nD) : Win0 m c main_arg2 = m ((c : Thread nD τ).loc main_arg2) :=
  bnd_kept m 0 1 (by decide) c _ (by decide)

theorem hostIn1_arg3 (c : Dev nD) : Wout0 m c main_arg3 = m ((c : Thread nD τ).loc main_arg3) :=
  bnd_kept m 0 2 (by decide) c _ (by decide)

theorem keptAt1_v5 (c : Dev nD) : Win1 m c main_v5 = Win0 m c main_v5 :=
  bnd_kept m 1 2 (by decide) c _ (by decide)

theorem keptAt1_v6 (c : Dev nD) : Win1 m c main_v6 = Wout0 m c main_v6 :=
  bnd_kept m 2 1 (by decide) c _ (by decide)

theorem keptAt2_arg4 (c : Dev nD) : Win2 m c main_arg4 = m ((c : Thread nD τ).loc main_arg4) :=
  bnd_kept m 0 4 (by decide) c _ (by decide)

theorem keptAt2_v2 (c : Dev nD) : Win2 m c main_v2 = Win0 m c main_v2 :=
  bnd_kept m 1 3 (by decide) c _ (by decide)

theorem hostIn3_arg5 (c : Dev nD) : Wout2 m c main_arg5 = m ((c : Thread nD τ).loc main_arg5) :=
  bnd_kept m 0 5 (by decide) c _ (by decide)

theorem keptAt3_v5 (c : Dev nD) : Win3 m c main_v5 = Win0 m c main_v5 :=
  bnd_kept m 1 5 (by decide) c _ (by decide)

theorem keptAt3_v9 (c : Dev nD) : Win3 m c main_v9 = Wout2 m c main_v9 :=
  bnd_kept m 5 1 (by decide) c _ (by decide)

theorem keptAt4_arg6 (c : Dev nD) : Win4 m c main_arg6 = m ((c : Thread nD τ).loc main_arg6) :=
  bnd_kept m 0 7 (by decide) c _ (by decide)

theorem keptAt4_v2 (c : Dev nD) : Win4 m c main_v2 = Win0 m c main_v2 :=
  bnd_kept m 1 6 (by decide) c _ (by decide)

theorem hostIn5_arg7 (c : Dev nD) : Wout4 m c main_arg7 = m ((c : Thread nD τ).loc main_arg7) :=
  bnd_kept m 0 8 (by decide) c _ (by decide)

theorem keptAt5_v5 (c : Dev nD) : Win5 m c main_v5 = Win0 m c main_v5 :=
  bnd_kept m 1 8 (by decide) c _ (by decide)

theorem keptAt5_v12 (c : Dev nD) : Win5 m c main_v12 = Wout4 m c main_v12 :=
  bnd_kept m 8 1 (by decide) c _ (by decide)

theorem keptAt6_arg8 (c : Dev nD) : Win6 m c main_arg8 = m ((c : Thread nD τ).loc main_arg8) :=
  bnd_kept m 0 10 (by decide) c _ (by decide)

theorem keptAt6_v2 (c : Dev nD) : Win6 m c main_v2 = Win0 m c main_v2 :=
  bnd_kept m 1 9 (by decide) c _ (by decide)

theorem hostIn7_arg9 (c : Dev nD) : Wout6 m c main_arg9 = m ((c : Thread nD τ).loc main_arg9) :=
  bnd_kept m 0 11 (by decide) c _ (by decide)

theorem keptAt7_v5 (c : Dev nD) : Win7 m c main_v5 = Win0 m c main_v5 :=
  bnd_kept m 1 11 (by decide) c _ (by decide)

theorem keptAt7_v15 (c : Dev nD) : Win7 m c main_v15 = Wout6 m c main_v15 :=
  bnd_kept m 11 1 (by decide) c _ (by decide)

theorem hostIn8_arg11 (c : Dev nD) : Wout7 m c main_arg11 = m ((c : Thread nD τ).loc main_arg11) :=
  bnd_kept m 0 13 (by decide) c _ (by decide)

theorem keptAt8_v17 (c : Dev nD) : Win8 m c main_v17 = Wout7 m c main_v17 :=
  bnd_kept m 13 1 (by decide) c _ (by decide)

theorem keptAt8_arg10 (c : Dev nD) : Win8 m c main_arg10 = m ((c : Thread nD τ).loc main_arg10) :=
  bnd_kept m 0 14 (by decide) c _ (by decide)

theorem keptEnd_v17 (c : Dev nD) : Wout8 m c main_v17 = Wout7 m c main_v17 :=
  bnd_kept m 13 2 (by decide) c _ (by decide)

theorem keptAt2_v8 (c : Dev nD) : Win2 m c main_v8 = Wout1 m c main_v8 := rfl

theorem keptAt4_v11 (c : Dev nD) : Win4 m c main_v11 = Wout3 m c main_v11 := rfl

theorem keptAt6_v14 (c : Dev nD) : Win6 m c main_v14 = Wout5 m c main_v14 := rfl

end Cert.Kernel.Hand

end
-- ==== Proof.KB.Frame.lean ====
import proofs.«422636_j31413390803462_1_alg».proof.Proof.KB.Run
import proofs.«422636_j31413390803462_1_alg».proof.Proof.KB.Keep

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (arg_kept0 m c),
     (h c _ (mem_uc main_arg1 (by decide))).trans (arg_kept1 m c),
     (h c _ (mem_uc main_arg2 (by decide))).trans (arg_kept2 m c),
     (h c _ (mem_uc main_arg3 (by decide))).trans (arg_kept3 m c),
     (h c _ (mem_uc main_arg4 (by decide))).trans (arg_kept4 m c),
     (h c _ (mem_uc main_arg5 (by decide))).trans (arg_kept5 m c),
     (h c _ (mem_uc main_arg6 (by decide))).trans (arg_kept6 m c),
     (h c _ (mem_uc main_arg7 (by decide))).trans (arg_kept7 m c),
     (h c _ (mem_uc main_arg8 (by decide))).trans (arg_kept8 m c),
     (h c _ (mem_uc main_arg9 (by decide))).trans (arg_kept9 m c),
     (h c _ (mem_uc main_arg10 (by decide))).trans (arg_kept10 m c),
     (h c _ (mem_uc main_arg11 (by decide))).trans (arg_kept11 m c)⟩)
    (run_all m ρ)

end Cert.Kernel.Hand

end
-- ==== Proof.KI.BodyLib.lean ====
import proofs.«422636_j31413390803462_1_alg».proof.Proof.Gen.KernelIdeal
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zoffs : (![0, 0] : Fin 2 → ℕ) = fun _ => 0 := funext fun a => by fin_cases a <;> rfl

/-- A whole-buffer store made last decides what the buffer reads as. -/
theorem readStored {κ : Kind} {sp : Space} {S : Shape} {e : EltTy} (v : View sig κ sp S e) (f : v.ty.Contents (Elt F))
    {off : Fin S.rank → ℕ} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

theorem loadStored {κ : Kind} {sp : Space} {S : Shape} {e : EltTy} (v : View sig κ sp S e)
    {off : Fin S.rank → ℕ} (hz : off = fun _ => 0) (inb : ∀ a, off a + S.size a ≤ S.size a)
    (p : S.Idx → Elt F e) (L : List (View.Piece (Elt F) S e)) :
    v.readCov ((⟨Rect.unit off S.size inb, p⟩ : View.Piece (Elt F) S e) :: L) (Rect.unit off S.size inb).toLoadRect = p := by
  rw [View.readCov_eq_canon_ld _ _ _ (fun y => ⟨_, List.mem_cons_self, View.mem_set_unit_zero hz inb y⟩),
    View.canon_cons_unit_zero hz, View.ld_unit_zero hz]

theorem loadHeld {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

end Cert.KernelIdeal.Hand

end
-- ==== Proof.KI.GBody.lean ====
import proofs.«422636_j31413390803462_1_alg».proof.Proof.KI.BodyLib
import proofs.«422636_j31413390803462_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is the first node tile of its edge block. -/
abbrev firstTile (i : grid2.Coords) : Prop :=
  (Scalar.cmpi .ne (Scalar.extui (Scalar.cmpi .eq (BitVec.ofNat 32 (i 1).val) 0#32)) 0#32) = 1#1

/-- Every load and store of the body is of a whole buffer, so each buffer ends at the payload last stored into it. -/
theorem sound_gather (c : Dev nD) (E : Set ℕ) (i : grid2.Coords)
    (arg2 : Memref sig .tc .vmem S2000x128 .f32) (harg2 : arg2.IsWhole) (arg3 : Memref sig .tc .vmem S128x128 .f32) (harg3 : arg3.IsWhole)
    (arg4 : Memref sig .tc .vmem S1x3200 .i32) (harg4 : arg4.IsWhole) (arg5 : Memref sig .tc .vmem S3200x128 .bf16) (harg5 : arg5.IsWhole)
    (arg6 : Memref sig .tc .vmem S3200x128 .f32) (harg6 : arg6.IsWhole)
    (x : Vec F S2000x128 .f32) (w : Vec F S128x128 .f32) (s : Vec F S1x3200 .i32) (a r : Vec F S3200x128 .f32)
    (hr : r = if firstTile i then k2_pay1 else a) (K : PUnit → sProp 𝕄) :
    iprop(owns (c : Thread nD τ) arg2 fullShare x ∗ owns (c : Thread nD τ) arg3 fullShare w ∗ owns (c : Thread nD τ) arg4 fullShare s
        ∗ (∃ d, owns (c : Thread nD τ) arg5 fullShare d) ∗ owns (c : Thread nD τ) arg6 fullShare a
        ∗ (iprop(owns (c : Thread nD τ) arg2 fullShare x ∗ owns (c : Thread nD τ) arg3 fullShare w ∗ owns (c : Thread nD τ) arg4 fullShare s
            ∗ owns (c : Thread nD τ) arg5 fullShare (k2_pay3 (k2_pay2 i s x w r))
            ∗ owns (c : Thread nD τ) arg6 fullShare (k2_pay2 i s x w r)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel owns
  iintro ⟨⟨%fx, %hfx, Hx⟩, ⟨%fw, %hfw, Hw⟩, ⟨%fs, %hfs, Hs⟩, ⟨%d, %fo, -, Ho⟩, ⟨%fa, %hfa, Ha⟩, Hk⟩
  obtain rfl := harg2.eq_unread hfx; obtain rfl := harg3.eq_unread hfw; obtain rfl := harg4.eq_unread hfs; obtain rfl := harg6.eq_unread hfa
  by_cases hc : firstTile i <;> [rw [if_pos hc] at hr; rw [if_neg hc] at hr] <;> subst hr
  all_goals
    sl_exec (disch := first | exact hc)
    sl_step
    iapply Hk
    isplitl [Hx]
    · iexists _; isplitr; · ipureintro; exact harg2.read_unread _
      iexact Hx
    isplitl [Hw]
    · iexists _; isplitr; · ipureintro; exact harg3.read_unread _
      iexact Hw
    isplitl [Hs]
    · iexists _; isplitr; · ipureintro; exact harg4.read_unread _
      iexact Hs
    isplitl [Ho]
    all_goals
      iexists _; isplitr
      swap; · first | iexact Ho | iexact Ha
      ipureintro
      sl_unfold_words
      simp only [readStored (S := S3200x128) _ _ zoffs, loadStored (S := S3200x128) _ zoffs, loadHeld (S := S1x3200) harg4 zoffs,
        loadHeld (S := S2000x128) harg2 zoffs, loadHeld (S := S128x128) harg3 zoffs, loadHeld (S := S3200x128) harg6 zoffs]

/-- The first launch's product is the later launches': a shape cast to the same shape is the identity. -/
theorem k0_pay2_eq : @k0_pay2 F _ = k2_pay2 := by
  funext i s x w a; unfold k0_pay2 k2_pay2; simp only [shapeCast_self]

theorem cc0_eq : cc0__gather_kernel (F := F) = cc2__gather_kernel := by
  rw [cc0__gather_kernel_eq_skeleton, cc2__gather_kernel_eq_skeleton]
  unfold cc0__gather_kernel_skel cc2__gather_kernel_skel
  rw [k0_pay2_eq]; rfl

end Cert.KernelIdeal.Hand

end
-- ==== Proof.KI.G0.lean ====
import proofs.«422636_j31413390803462_1_alg».proof.Proof.Gen.KernelIdeal.Launch
import proofs.«422636_j31413390803462_1_alg».proof.Proof.Gen.KernelIdeal.Points
import proofs.«422636_j31413390803462_1_alg».proof.Proof.KI.GBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S2000x128 .f32 := iblk0 V c 0 t
abbrev wblk0 (c : Dev nD) (t : Fin cfg0.N) : Vec F S128x128 .f32 := iblk0 V c 1 t
abbrev sblk0 (c : Dev nD) (t : Fin cfg0.N) : Vec F S1x3200 .i32 := iblk0 V c 2 t

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

def acc0 (c : Dev nD) : (n : ℕ) → n < cfg0.N → Vec F S3200x128 .f32
  | 0, hn => k0_pay2 (grid0.coords ⟨0, hn⟩) (sblk0 V c ⟨0, hn⟩) (xblk0 V c ⟨0, hn⟩) (wblk0 V c ⟨0, hn⟩) (k0_pay1 (F := F))
  | n + 1, hn =>
    k0_pay2 (grid0.coords ⟨n + 1, hn⟩) (sblk0 V c ⟨n + 1, hn⟩) (xblk0 V c ⟨n + 1, hn⟩) (wblk0 V c ⟨n + 1, hn⟩)
      (if (n + 1) % 25 = 0 then (k0_pay1 (F := F)) else acc0 c n (Nat.lt_of_succ_lt hn))

theorem acc0_first (c : Dev nD) (t : Fin cfg0.N) (h : t.val % 25 = 0) :
    acc0 V c t.val t.isLt = k0_pay2 (grid0.coords t) (sblk0 V c t) (xblk0 V c t) (wblk0 V c t) (k0_pay1 (F := F)) := by
  obtain ⟨n, hn⟩ := t
  cases n with
  | zero => rfl
  | succ n => exact congrArg (k0_pay2 _ _ _ _) (if_pos h)

theorem acc0_next (c : Dev nD) (t : Fin cfg0.N) (h : ¬ t.val % 25 = 0) :
    acc0 V c t.val t.isLt = k0_pay2 (grid0.coords t) (sblk0 V c t) (xblk0 V c t) (wblk0 V c t)
      (acc0 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

def Phi0 (c : Dev nD) : (n : ℕ) → n ≤ cfg0.N → sProp 𝕄
  | 0, _ => Pipeline.ΦA spec0 c
  | n + 1, hn => iprop(owns (c : Thread nD τ) (Memref.whole cc0_scratch0) fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- At every position the accumulator is held, past the first at what the point before left. -/
theorem Phi0_acc (c : Dev nD) (n : ℕ) (h : n ≤ cfg0.N) :
    Phi0 V c n h ⊢ iprop(∃ a, ⌜∀ hz : n ≠ 0, a = acc0 V c (n - 1) (by omega)⌝
      ∗ owns (c : Thread nD τ) (Memref.whole cc0_scratch0) fullShare a
      ∗ Pipeline.scopedRestBut (Ix := Unit) (Name := ℕ) (U := UR sig nD τ) (Lvl := ℕ) (Val := Elt F) spec0 c [cc0_scratch0]
      ∗ (∃ r, prngReg c r)) := by
  cases n with
  | zero =>
    rw [show Phi0 V c 0 h = Pipeline.ΦA spec0 c from rfl]; unfold Pipeline.ΦA; rw [scopedRest0_split]; simp only [owns_whole]
    iintro ⟨⟨⟨%a, Ha⟩, Hr⟩, Hg⟩
    iexists a; isplitr; · ipureintro; exact fun hz => absurd rfl hz
    iframe
  | succ n =>
    unfold Phi0
    iintro ⟨Ha, Hr, Hg⟩
    iexists acc0 V c n h; isplitr; · ipureintro; exact fun _ => rfl
    iframe

/-- One step of the accumulator's recursion, from what the body finds in the accumulator. -/
theorem acc0_step (c : Dev nD) (t : Fin cfg0.N) (a : Vec F S3200x128 .f32)
    (ha : ∀ hz : t.val ≠ 0, a = acc0 V c (t.val - 1) (Nat.lt_of_le_of_lt (Nat.sub_le _ _) t.isLt)) :
    k2_pay2 (grid0.coords t) (sblk0 V c t) (xblk0 V c t) (wblk0 V c t) (if firstTile (grid0.coords t) then k2_pay1 else a)
      = acc0 V c t.val t.isLt := by
  by_cases hm : t.val % 25 = 0
  · rw [acc0_first V c t hm, k0_pay2_eq, if_pos ((hcond0_0 t).mpr hm)]; rfl
  · rw [acc0_next V c t hm, k0_pay2_eq, if_neg fun h => hm ((hcond0_0 t).mp h), ha fun e => hm (by rw [e])]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The inputs hold their blocks, the body runs on them and on what the accumulator holds, and leaves the recursion's next value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl,
    after0_0, after0_1, after0_2, after0_3]
  rw [cc0_eq, show @k0_pay3 F _ = k2_pay3 from rfl]
  iintro ⟨HΦ, Ho, ⟨%dx, Hx⟩, ⟨%dw, Hw⟩, ⟨%ds, Hs⟩, ⟨%dy, Hy⟩⟩
  ihave HΦ := (Phi0_acc V c t.val (Nat.le_of_lt t.isLt)) $$ HΦ
  icases HΦ with ⟨%a, %ha, Ha, Hr, Hg⟩
  iapply (sound_gather c Set.univ (grid0.coords t) _ _ _ _ _ _ _ _ (Memref.whole cc0_scratch0) (Memref.isWhole_whole _)
    (xblk0 V c t) (wblk0 V c t) (sblk0 V c t) a _ rfl _)
  iframe Hx Hw Hs Ha
  isplitl [Hy]; · iexists _; iexact Hy
  iintro ⟨Hx, Hw, Hs, Hy, Ha⟩
  rw [acc0_step V c t a ha]
  isplitl [Ha Hr Hg]
  · rw [Phi0]
    iframe
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c cfg0.N (Nat.le_refl _) from rfl]
  refine (Phi0_acc V c _ _).trans ?_
  unfold Pipeline.ΦA; rw [scopedRest0_split]; simp only [owns_whole]
  iintro ⟨%a, -, Ha, Hr, Hg⟩
  iframe Hr Hg
  iexists _; iexact Ha

end Cert.KernelIdeal.Hand

end
-- ==== Proof.KI.ScatterLib.lean ====
import proofs.«422636_j31413390803462_1_alg».proof.Proof.Gen.KernelIdeal.Launch
import proofs.«422636_j31413390803462_1_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sZeros : (![0, 0] : Fin 2 → ℕ) = fun _ => 0 := funext fun a => by fin_cases a <;> rfl

/-- A buffer reads, after stores the last of which went through its whole rectangle, that store's payload. -/
theorem sStored {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole rectangle after such a store reads the stored payload. -/
theorem sLoaded {sg : RefSig} {κ : Kind} {sp : Space} {S : Shape} {e : EltTy} (v : View sg κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

abbrev isFirst (i : grid1.Coords) : Prop := (Scalar.cmpi .ne (Scalar.extui (Scalar.cmpi .eq (BitVec.ofNat 32 (i 1).val) 0#32)) 0#32) = 1#1
abbrev isLast (i : grid1.Coords) : Prop := k1_cond2 i = 1#1
theorem isFirst_iff : ∀ t : Fin grid1.N, isFirst (grid1.coords t) ↔ t.val % 200 = 0 := by decide +kernel
theorem isLast_iff : ∀ t : Fin grid1.N, isLast (grid1.coords t) ↔ t.val % 200 = 199 := by decide +kernel

set_option maxHeartbeats 1000000 in
/-- One run of the body: the accumulator (zero at a first block) gains the block's product; a last block writes the output. -/
theorem sound_scatter (c : Dev nD) (E : Set ℕ) (i : grid1.Coords)
    (mD : Memref sig .tc .vmem S1x3200 .i32) (hD : mD.IsWhole) (mG : Memref sig .tc .vmem S3200x128 .bf16) (hG : mG.IsWhole)
    (mB : Memref sig .tc .vmem S1x128 .f32) (hB : mB.IsWhole) (mO : Memref sig .tc .vmem S2000x128 .f32) (hO : mO.IsWhole)
    (mS : Memref sig .tc .vmem S2000x128 .f32) (hS : mS.IsWhole)
    (xd : Vec F S1x3200 .i32) (xg : Vec F S3200x128 .bf16) (xb : Vec F S1x128 .f32) (xo xs : Vec F S2000x128 .f32)
    (K : PUnit → sProp 𝕄) :
    iprop(owns (c : Thread nD τ) mD fullShare xd ∗ owns (c : Thread nD τ) mG fullShare xg ∗ owns (c : Thread nD τ) mB fullShare xb
        ∗ owns (c : Thread nD τ) mO fullShare xo ∗ owns (c : Thread nD τ) mS fullShare xs
        ∗ (iprop(owns (c : Thread nD τ) mD fullShare xd ∗ owns (c : Thread nD τ) mG fullShare xg ∗ owns (c : Thread nD τ) mB fullShare xb
            ∗ owns (c : Thread nD τ) mO fullShare
                (if isLast i then k1_pay3 (k1_pay2 i xd xg (if isFirst i then k1_pay1 else xs)) xb else xo)
            ∗ owns (c : Thread nD τ) mS fullShare (k1_pay2 i xd xg (if isFirst i then k1_pay1 else xs))) -∗ K ⟨⟩))
      ⊢ wp frame (wpE (defs₀ (F := F)) Variants.none c none) E (cc1__scatter_kernel i mD hD mG hG mB hB mO hO mS hS) K := by
  by_cases hF : isFirst i <;> by_cases hL : isLast i <;>
    (first | rw [if_pos hF] | rw [if_neg hF]) <;> (first | rw [if_pos hL] | rw [if_neg hL])
  all_goals
    simp only [cc1__scatter_kernel_eq_skeleton]; unfold cc1__scatter_kernel_skel
    unfold owns
    iintro ⟨⟨%fd, %hfd, HD⟩, ⟨%fg, %hfg, HG⟩, ⟨%fb, %hfb, HB⟩, ⟨%fo, %hfo, HO⟩, ⟨%fs, %hfs, HS⟩, Hk⟩
    obtain rfl := hD.eq_unread hfd; obtain rfl := hG.eq_unread hfg; obtain rfl := hB.eq_unread hfb
    obtain rfl := hO.eq_unread hfo; obtain rfl := hS.eq_unread hfs
    sl_exec (disch := first | sl_exact hF | sl_exact hL)
    sl_step
    iapply Hk
    isplitl [HD]
    · iexists _; isplitr; · ipureintro; exact hfd
      iexact HD
    isplitl [HG]
    · iexists _; isplitr; · ipureintro; exact hfg
      iexact HG
    isplitl [HB]
    · iexists _; isplitr; · ipureintro; exact hfb
      iexact HB
    isplitl [HO]
    · iexists _; isplitr
      swap; · iexact HO
      ipureintro
      sl_unfold_words
      simp only [sStored (S := S2000x128) _ _ sZeros, View.readAt_eq_ld, hfd, hfg, hfb, hfo, hfs,
        View.ld_unit_zero (S := S1x3200) sZeros, View.ld_unit_zero (S := S3200x128) sZeros,
        View.ld_unit_zero (S := S2000x128) sZeros, View.ld_unit_zero (S := S1x128) sZeros,
        sLoaded (S := S2000x128) _ sZeros]
    iexists _; isplitr
    swap; · iexact HS
    ipureintro
    sl_unfold_words
    simp only [sStored (S := S2000x128) _ _ sZeros, View.readAt_eq_ld, hfd, hfg, hfs,
      View.ld_unit_zero (S := S1x3200) sZeros, View.ld_unit_zero (S := S3200x128) sZeros,
      View.ld_unit_zero (S := S2000x128) sZeros, sLoaded (S := S2000x128) _ sZeros]

theorem scatter3_eq : @cc3__scatter_kernel F _ = @cc1__scatter_kernel F _ := rfl
theorem scatter5_eq : @cc5__scatter_kernel F _ = @cc1__scatter_kernel F _ := rfl
theorem scatter7_eq : @cc7__scatter_kernel F _ = @cc1__scatter_kernel F _ := rfl

section Inv

variable {gr W : ℕ} (spec : Fin W → Pipeline.WinSpec sig gr) (s : Ref sig .tc) (c : Dev nD)

/-- Buffer `s` at contents `X`, beside the rest of what the launch hands over. -/
def heldAt (X : s.ty.shape.Idx → Elt F s.ty.elt) : sProp 𝕄 :=
  iprop(owns (c : Thread nD τ) (Memref.whole s) fullShare X
    ∗ Pipeline.scopedRestBut (Ix := Unit) (Name := ℕ) (U := UR sig nD τ) (Lvl := ℕ) (Val := Elt F) spec c [s]
    ∗ (∃ r, prngReg c r))

/-- The invariant of a launch accumulating in `s`: what the launch hands over, then `s` at what the point before left. -/
def PhiOf {N : ℕ} (a : (n : ℕ) → n < N → s.ty.shape.Idx → Elt F s.ty.elt) : (n : ℕ) → n ≤ N → sProp 𝕄
  | 0, _ => Pipeline.ΦA spec c
  | n + 1, hn => heldAt spec s c (a n hn)

variable (hs : (Pipeline.scopedRest (Ix := Unit) (Name := ℕ) (U := UR sig nD τ) (Lvl := ℕ) (Val := Elt F) spec c :
    sProp (MT nD τ sig Unit (Elt F) ℕ (UR sig nD τ) ℕ))
  = iprop(iprop((∃ f : Buf (Elt F) ((c : Thread nD τ).loc s), ((c : Thread nD τ).loc s) ↦{fullShare} f))
      ∗ Pipeline.scopedRestBut (Ix := Unit) (Name := ℕ) (U := UR sig nD τ) (Lvl := ℕ) (Val := Elt F) spec c [s]))
include hs

theorem PhiOf_open {N : ℕ} (a : (n : ℕ) → n < N → s.ty.shape.Idx → Elt F s.ty.elt) (n : ℕ) (h : n ≤ N) :
    PhiOf spec s c a n h ⊢ iprop(∃ d, ⌜∀ hn : n ≠ 0, d = a (n - 1) (by omega)⌝ ∗ heldAt spec s c d) := by
  cases n with
  | zero =>
    show Pipeline.ΦA spec c ⊢ _
    unfold Pipeline.ΦA heldAt; rw [hs]; simp only [owns_whole]
    iintro ⟨⟨⟨%f, HS⟩, HR⟩, Hg⟩
    iexists f; isplitr; · ipureintro; exact fun hn => absurd rfl hn
    isplitl [HS]; · iexact HS
    isplitl [HR]; · iexact HR
    iexact Hg
  | succ n =>
    show heldAt spec s c (a n h) ⊢ _
    iintro H; iexists a n h; isplitr; · ipureintro; exact fun _ => rfl
    iexact H

theorem PhiOf_close {N : ℕ} (a : (n : ℕ) → n < N → s.ty.shape.Idx → Elt F s.ty.elt) (n : ℕ) (h : n ≤ N) :
    PhiOf spec s c a n h ⊢ Pipeline.ΦA spec c := by
  refine (PhiOf_open spec s c hs a n h).trans ?_
  unfold Pipeline.ΦA heldAt; rw [hs]; simp only [owns_whole]
  iintro ⟨%f, -, HS, HR, Hg⟩
  isplitr [Hg]
  · isplitl [HS]; · iexists f; iexact HS
    iexact HR
  iexact Hg

end Inv

end Cert.KernelIdeal.Hand

end
-- ==== Proof.KI.S1.lean ====
import proofs.«422636_j31413390803462_1_alg».proof.Proof.Gen.KernelIdeal.Points
import proofs.«422636_j31413390803462_1_alg».proof.Proof.KI.ScatterLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev dblk1 (c : Dev nD) (t : Fin cfg1.N) : Vec F S1x3200 .i32 := iblk1 V c 0 t
abbrev gblk1 (c : Dev nD) (t : Fin cfg1.N) : Vec F S3200x128 .bf16 := iblk1 V c 1 t
abbrev bblk1 (c : Dev nD) (t : Fin cfg1.N) : Vec F S1x128 .f32 := iblk1 V c 2 t

def acc1 (c : Dev nD) : (n : ℕ) → n < cfg1.N → Vec F S2000x128 .f32
  | 0, hn => k1_pay2 (grid1.coords ⟨0, hn⟩) (dblk1 V c ⟨0, hn⟩) (gblk1 V c ⟨0, hn⟩) (k1_pay1 (F := F))
  | n + 1, hn =>
    k1_pay2 (grid1.coords ⟨n + 1, hn⟩) (dblk1 V c ⟨n + 1, hn⟩) (gblk1 V c ⟨n + 1, hn⟩)
      (if (n + 1) % 200 = 0 then (k1_pay1 (F := F)) else acc1 c n (Nat.lt_of_succ_lt hn))

theorem acc1_first (c : Dev nD) (t : Fin cfg1.N) (h : t.val % 200 = 0) :
    acc1 V c t.val t.isLt = k1_pay2 (grid1.coords t) (dblk1 V c t) (gblk1 V c t) (k1_pay1 (F := F)) := by
  obtain ⟨n, hn⟩ := t
  cases n with
  | zero => rfl
  | succ n => exact congrArg (k1_pay2 _ _ _) (if_pos h)

theorem acc1_next (c : Dev nD) (t : Fin cfg1.N) (h : ¬ t.val % 200 = 0) :
    acc1 V c t.val t.isLt = k1_pay2 (grid1.coords t) (dblk1 V c t) (gblk1 V c t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

def Phi1 (c : Dev nD) : (n : ℕ) → n ≤ cfg1.N → sProp 𝕄 := PhiOf spec1 cc1_scratch0 c (acc1 V c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (bblk1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val t.isLt) (bblk1 V c t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem idleAt1_3 : ∀ t : Fin cfg1.N, ¬isLast (grid1.coords t) → cfg1.idle 3 (grid1.coords t) = true := by decide +kernel
theorem liveAt1_3 : ∀ t : Fin cfg1.N, isLast (grid1.coords t) → cfg1.idle 3 (grid1.coords t) = false := by decide +kernel
theorem noFlush1_3 : ∀ t : Fin cfg1.N, ¬isLast (grid1.coords t) → (cfg1.win 3).flush t = false := by decide +kernel

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

/-- The output's buffer after the body, given the accumulator `a` the point leaves: written at a last block, else as found. -/
theorem leaves1_3 (c : Dev nD) (t : Fin cfg1.N) (d) (a) (ha : a = acc1 V c t.val t.isLt) :
    owns (c : Thread nD τ) (st1_3 t) fullShare
        (if isLast (grid1.coords t) then k1_pay3 a (bblk1 V c t) else (dat1 V c).before 3 t d)
      ⊢ (dat1 V c).leavesExact 3 t := by
  subst ha
  by_cases h : isLast (grid1.coords t)
  · rw [if_pos h]; unfold Dat.leavesExact; rw [liveAt1_3 t h]; exact Entails.refl _
  · rw [if_neg h, Dat.leavesExact_idle (dat1 V c) 3 t (idleAt1_3 t h) (noFlush1_3 t h)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point: the invariant lends it the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = heldAt spec1 cc1_scratch0 c (acc1 V c t.val t.isLt) from rfl]
  rw [leaves1_0, leaves1_1, leaves1_2,
    show (dat1 V c).Φ t.castSucc = PhiOf spec1 cc1_scratch0 c (acc1 V c) t.val (Nat.le_of_lt t.isLt) from rfl]
  iintro ⟨HΦ, Ho, ⟨%dd, HD⟩, ⟨%dg, HG⟩, ⟨%db, HB⟩, ⟨%dO, HO⟩⟩
  ihave HΦ := (PhiOf_open spec1 cc1_scratch0 c (scopedRest1_split c) (acc1 V c) t.val (Nat.le_of_lt t.isLt)) $$ HΦ
  unfold heldAt
  icases HΦ with ⟨%xs, %hxs, HS, HR, Hg⟩
  have hacc : acc1 V c t.val t.isLt
      = k1_pay2 (grid1.coords t) (dblk1 V c t) (gblk1 V c t) (if isFirst (grid1.coords t) then k1_pay1 else xs) := by
    by_cases hF : t.val % 200 = 0
    · exact (acc1_first V c t hF).trans (congrArg _ (if_pos ((isFirst_iff t).mpr hF)).symm)
    · exact (acc1_next V c t hF).trans (congrArg _ ((hxs fun e => hF (by rw [e])).symm.trans
        (if_neg fun h => hF ((isFirst_iff t).mp h)).symm))
  rw [hacc]
  iapply (sound_scatter c Set.univ (grid1.coords t) _ _ _ _ _ _ _ _ _ _ (dblk1 V c t) (gblk1 V c t) (bblk1 V c t) _ xs _)
  iframe HD HG HB HO HS
  iintro ⟨HD, HG, HB, HO, HS⟩
  iframe HS HR Hg Ho HD HG HB
  iapply (leaves1_3 V c t dO _ hacc.symm)
  iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c :=
  PhiOf_close spec1 cc1_scratch0 c (scopedRest1_split c) (acc1 V c) cfg1.N (Nat.le_refl _)

end Cert.KernelIdeal.Hand

end
-- ==== Proof.KI.G2.lean ====
import proofs.«422636_j31413390803462_1_alg».proof.Proof.Gen.KernelIdeal.Launch
import proofs.«422636_j31413390803462_1_alg».proof.Proof.Gen.KernelIdeal.Points
import proofs.«422636_j31413390803462_1_alg».proof.Proof.KI.GBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S2000x128 .f32 := iblk2 V c 0 t
abbrev wblk2 (c : Dev nD) (t : Fin cfg2.N) : Vec F S128x128 .f32 := iblk2 V c 1 t
abbrev sblk2 (c : Dev nD) (t : Fin cfg2.N) : Vec F S1x3200 .i32 := iblk2 V c 2 t

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

def acc2 (c : Dev nD) : (n : ℕ) → n < cfg2.N → Vec F S3200x128 .f32
  | 0, hn => k2_pay2 (grid2.coords ⟨0, hn⟩) (sblk2 V c ⟨0, hn⟩) (xblk2 V c ⟨0, hn⟩) (wblk2 V c ⟨0, hn⟩) (k2_pay1 (F := F))
  | n + 1, hn =>
    k2_pay2 (grid2.coords ⟨n + 1, hn⟩) (sblk2 V c ⟨n + 1, hn⟩) (xblk2 V c ⟨n + 1, hn⟩) (wblk2 V c ⟨n + 1, hn⟩)
      (if (n + 1) % 25 = 0 then (k2_pay1 (F := F)) else acc2 c n (Nat.lt_of_succ_lt hn))

theorem acc2_first (c : Dev nD) (t : Fin cfg2.N) (h : t.val % 25 = 0) :
    acc2 V c t.val t.isLt = k2_pay2 (grid2.coords t) (sblk2 V c t) (xblk2 V c t) (wblk2 V c t) (k2_pay1 (F := F)) := by
  obtain ⟨n, hn⟩ := t
  cases n with
  | zero => rfl
  | succ n => exact congrArg (k2_pay2 _ _ _ _) (if_pos h)

theorem acc2_next (c : Dev nD) (t : Fin cfg2.N) (h : ¬ t.val % 25 = 0) :
    acc2 V c t.val t.isLt = k2_pay2 (grid2.coords t) (sblk2 V c t) (xblk2 V c t) (wblk2 V c t)
      (acc2 V c (t.val - 1) (Nat.lt_of_le_of_lt (Nat.sub_le _ _) t.isLt)) := by
  obtain ⟨n, hn⟩ := t
  cases n with
  | zero => exact absurd (Nat.zero_mod _) h
  | succ n => exact congrArg (k2_pay2 _ _ _ _) (if_neg h)

def Phi2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (acc2 V c t.val t.isLt) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- At every position the accumulator is held, past the first at what the point before left. -/
theorem Phi2_acc (c : Dev nD) (n : ℕ) (h : n ≤ cfg2.N) :
    Phi2 V c n h ⊢ iprop(∃ a, ⌜∀ hz : n ≠ 0, a = acc2 V c (n - 1) (by omega)⌝
      ∗ owns (c : Thread nD τ) (Memref.whole cc2_scratch0) fullShare a
      ∗ Pipeline.scopedRestBut (Ix := Unit) (Name := ℕ) (U := UR sig nD τ) (Lvl := ℕ) (Val := Elt F) spec2 c [cc2_scratch0]
      ∗ (∃ r, prngReg c r)) := by
  cases n with
  | zero =>
    rw [show Phi2 V c 0 h = Pipeline.ΦA spec2 c from rfl]; unfold Pipeline.ΦA; rw [scopedRest2_split]; simp only [owns_whole]
    iintro ⟨⟨⟨%a, Ha⟩, Hr⟩, Hg⟩
    iexists a; isplitr; · ipureintro; exact fun hz => absurd rfl hz
    iframe
  | succ n =>
    unfold Phi2
    iintro ⟨Ha, Hr, Hg⟩
    iexists acc2 V c n h; isplitr; · ipureintro; exact fun _ => rfl
    iframe

/-- One step of the accumulator's recursion, from what the body finds in the accumulator. -/
theorem acc2_step (c : Dev nD) (t : Fin cfg2.N) (a : Vec F S3200x128 .f32)
    (ha : ∀ hz : t.val ≠ 0, a = acc2 V c (t.val - 1) (Nat.lt_of_le_of_lt (Nat.sub_le _ _) t.isLt)) :
    k2_pay2 (grid2.coords t) (sblk2 V c t) (xblk2 V c t) (wblk2 V c t) (if firstTile (grid2.coords t) then k2_pay1 else a)
      = acc2 V c t.val t.isLt := by
  by_cases hm : t.val % 25 = 0
  · rw [acc2_first V c t hm, if_pos ((hcond2_0 t).mpr hm)]
  · rw [acc2_next V c t hm, if_neg fun h => hm ((hcond2_0 t).mp h), ha fun e => hm (by rw [e])]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The inputs hold their blocks, the body runs on them and on what the accumulator holds, and leaves the recursion's next value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl,
    after2_0, after2_1, after2_2, after2_3]
  iintro ⟨HΦ, Ho, ⟨%dx, Hx⟩, ⟨%dw, Hw⟩, ⟨%ds, Hs⟩, ⟨%dy, Hy⟩⟩
  ihave HΦ := (Phi2_acc V c t.val (Nat.le_of_lt t.isLt)) $$ HΦ
  icases HΦ with ⟨%a, %ha, Ha, Hr, Hg⟩
  iapply (sound_gather c Set.univ (grid2.coords t) _ _ _ _ _ _ _ _ (Memref.whole cc2_scratch0) (Memref.isWhole_whole _)
    (xblk2 V c t) (wblk2 V c t) (sblk2 V c t) a _ rfl _)
  iframe Hx Hw Hs Ha
  isplitl [Hy]; · iexists _; iexact Hy
  iintro ⟨Hx, Hw, Hs, Hy, Ha⟩
  rw [acc2_step V c t a ha]
  isplitl [Ha Hr Hg]
  · rw [Phi2]
    iframe
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]

theorem hout2 (c : Dev nD) : (dat2 V c).Φ (Fin.last cfg2.N) ⊢ Pipeline.ΦA spec2 c := by
  rw [show (dat2 V c).Φ (Fin.last cfg2.N) = Phi2 V c cfg2.N (Nat.le_refl _) from rfl]
  refine (Phi2_acc V c _ _).trans ?_
  unfold Pipeline.ΦA; rw [scopedRest2_split]; simp only [owns_whole]
  iintro ⟨%a, -, Ha, Hr, Hg⟩
  iframe Hr Hg
  iexists _; iexact Ha

end Cert.KernelIdeal.Hand

end
-- ==== Proof.KI.S3.lean ====
import proofs.«422636_j31413390803462_1_alg».proof.Proof.Gen.KernelIdeal.Points
import proofs.«422636_j31413390803462_1_alg».proof.Proof.KI.ScatterLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev dblk3 (c : Dev nD) (t : Fin cfg3.N) : Vec F S1x3200 .i32 := iblk3 V c 0 t
abbrev gblk3 (c : Dev nD) (t : Fin cfg3.N) : Vec F S3200x128 .bf16 := iblk3 V c 1 t
abbrev bblk3 (c : Dev nD) (t : Fin cfg3.N) : Vec F S1x128 .f32 := iblk3 V c 2 t

def acc3 (c : Dev nD) : (n : ℕ) → n < cfg3.N → Vec F S2000x128 .f32
  | 0, hn => k3_pay2 (grid3.coords ⟨0, hn⟩) (dblk3 V c ⟨0, hn⟩) (gblk3 V c ⟨0, hn⟩) (k3_pay1 (F := F))
  | n + 1, hn =>
    k3_pay2 (grid3.coords ⟨n + 1, hn⟩) (dblk3 V c ⟨n + 1, hn⟩) (gblk3 V c ⟨n + 1, hn⟩)
      (if (n + 1) % 200 = 0 then (k3_pay1 (F := F)) else acc3 c n (Nat.lt_of_succ_lt hn))

theorem acc3_first (c : Dev nD) (t : Fin cfg3.N) (h : t.val % 200 = 0) :
    acc3 V c t.val t.isLt = k3_pay2 (grid3.coords t) (dblk3 V c t) (gblk3 V c t) (k3_pay1 (F := F)) := by
  obtain ⟨n, hn⟩ := t
  cases n with
  | zero => rfl
  | succ n => exact congrArg (k3_pay2 _ _ _) (if_pos h)

theorem acc3_next (c : Dev nD) (t : Fin cfg3.N) (h : ¬ t.val % 200 = 0) :
    acc3 V c t.val t.isLt = k3_pay2 (grid3.coords t) (dblk3 V c t) (gblk3 V c t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay2 _ _ _) (if_neg h)

def Phi3 (c : Dev nD) : (n : ℕ) → n ≤ cfg3.N → sProp 𝕄 := PhiOf spec3 cc3_scratch0 c (acc3 V c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (bblk3 V c t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = k3_pay3 (acc3 V c t.val t.isLt) (bblk3 V c t) := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem idleAt3_3 : ∀ t : Fin cfg3.N, ¬isLast (grid3.coords t) → cfg3.idle 3 (grid3.coords t) = true := by decide +kernel
theorem liveAt3_3 : ∀ t : Fin cfg3.N, isLast (grid3.coords t) → cfg3.idle 3 (grid3.coords t) = false := by decide +kernel
theorem noFlush3_3 : ∀ t : Fin cfg3.N, ¬isLast (grid3.coords t) → (cfg3.win 3).flush t = false := by decide +kernel

theorem leaves3_0 (c : Dev nD) (t : Fin cfg3.N) :
    (dat3 V c).leavesExact 0 t = owns (c : Thread nD τ) (st3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (st3_1 t) fullShare (iblk3 V c 1 t) := by
  unfold Dat.leavesExact; rw [show cfg3.idle 1 (cfg3.grid.coords t) = false from rfl, after3_1]
theorem leaves3_2 (c : Dev nD) (t : Fin cfg3.N) :
    (dat3 V c).leavesExact 2 t = owns (c : Thread nD τ) (st3_2 t) fullShare (iblk3 V c 2 t) := by
  unfold Dat.leavesExact; rw [show cfg3.idle 2 (cfg3.grid.coords t) = false from rfl, after3_2]

/-- The output's buffer after the body, given the accumulator `a` the point leaves: written at a last block, else as found. -/
theorem leaves3_3 (c : Dev nD) (t : Fin cfg3.N) (d) (a) (ha : a = acc3 V c t.val t.isLt) :
    owns (c : Thread nD τ) (st3_3 t) fullShare
        (if isLast (grid3.coords t) then k1_pay3 a (bblk3 V c t) else (dat3 V c).before 3 t d)
      ⊢ (dat3 V c).leavesExact 3 t := by
  subst ha
  by_cases h : isLast (grid3.coords t)
  · rw [if_pos h]; unfold Dat.leavesExact; rw [liveAt3_3 t h]; exact Entails.refl _
  · rw [if_neg h, Dat.leavesExact_idle (dat3 V c) 3 t (idleAt3_3 t h) (noFlush3_3 t h)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The body at any point: the invariant lends it the accumulator and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [scatter3_eq]
  simp only [before3_0, before3_1, before3_2]
  rw [show (dat3 V c).owesAt () t.succ = (dat3 V c).owesAt () t.castSucc from rfl]
  rw [show (dat3 V c).Φ t.succ = heldAt spec3 cc3_scratch0 c (acc3 V c t.val t.isLt) from rfl]
  rw [leaves3_0, leaves3_1, leaves3_2,
    show (dat3 V c).Φ t.castSucc = PhiOf spec3 cc3_scratch0 c (acc3 V c) t.val (Nat.le_of_lt t.isLt) from rfl]
  iintro ⟨HΦ, Ho, ⟨%dd, HD⟩, ⟨%dg, HG⟩, ⟨%db, HB⟩, ⟨%dO, HO⟩⟩
  ihave HΦ := (PhiOf_open spec3 cc3_scratch0 c (scopedRest3_split c) (acc3 V c) t.val (Nat.le_of_lt t.isLt)) $$ HΦ
  unfold heldAt
  icases HΦ with ⟨%xs, %hxs, HS, HR, Hg⟩
  have hacc : acc3 V c t.val t.isLt
      = k1_pay2 (grid3.coords t) (dblk3 V c t) (gblk3 V c t) (if isFirst (grid3.coords t) then k1_pay1 else xs) := by
    by_cases hF : t.val % 200 = 0
    · exact (acc3_first V c t hF).trans (congrArg _ (if_pos ((isFirst_iff t).mpr hF)).symm)
    · exact (acc3_next V c t hF).trans (congrArg _ ((hxs fun e => hF (by rw [e])).symm.trans
        (if_neg fun h => hF ((isFirst_iff t).mp h)).symm))
  rw [hacc]
  iapply (sound_scatter c Set.univ (grid3.coords t) _ _ _ _ _ _ _ _ _ _ (dblk3 V c t) (gblk3 V c t) (bblk3 V c t) _ xs _)
  iframe HD HG HB HO HS
  iintro ⟨HD, HG, HB, HO, HS⟩
  iframe HS HR Hg Ho HD HG HB
  iapply (leaves3_3 V c t dO _ hacc.symm)
  iexact HO

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c :=
  PhiOf_close spec3 cc3_scratch0 c (scopedRest3_split c) (acc3 V c) cfg3.N (Nat.le_refl _)

end Cert.KernelIdeal.Hand

end
-- ==== Proof.KI.G4.lean ====
import proofs.«422636_j31413390803462_1_alg».proof.Proof.Gen.KernelIdeal.Launch
import proofs.«422636_j31413390803462_1_alg».proof.Proof.Gen.KernelIdeal.Points
import proofs.«422636_j31413390803462_1_alg».proof.Proof.KI.GBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xblk4 (c : Dev nD) (t : Fin cfg4.N) : Vec F S2000x128 .f32 := iblk4 V c 0 t
abbrev wblk4 (c : Dev nD) (t : Fin cfg4.N) : Vec F S128x128 .f32 := iblk4 V c 1 t
abbrev sblk4 (c : Dev nD) (t : Fin cfg4.N) : Vec F S1x3200 .i32 := iblk4 V c 2 t

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

def acc4 (c : Dev nD) : (n : ℕ) → n < cfg4.N → Vec F S3200x128 .f32
  | 0, hn => k4_pay2 (grid4.coords ⟨0, hn⟩) (sblk4 V c ⟨0, hn⟩) (xblk4 V c ⟨0, hn⟩) (wblk4 V c ⟨0, hn⟩) (k4_pay1 (F := F))
  | n + 1, hn =>
    k4_pay2 (grid4.coords ⟨n + 1, hn⟩) (sblk4 V c ⟨n + 1, hn⟩) (xblk4 V c ⟨n + 1, hn⟩) (wblk4 V c ⟨n + 1, hn⟩)
      (if (n + 1) % 25 = 0 then (k4_pay1 (F := F)) else acc4 c n (Nat.lt_of_succ_lt hn))

theorem acc4_first (c : Dev nD) (t : Fin cfg4.N) (h : t.val % 25 = 0) :
    acc4 V c t.val t.isLt = k4_pay2 (grid4.coords t) (sblk4 V c t) (xblk4 V c t) (wblk4 V c t) (k4_pay1 (F := F)) := by
  obtain ⟨n, hn⟩ := t
  cases n with
  | zero => rfl
  | succ n => exact congrArg (k4_pay2 _ _ _ _) (if_pos h)

theorem acc4_next (c : Dev nD) (t : Fin cfg4.N) (h : ¬ t.val % 25 = 0) :
    acc4 V c t.val t.isLt = k4_pay2 (grid4.coords t) (sblk4 V c t) (xblk4 V c t) (wblk4 V c t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 _ _ _ _) (if_neg h)

def Phi4 (c : Dev nD) : (n : ℕ) → n ≤ cfg4.N → sProp 𝕄
  | 0, _ => Pipeline.ΦA spec4 c
  | n + 1, hn => iprop(owns (c : Thread nD τ) (Memref.whole cc4_scratch0) fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val t.isLt) := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

/-- At every position the accumulator is held, past the first at what the point before left. -/
theorem Phi4_acc (c : Dev nD) (n : ℕ) (h : n ≤ cfg4.N) :
    Phi4 V c n h ⊢ iprop(∃ a, ⌜∀ hz : n ≠ 0, a = acc4 V c (n - 1) (by omega)⌝
      ∗ owns (c : Thread nD τ) (Memref.whole cc4_scratch0) fullShare a
      ∗ Pipeline.scopedRestBut (Ix := Unit) (Name := ℕ) (U := UR sig nD τ) (Lvl := ℕ) (Val := Elt F) spec4 c [cc4_scratch0]
      ∗ (∃ r, prngReg c r)) := by
  cases n with
  | zero =>
    rw [show Phi4 V c 0 h = Pipeline.ΦA spec4 c from rfl]; unfold Pipeline.ΦA; rw [scopedRest4_split]; simp only [owns_whole]
    iintro ⟨⟨⟨%a, Ha⟩, Hr⟩, Hg⟩
    iexists a; isplitr; · ipureintro; exact fun hz => absurd rfl hz
    iframe
  | succ n =>
    unfold Phi4
    iintro ⟨Ha, Hr, Hg⟩
    iexists acc4 V c n h; isplitr; · ipureintro; exact fun _ => rfl
    iframe

/-- One step of the accumulator's recursion, from what the body finds in the accumulator. -/
theorem acc4_step (c : Dev nD) (t : Fin cfg4.N) (a : Vec F S3200x128 .f32)
    (ha : ∀ hz : t.val ≠ 0, a = acc4 V c (t.val - 1) (Nat.lt_of_le_of_lt (Nat.sub_le _ _) t.isLt)) :
    k2_pay2 (grid4.coords t) (sblk4 V c t) (xblk4 V c t) (wblk4 V c t) (if firstTile (grid4.coords t) then k2_pay1 else a)
      = acc4 V c t.val t.isLt := by
  by_cases hm : t.val % 25 = 0
  · rw [acc4_first V c t hm, if_pos ((hcond4_0 t).mpr hm)]; rfl
  · rw [acc4_next V c t hm, if_neg fun h => hm ((hcond4_0 t).mp h), ha fun e => hm (by rw [e])]; rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The inputs hold their blocks, the body runs on them and on what the accumulator holds, and leaves the recursion's next value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) t.isLt from rfl,
    show (dat4 V c).Φ t.castSucc = Phi4 V c t.val (Nat.le_of_lt t.isLt) from rfl,
    after4_0, after4_1, after4_2, after4_3]
  rw [show cc4__gather_kernel (F := F) = cc2__gather_kernel from rfl, show @k4_pay3 F _ = k2_pay3 from rfl]
  iintro ⟨HΦ, Ho, ⟨%dx, Hx⟩, ⟨%dw, Hw⟩, ⟨%ds, Hs⟩, ⟨%dy, Hy⟩⟩
  ihave HΦ := (Phi4_acc V c t.val (Nat.le_of_lt t.isLt)) $$ HΦ
  icases HΦ with ⟨%a, %ha, Ha, Hr, Hg⟩
  iapply (sound_gather c Set.univ (grid4.coords t) _ _ _ _ _ _ _ _ (Memref.whole cc4_scratch0) (Memref.isWhole_whole _)
    (xblk4 V c t) (wblk4 V c t) (sblk4 V c t) a _ rfl _)
  iframe Hx Hw Hs Ha
  isplitl [Hy]; · iexists _; iexact Hy
  iintro ⟨Hx, Hw, Hs, Hy, Ha⟩
  rw [acc4_step V c t a ha]
  isplitl [Ha Hr Hg]
  · rw [Phi4]
    iframe
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Pipeline.ΦA spec4 c from rfl]

theorem hout4 (c : Dev nD) : (dat4 V c).Φ (Fin.last cfg4.N) ⊢ Pipeline.ΦA spec4 c := by
  rw [show (dat4 V c).Φ (Fin.last cfg4.N) = Phi4 V c cfg4.N (Nat.le_refl _) from rfl]
  refine (Phi4_acc V c _ _).trans ?_
  unfold Pipeline.ΦA; rw [scopedRest4_split]; simp only [owns_whole]
  iintro ⟨%a, -, Ha, Hr, Hg⟩
  iframe Hr Hg
  iexists _; iexact Ha

end Cert.KernelIdeal.Hand

end
-- ==== Proof.KI.S5.lean ====
import proofs.«422636_j31413390803462_1_alg».proof.Proof.Gen.KernelIdeal.Points
import proofs.«422636_j31413390803462_1_alg».proof.Proof.KI.ScatterLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev dblk5 (c : Dev nD) (t : Fin cfg5.N) : Vec F S1x3200 .i32 := iblk5 V c 0 t
abbrev gblk5 (c : Dev nD) (t : Fin cfg5.N) : Vec F S3200x128 .bf16 := iblk5 V c 1 t
abbrev bblk5 (c : Dev nD) (t : Fin cfg5.N) : Vec F S1x128 .f32 := iblk5 V c 2 t

def acc5 (c : Dev nD) : (n : ℕ) → n < cfg5.N → Vec F S2000x128 .f32
  | 0, hn => k5_pay2 (grid5.coords ⟨0, hn⟩) (dblk5 V c ⟨0, hn⟩) (gblk5 V c ⟨0, hn⟩) (k5_pay1 (F := F))
  | n + 1, hn =>
    k5_pay2 (grid5.coords ⟨n + 1, hn⟩) (dblk5 V c ⟨n + 1, hn⟩) (gblk5 V c ⟨n + 1, hn⟩)
      (if (n + 1) % 200 = 0 then (k5_pay1 (F := F)) else acc5 c n (Nat.lt_of_succ_lt hn))

theorem acc5_first (c : Dev nD) (t : Fin cfg5.N) (h : t.val % 200 = 0) :
    acc5 V c t.val t.isLt = k5_pay2 (grid5.coords t) (dblk5 V c t) (gblk5 V c t) (k5_pay1 (F := F)) := by
  obtain ⟨n, hn⟩ := t
  cases n with
  | zero => rfl
  | succ n => exact congrArg (k5_pay2 _ _ _) (if_pos h)

theorem acc5_next (c : Dev nD) (t : Fin cfg5.N) (h : ¬ t.val % 200 = 0) :
    acc5 V c t.val t.isLt = k5_pay2 (grid5.coords t) (dblk5 V c t) (gblk5 V c t)
      (acc5 V c (t.val - 1) (Nat.lt_of_le_of_lt (Nat.sub_le _ _) t.isLt)) := by
  obtain ⟨n, hn⟩ := t
  cases n with
  | zero => exact absurd (Nat.zero_mod _) h
  | succ n => exact congrArg (k5_pay2 _ _ _) (if_neg h)

def Phi5 (c : Dev nD) : (n : ℕ) → n ≤ cfg5.N → sProp 𝕄 := PhiOf spec5 cc5_scratch0 c (acc5 V c)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (bblk5 V c t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val t.isLt) (bblk5 V c t) := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem idleAt5_3 : ∀ t : Fin cfg5.N, ¬isLast (grid5.coords t) → cfg5.idle 3 (grid5.coords t) = true := by decide +kernel
theorem liveAt5_3 : ∀ t : Fin cfg5.N, isLast (grid5.coords t) → cfg5.idle 3 (grid5.coords t) = false := by decide +kernel
theorem noFlush5_3 : ∀ t : Fin cfg5.N, ¬isLast (grid5.coords t) → (cfg5.win 3).flush t = false := by decide +kernel

theorem leaves5_0 (c : Dev nD) (t : Fin cfg5.N) :
    (dat5 V c).leavesExact 0 t = owns (c : Thread nD τ) (st5_0 t) fullShare (iblk5 V c 0 t) := by
  unfold Dat.leavesExact; rw [show cfg5.idle 0 (cfg5.grid.coords t) = false from rfl, after5_0]
theorem leaves5_1 (c : Dev nD) (t : Fin cfg5.N) :
    (dat5 V c).leavesExact 1 t = owns (c : Thread nD τ) (st5_1 t) fullShare (iblk5 V c 1 t) := by
  unfold Dat.leavesExact; rw [show cfg5.idle 1 (cfg5.grid.coords t) = false from rfl, after5_1]
theorem leaves5_2 (c : Dev nD) (t : Fin cfg5.N) :
    (dat5 V c).leavesExact 2 t = owns (c : Thread nD τ) (st5_2 t) fullShare (iblk5 V c 2 t) := by
  unfold Dat.leavesExact; rw [show cfg5.idle 2 (cfg5.grid.coords t) = false from rfl, after5_2]

/-- The output's buffer after the body, given the accumulator `a` the point leaves: written at a last block, else as found. -/
theorem leaves5_3 (c : Dev nD) (t : Fin cfg5.N) (d) (a) (ha : a = acc5 V c t.val t.isLt) :
    owns (c : Thread nD τ) (st5_3 t) fullShare
        (if isLast (grid5.coords t) then k1_pay3 a (bblk5 V c t) else (dat5 V c).before 3 t d)
      ⊢ (dat5 V c).leavesExact 3 t := by
  subst ha
  by_cases h : isLast (grid5.coords t)
  · rw [if_pos h]; unfold Dat.leavesExact; rw [liveAt5_3 t h]; exact Entails.refl _
  · rw [if_neg h, Dat.leavesExact_idle (dat5 V c) 3 t (idleAt5_3 t h) (noFlush5_3 t h)]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The body at any point: the invariant lends it the accumulator and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [scatter5_eq]
  simp only [before5_0, before5_1, before5_2]
  rw [show (dat5 V c).owesAt () t.succ = (dat5 V c).owesAt () t.castSucc from rfl]
  rw [show (dat5 V c).Φ t.succ = heldAt spec5 cc5_scratch0 c (acc5 V c t.val t.isLt) from rfl]
  rw [leaves5_0, leaves5_1, leaves5_2,
    show (dat5 V c).Φ t.castSucc = PhiOf spec5 cc5_scratch0 c (acc5 V c) t.val (Nat.le_of_lt t.isLt) from rfl]
  iintro ⟨HΦ, Ho, ⟨%dd, HD⟩, ⟨%dg, HG⟩, ⟨%db, HB⟩, ⟨%dO, HO⟩⟩
  ihave HΦ := (PhiOf_open spec5 cc5_scratch0 c (scopedRest5_split c) (acc5 V c) t.val (Nat.le_of_lt t.isLt)) $$ HΦ
  unfold heldAt
  icases HΦ with ⟨%xs, %hxs, HS, HR, Hg⟩
  have hacc : acc5 V c t.val t.isLt
      = k1_pay2 (grid5.coords t) (dblk5 V c t) (gblk5 V c t) (if isFirst (grid5.coords t) then k1_pay1 else xs) := by
    by_cases hF : t.val % 200 = 0
    · exact (acc5_first V c t hF).trans (congrArg _ (if_pos ((isFirst_iff t).mpr hF)).symm)
    · exact (acc5_next V c t hF).trans (congrArg _ ((hxs fun e => hF (by rw [e])).symm.trans
        (if_neg fun h => hF ((isFirst_iff t).mp h)).symm))
  rw [hacc]
  iapply (sound_scatter c Set.univ (grid5.coords t) _ _ _ _ _ _ _ _ _ _ (dblk5 V c t) (gblk5 V c t) (bblk5 V c t) _ xs _)
  iframe HD HG HB HO HS
  iintro ⟨HD, HG, HB, HO, HS⟩
  iframe HS HR Hg Ho HD HG HB
  iapply (leaves5_3 V c t dO _ hacc.symm)
  iexact HO

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Pipeline.ΦA spec5 c from rfl]

theorem hout5 (c : Dev nD) : (dat5 V c).Φ (Fin.last cfg5.N) ⊢ Pipeline.ΦA spec5 c :=
  PhiOf_close spec5 cc5_scratch0 c (scopedRest5_split c) (acc5 V c) cfg5.N (Nat.le_refl _)

end Cert.KernelIdeal.Hand

end
-- ==== Proof.KI.G6.lean ====
import proofs.«422636_j31413390803462_1_alg».proof.Proof.Gen.KernelIdeal.Launch
import proofs.«422636_j31413390803462_1_alg».proof.Proof.Gen.KernelIdeal.Points
import proofs.«422636_j31413390803462_1_alg».proof.Proof.KI.GBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xblk6 (c : Dev nD) (t : Fin cfg6.N) : Vec F S2000x128 .f32 := iblk6 V c 0 t
abbrev wblk6 (c : Dev nD) (t : Fin cfg6.N) : Vec F S128x128 .f32 := iblk6 V c 1 t
abbrev sblk6 (c : Dev nD) (t : Fin cfg6.N) : Vec F S1x3200 .i32 := iblk6 V c 2 t

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 25 = 0 :=
  (by decide +kernel : ∀ t : Fin grid6.N, cond6_0 (grid6.coords t) ↔ t.val % 25 = 0)

def acc6 (c : Dev nD) : (n : ℕ) → n < cfg6.N → Vec F S3200x128 .f32
  | 0, hn => k6_pay2 (grid6.coords ⟨0, hn⟩) (sblk6 V c ⟨0, hn⟩) (xblk6 V c ⟨0, hn⟩) (wblk6 V c ⟨0, hn⟩) (k6_pay1 (F := F))
  | n + 1, hn =>
    k6_pay2 (grid6.coords ⟨n + 1, hn⟩) (sblk6 V c ⟨n + 1, hn⟩) (xblk6 V c ⟨n + 1, hn⟩) (wblk6 V c ⟨n + 1, hn⟩)
      (if (n + 1) % 25 = 0 then (k6_pay1 (F := F)) else acc6 c n (Nat.lt_of_succ_lt hn))

theorem acc6_first (c : Dev nD) (t : Fin cfg6.N) (h : t.val % 25 = 0) :
    acc6 V c t.val t.isLt = k6_pay2 (grid6.coords t) (sblk6 V c t) (xblk6 V c t) (wblk6 V c t) (k6_pay1 (F := F)) := by
  obtain ⟨n, hn⟩ := t
  cases n with
  | zero => rfl
  | succ n => exact congrArg (k6_pay2 _ _ _ _) (if_pos h)

theorem acc6_next (c : Dev nD) (t : Fin cfg6.N) (h : ¬ t.val % 25 = 0) :
    acc6 V c t.val t.isLt = k6_pay2 (grid6.coords t) (sblk6 V c t) (xblk6 V c t) (wblk6 V c t)
      (acc6 V c (t.val - 1) (Nat.lt_of_le_of_lt (Nat.sub_le _ _) t.isLt)) := by
  obtain ⟨n, hn⟩ := t
  cases n with
  | zero => exact absurd (Nat.zero_mod _) h
  | succ n => exact congrArg (k6_pay2 _ _ _ _) (if_neg h)

def Phi6 (c : Dev nD) : (n : ℕ) → n ≤ cfg6.N → sProp 𝕄
  | 0, _ => Pipeline.ΦA spec6 c
  | n + 1, hn => iprop(owns (c : Thread nD τ) (Memref.whole cc6_scratch0) fullShare (acc6 V c n hn)
      ∗ Pipeline.scopedRestBut (Ix := Unit) (Name := ℕ) (U := UR sig nD τ) (Lvl := ℕ) (Val := Elt F) spec6 c [cc6_scratch0]
      ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt)
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = k6_pay3 (acc6 V c t.val t.isLt) := by dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

/-- At every position the accumulator is held, past the first at what the point before left. -/
theorem Phi6_acc (c : Dev nD) (n : ℕ) (h : n ≤ cfg6.N) :
    Phi6 V c n h ⊢ iprop(∃ a, ⌜∀ hz : n ≠ 0, a = acc6 V c (n - 1) (by omega)⌝
      ∗ owns (c : Thread nD τ) (Memref.whole cc6_scratch0) fullShare a
      ∗ Pipeline.scopedRestBut (Ix := Unit) (Name := ℕ) (U := UR sig nD τ) (Lvl := ℕ) (Val := Elt F) spec6 c [cc6_scratch0]
      ∗ (∃ r, prngReg c r)) := by
  cases n with
  | zero =>
    rw [show Phi6 V c 0 h = Pipeline.ΦA spec6 c from rfl]; unfold Pipeline.ΦA; rw [scopedRest6_split]; simp only [owns_whole]
    iintro ⟨⟨⟨%a, Ha⟩, Hr⟩, Hg⟩
    iexists a; isplitr; · ipureintro; exact fun hz => absurd rfl hz
    iframe
  | succ n =>
    unfold Phi6
    iintro ⟨Ha, Hr, Hg⟩
    iexists acc6 V c n h; isplitr; · ipureintro; exact fun _ => rfl
    iframe

/-- One step of the accumulator's recursion, from what the body finds in the accumulator. -/
theorem acc6_step (c : Dev nD) (t : Fin cfg6.N) (a : Vec F S3200x128 .f32)
    (ha : ∀ hz : t.val ≠ 0, a = acc6 V c (t.val - 1) (Nat.lt_of_le_of_lt (Nat.sub_le _ _) t.isLt)) :
    k2_pay2 (grid6.coords t) (sblk6 V c t) (xblk6 V c t) (wblk6 V c t) (if firstTile (grid6.coords t) then k2_pay1 else a)
      = acc6 V c t.val t.isLt := by
  by_cases hm : t.val % 25 = 0
  · rw [acc6_first V c t hm, if_pos ((hcond6_0 t).mpr hm)]; rfl
  · rw [acc6_next V c t hm, if_neg fun h => hm ((hcond6_0 t).mp h), ha fun e => hm (by rw [e])]; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The inputs hold their blocks, the body runs on them and on what the accumulator holds, and leaves the recursion's next value. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl,
    show (dat6 V c).Φ t.castSucc = Phi6 V c t.val (Nat.le_of_lt t.isLt) from rfl,
    after6_0, after6_1, after6_2, after6_3]
  rw [show cc6__gather_kernel (F := F) = cc2__gather_kernel from rfl, show @k6_pay3 F _ = k2_pay3 from rfl]
  iintro ⟨HΦ, Ho, ⟨%dx, Hx⟩, ⟨%dw, Hw⟩, ⟨%ds, Hs⟩, ⟨%dy, Hy⟩⟩
  ihave HΦ := (Phi6_acc V c t.val (Nat.le_of_lt t.isLt)) $$ HΦ
  icases HΦ with ⟨%a, %ha, Ha, Hr, Hg⟩
  iapply (sound_gather c Set.univ (grid6.coords t) _ _ _ _ _ _ _ _ (Memref.whole cc6_scratch0) (Memref.isWhole_whole _)
    (xblk6 V c t) (wblk6 V c t) (sblk6 V c t) a _ rfl _)
  iframe Hx Hw Hs Ha
  isplitl [Hy]; · iexists _; iexact Hy
  iintro ⟨Hx, Hw, Hs, Hy, Ha⟩
  rw [acc6_step V c t a ha]
  isplitl [Ha Hr Hg]
  · rw [Phi6]
    iframe
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = Pipeline.ΦA spec6 c from rfl]

theorem hout6 (c : Dev nD) : (dat6 V c).Φ (Fin.last cfg6.N) ⊢ Pipeline.ΦA spec6 c := by
  rw [show (dat6 V c).Φ (Fin.last cfg6.N) = Phi6 V c cfg6.N (Nat.le_refl _) from rfl]
  refine (Phi6_acc V c _ _).trans ?_
  unfold Pipeline.ΦA; rw [scopedRest6_split]; simp only [owns_whole]
  iintro ⟨%a, -, Ha, Hr, Hg⟩
  iframe Hr Hg
  iexists _; iexact Ha

end Cert.KernelIdeal.Hand

end
-- ==== Proof.KI.S7.lean ====
import proofs.«422636_j31413390803462_1_alg».proof.Proof.Gen.KernelIdeal.Points
import proofs.«422636_j31413390803462_1_alg».proof.Proof.KI.ScatterLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev dblk7 (c : Dev nD) (t : Fin cfg7.N) : Vec F S1x3200 .i32 := iblk7 V c 0 t
abbrev gblk7 (c : Dev nD) (t : Fin cfg7.N) : Vec F S3200x128 .bf16 := iblk7 V c 1 t
abbrev bblk7 (c : Dev nD) (t : Fin cfg7.N) : Vec F S1x128 .f32 := iblk7 V c 2 t

def acc7 (c : Dev nD) : (n : ℕ) → n < cfg7.N → Vec F S2000x128 .f32
  | 0, hn => k7_pay2 (grid7.coords ⟨0, hn⟩) (dblk7 V c ⟨0, hn⟩) (gblk7 V c ⟨0, hn⟩) (k7_pay1 (F := F))
  | n + 1, hn =>
    k7_pay2 (grid7.coords ⟨n + 1, hn⟩) (dblk7 V c ⟨n + 1, hn⟩) (gblk7 V c ⟨n + 1, hn⟩)
      (if (n + 1) % 200 = 0 then (k7_pay1 (F := F)) else acc7 c n (Nat.lt_of_succ_lt hn))

theorem acc7_first (c : Dev nD) (t : Fin cfg7.N) (h : t.val % 200 = 0) :
    acc7 V c t.val t.isLt = k7_pay2 (grid7.coords t) (dblk7 V c t) (gblk7 V c t) (k7_pay1 (F := F)) := by
  obtain ⟨n, hn⟩ := t
  cases n with
  | zero => rfl
  | succ n => exact congrArg (k7_pay2 _ _ _) (if_pos h)

theorem acc7_next (c : Dev nD) (t : Fin cfg7.N) (h : ¬ t.val % 200 = 0) :
    acc7 V c t.val t.isLt = k7_pay2 (grid7.coords t) (dblk7 V c t) (gblk7 V c t)
      (acc7 V c (t.val - 1) (Nat.lt_of_le_of_lt (Nat.sub_le _ _) t.isLt)) := by
  obtain ⟨n, hn⟩ := t
  cases n with
  | zero => exact absurd (Nat.zero_mod _) h
  | succ n => exact congrArg (k7_pay2 _ _ _) (if_neg h)

def Phi7 (c : Dev nD) : (n : ℕ) → n ≤ cfg7.N → sProp 𝕄 := PhiOf spec7 cc7_scratch0 c (acc7 V c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (acc7 V c t.val t.isLt) (bblk7 V c t)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = k7_pay3 (acc7 V c t.val t.isLt) (bblk7 V c t) := by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem idleAt7_3 : ∀ t : Fin cfg7.N, ¬isLast (grid7.coords t) → cfg7.idle 3 (grid7.coords t) = true := by decide +kernel
theorem liveAt7_3 : ∀ t : Fin cfg7.N, isLast (grid7.coords t) → cfg7.idle 3 (grid7.coords t) = false := by decide +kernel
theorem noFlush7_3 : ∀ t : Fin cfg7.N, ¬isLast (grid7.coords t) → (cfg7.win 3).flush t = false := by decide +kernel

theorem leaves7_0 (c : Dev nD) (t : Fin cfg7.N) :
    (dat7 V c).leavesExact 0 t = owns (c : Thread nD τ) (st7_0 t) fullShare (iblk7 V c 0 t) := by
  unfold Dat.leavesExact; rw [show cfg7.idle 0 (cfg7.grid.coords t) = false from rfl, after7_0]
theorem leaves7_1 (c : Dev nD) (t : Fin cfg7.N) :
    (dat7 V c).leavesExact 1 t = owns (c : Thread nD τ) (st7_1 t) fullShare (iblk7 V c 1 t) := by
  unfold Dat.leavesExact; rw [show cfg7.idle 1 (cfg7.grid.coords t) = false from rfl, after7_1]
theorem leaves7_2 (c : Dev nD) (t : Fin cfg7.N) :
    (dat7 V c).leavesExact 2 t = owns (c : Thread nD τ) (st7_2 t) fullShare (iblk7 V c 2 t) := by
  unfold Dat.leavesExact; rw [show cfg7.idle 2 (cfg7.grid.coords t) = false from rfl, after7_2]

/-- The output's buffer after the body, given the accumulator `a` the point leaves: written at a last block, else as found. -/
theorem leaves7_3 (c : Dev nD) (t : Fin cfg7.N) (d) (a) (ha : a = acc7 V c t.val t.isLt) :
    owns (c : Thread nD τ) (st7_3 t) fullShare
        (if isLast (grid7.coords t) then k1_pay3 a (bblk7 V c t) else (dat7 V c).before 3 t d)
      ⊢ (dat7 V c).leavesExact 3 t := by
  subst ha
  by_cases h : isLast (grid7.coords t)
  · rw [if_pos h]; unfold Dat.leavesExact; rw [liveAt7_3 t h]; exact Entails.refl _
  · rw [if_neg h, Dat.leavesExact_idle (dat7 V c) 3 t (idleAt7_3 t h) (noFlush7_3 t h)]
    iintro H; iexists d; iexact H

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- The body at any point: the invariant lends it the accumulator and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [scatter7_eq]
  simp only [before7_0, before7_1, before7_2]
  rw [show (dat7 V c).owesAt () t.succ = (dat7 V c).owesAt () t.castSucc from rfl]
  rw [show (dat7 V c).Φ t.succ = heldAt spec7 cc7_scratch0 c (acc7 V c t.val t.isLt) from rfl]
  rw [leaves7_0, leaves7_1, leaves7_2,
    show (dat7 V c).Φ t.castSucc = PhiOf spec7 cc7_scratch0 c (acc7 V c) t.val (Nat.le_of_lt t.isLt) from rfl]
  iintro ⟨HΦ, Ho, ⟨%dd, HD⟩, ⟨%dg, HG⟩, ⟨%db, HB⟩, ⟨%dO, HO⟩⟩
  ihave HΦ := (PhiOf_open spec7 cc7_scratch0 c (scopedRest7_split c) (acc7 V c) t.val (Nat.le_of_lt t.isLt)) $$ HΦ
  unfold heldAt
  icases HΦ with ⟨%xs, %hxs, HS, HR, Hg⟩
  have hacc : acc7 V c t.val t.isLt
      = k1_pay2 (grid7.coords t) (dblk7 V c t) (gblk7 V c t) (if isFirst (grid7.coords t) then k1_pay1 else xs) := by
    by_cases hF : t.val % 200 = 0
    · exact (acc7_first V c t hF).trans (congrArg _ (if_pos ((isFirst_iff t).mpr hF)).symm)
    · exact (acc7_next V c t hF).trans (congrArg _ ((hxs fun e => hF (by rw [e])).symm.trans
        (if_neg fun h => hF ((isFirst_iff t).mp h)).symm))
  rw [hacc]
  iapply (sound_scatter c Set.univ (grid7.coords t) _ _ _ _ _ _ _ _ _ _ (dblk7 V c t) (gblk7 V c t) (bblk7 V c t) _ xs _)
  iframe HD HG HB HO HS
  iintro ⟨HD, HG, HB, HO, HS⟩
  iframe HS HR Hg Ho HD HG HB
  iapply (leaves7_3 V c t dO _ hacc.symm)
  iexact HO

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = Pipeline.ΦA spec7 c from rfl]

theorem hout7 (c : Dev nD) : (dat7 V c).Φ (Fin.last cfg7.N) ⊢ Pipeline.ΦA spec7 c :=
  PhiOf_close spec7 cc7_scratch0 c (scopedRest7_split c) (acc7 V c) cfg7.N (Nat.le_refl _)

end Cert.KernelIdeal.Hand

end
-- ==== Proof.KI.F8.lean ====
import proofs.«422636_j31413390803462_1_alg».proof.Proof.Gen.KernelIdeal.Launch
import proofs.«422636_j31413390803462_1_alg».proof.Proof.Gen.KernelIdeal.Skeleton
import proofs.«422636_j31413390803462_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev xblk8 (c : Dev nD) (t : Fin cfg8.N) : Vec F S5000x128 .f32 := iblk8 V c 0 t
abbrev wblk8 (c : Dev nD) (t : Fin cfg8.N) : Vec F S128x40 .f32 := iblk8 V c 1 t
abbrev bblk8 (c : Dev nD) (t : Fin cfg8.N) : Vec F S1x40 .f32 := iblk8 V c 2 t

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k8_pay1 (xblk8 V c t) (wblk8 V c t) (bblk8 V c t)
    | ⟨4, _⟩ => k8_pay2 (xblk8 V c t) (wblk8 V c t) (bblk8 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) : (dat8 V c).after 3 t = k8_pay1 (xblk8 V c t) (wblk8 V c t) (bblk8 V c t) := by dsimp only [dat8]
theorem after8_4 (c : Dev nD) (t : Fin cfg8.N) : (dat8 V c).after 4 t = k8_pay2 (xblk8 V c t) (wblk8 V c t) (bblk8 V c t) := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

theorem zoff8 : (![0, 0] : Fin 2 → Nat) = fun _ => 0 := funext fun a => by
  match a with
  | ⟨0, _⟩ => rfl
  | ⟨1, _⟩ => rfl

theorem cover8 (p : Vec F S5000x40 .f32) (y : S5000x40.Idx) :
    ∃ pc ∈ ([⟨Rect.unit (s := S5000x40) ![0, 0] S5000x40.size inb_S5000x40_S5000x40_0_0, p⟩] : List (View.Piece (Elt F) S5000x40 .f32)),
      y ∈ pc.1.set :=
  ⟨_, List.mem_singleton_self _, View.mem_set_unit_zero zoff8 inb_S5000x40_S5000x40_0_0 y⟩

set_option maxHeartbeats 1000000 in

theorem sound_kernel8 (c : Dev nD) (E : Set ℕ) (i : grid8.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (arg5 : Memref sig .tc .vmem S5000x40 .f32) (harg5 : arg5.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k8_pay1 x0 x1 x2) ∗ owns (c : Thread nD τ) arg5 fullShare (k8_pay2 x0 x1 x2)) -∗ K ⟨⟩))
      ⊢ wp frame (wpE (defs₀ (F := F)) Variants.none c none) E (cc8__final_kernel i arg1 harg1 arg2 harg2 arg3 harg3 arg4 harg4 arg5 harg5) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover8 _),
      View.canon_unit_zero zoff8]
    simp only [View.readAt_eq_ld, View.ld_unit_zero (S := S5000x128) zoff8, View.ld_unit_zero (S := S128x40) zoff8,
      View.ld_unit_zero (S := S1x40) zoff8]
  iexists _; isplitr
  swap; · iexact H4
  ipureintro
  rw [View.read_writes_eq_canon _ _ _ (cover8 _),
    View.canon_unit_zero zoff8]
  simp only [View.readAt_eq_ld, View.ld_unit_zero (S := S5000x128) zoff8, View.ld_unit_zero (S := S128x40) zoff8,
    View.ld_unit_zero (S := S1x40) zoff8]

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.KernelIdeal.Hand

end
-- ==== Proof.KI.RegOf.lean ====
import proofs.«422636_j31413390803462_1_alg».proof.Proof.Gen.KernelIdeal.Launch
import Idealize.ShloMosaic.Lib.Pipeline.FrameSuffix
import Idealize.ShloMosaic.Lib.Pipeline.RegionsLoop

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable {a : (p : Fin 9) → (pcfgs (F := F) p).Adm}
  (pdats : (p : Fin 9) → (c : Dev nD) → Dat τ (Elt F) Unit ℕ (UR sig nD τ) ℕ (Pipeline.pin (pcfgs (F := F)) a p) c)
  {p : Fin 9} (hl : Pipeline.LaunchFacts (nD := nD) (τ := τ) cfgs p) (Wi : Dev nD → Valuation τ sig (Elt F))
  (hbody : ∀ c, BodyObligation (pdats p c) (defs₀ (F := F)) Variants.none () Set.univ)
  (howed : ∀ c t, (pdats p c).owed t = 0) (hq : ∀ c w, (pdats p c).q w = fullShare) (hrec : ∀ c, (pdats p c).recorded 0 = Set.univ)
  (hA : ∀ c w, (pdats p c).A w = Wi c (Pipeline.arrRef (cfgs p).spec w))
  (hin : ∀ c, Pipeline.ΦA (cfgs p).spec c ⊢ (pdats p c).Φ 0)
  (hout : ∀ c, (pdats p c).Φ (Fin.last (cfgs p).N) ⊢ Pipeline.ΦA (cfgs p).spec c)

abbrev riding (c : Dev nD) : sProp 𝕄 := iprop((∃ r, prngReg c r) ∗ ∃ W, owes (c : Thread nD τ) (0 : CellTallies nD τ sig Unit) W)

/-- `Wi c` with launch `p`'s arrays replaced by their final contents. -/
abbrev leaves (p : Fin 9) (c : Dev nD) : Valuation τ sig (Elt F) :=
  Pipeline.withArrays (cfgs p).spec c (Wi c) fun w => (pdats p c).arrAt w (cfgs p).N

/-- Launch `p` as an item of the run: entered at the valuation `Wi`, left at `leaves`. -/
def regOf : Pipeline.RegionSeg (pcfgs (F := F)) a pdats () defs₀ Variants.none (fun _ => (∅ : Finset Unit)) (fun _ _ => (0 : ℕ)) p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (Wi c) ∗ riding c)
  post c := iprop(StableHlo.held (c : Thread nD τ) (Pipeline.ucRefs τ sig) (leaves pdats Wi p c) ∗ riding c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) a pdats hl.win hl.arr_whole c
      ((pdats p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro HΦ
    ihave HA := h $$ HΦ
    icases HA with ⟨Hr, Hp⟩
    isplitl [Hp]; · iexact Hp
    isplitr; · iempintro
    iexact Hr
  hexit c := by
    have hF w : leaves pdats Wi p c (Pipeline.arrRef (cfgs p).spec w) = (pdats p c).arrAt w (cfgs p).N :=
      Pipeline.withArrays_arr _ hl.win.arr_inj c _ _ w
    have hjoin := Pipeline.unscopedBufs_of_arrays (p := p) (pcfgs (F := F)) a (Ix := Unit) (Name := ℕ) (U := UR sig nD τ) (Lvl := ℕ)
      hl.win hl.arr_whole c pdats ((pdats p c).share_full (hq c))
      (fun b => Wi c b) (fun b => leaves pdats Wi p c b) ((pdats p c).arrAt · (cfgs p).N) (fun w => (hF w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.KernelIdeal.Hand

end
-- ==== Proof.KI.Chain.lean ====
import proofs.«422636_j31413390803462_1_alg».proof.Proof.KI.G0
import proofs.«422636_j31413390803462_1_alg».proof.Proof.KI.S1
import proofs.«422636_j31413390803462_1_alg».proof.Proof.KI.G2
import proofs.«422636_j31413390803462_1_alg».proof.Proof.KI.S3
import proofs.«422636_j31413390803462_1_alg».proof.Proof.KI.G4
import proofs.«422636_j31413390803462_1_alg».proof.Proof.KI.S5
import proofs.«422636_j31413390803462_1_alg».proof.Proof.KI.G6
import proofs.«422636_j31413390803462_1_alg».proof.Proof.KI.S7
import proofs.«422636_j31413390803462_1_alg».proof.Proof.KI.F8
import proofs.«422636_j31413390803462_1_alg».proof.Proof.KI.RegOf

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Wlaunch : Dev nD → Valuation τ sig (Elt F) := fun c b => m (c, b)

-- The valuations between the items of the run: `WinN` before launch N, `WoutN` after it.
abbrev Win0 : Dev nD → Valuation τ sig (Elt F) := fun c => StableHlo.after hostOps0 (Wlaunch m c)
abbrev Vin0 : (c : Dev nD) → (b : Ref sig .tc) → Buf (Elt F) ((c : Thread nD τ).loc b) := fun c b => Win0 m c b
def Wout0 (c : Dev nD) : Valuation τ sig (Elt F) :=
  Pipeline.withArrays spec0 c (Win0 m c) fun w => (dat0 (Vin0 m) c).arrAt w cfg0.N
theorem Wout0_arr (c : Dev nD) (w : Fin cfg0.W) :
    Wout0 m c (Proc.devRef .tc (Pipeline.arrRef spec0 w)) = (dat0 (Vin0 m) c).arrAt w cfg0.N :=
  Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) :=
  Pipeline.withArrays_of_ne spec0 c _ _ b hb

abbrev Win1 : Dev nD → Valuation τ sig (Elt F) := fun c => StableHlo.after hostOps1 (Wout0 m c)
abbrev Vin1 : (c : Dev nD) → (b : Ref sig .tc) → Buf (Elt F) ((c : Thread nD τ).loc b) := fun c b => Win1 m c b
def Wout1 (c : Dev nD) : Valuation τ sig (Elt F) :=
  Pipeline.withArrays spec1 c (Win1 m c) fun w => (dat1 (Vin1 m) c).arrAt w cfg1.N
theorem Wout1_arr (c : Dev nD) (w : Fin cfg1.W) :
    Wout1 m c (Proc.devRef .tc (Pipeline.arrRef spec1 w)) = (dat1 (Vin1 m) c).arrAt w cfg1.N :=
  Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) :=
  Pipeline.withArrays_of_ne spec1 c _ _ b hb

abbrev Win2 : Dev nD → Valuation τ sig (Elt F) := fun c => Wout1 m c
abbrev Vin2 : (c : Dev nD) → (b : Ref sig .tc) → Buf (Elt F) ((c : Thread nD τ).loc b) := fun c b => Win2 m c b
def Wout2 (c : Dev nD) : Valuation τ sig (Elt F) :=
  Pipeline.withArrays spec2 c (Win2 m c) fun w => (dat2 (Vin2 m) c).arrAt w cfg2.N
theorem Wout2_arr (c : Dev nD) (w : Fin cfg2.W) :
    Wout2 m c (Proc.devRef .tc (Pipeline.arrRef spec2 w)) = (dat2 (Vin2 m) c).arrAt w cfg2.N :=
  Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) :=
  Pipeline.withArrays_of_ne spec2 c _ _ b hb

abbrev Win3 : Dev nD → Valuation τ sig (Elt F) := fun c => StableHlo.after hostOps3 (Wout2 m c)
abbrev Vin3 : (c : Dev nD) → (b : Ref sig .tc) → Buf (Elt F) ((c : Thread nD τ).loc b) := fun c b => Win3 m c b
def Wout3 (c : Dev nD) : Valuation τ sig (Elt F) :=
  Pipeline.withArrays spec3 c (Win3 m c) fun w => (dat3 (Vin3 m) c).arrAt w cfg3.N
theorem Wout3_arr (c : Dev nD) (w : Fin cfg3.W) :
    Wout3 m c (Proc.devRef .tc (Pipeline.arrRef spec3 w)) = (dat3 (Vin3 m) c).arrAt w cfg3.N :=
  Pipeline.withArrays_arr spec3 launch3.win.arr_inj c _ _ w
theorem Wout3_of_ne (c : Dev nD) (b : Ref sig .tc) (hb : ∀ w, Pipeline.arrRef spec3 w ≠ b) :
    Wout3 m c (Proc.devRef .tc b) = Win3 m c (Proc.devRef .tc b) :=
  Pipeline.withArrays_of_ne spec3 c _ _ b hb

abbrev Win4 : Dev nD → Valuation τ sig (Elt F) := fun c => Wout3 m c
abbrev Vin4 : (c : Dev nD) → (b : Ref sig .tc) → Buf (Elt F) ((c : Thread nD τ).loc b) := fun c b => Win4 m c b
def Wout4 (c : Dev nD) : Valuation τ sig (Elt F) :=
  Pipeline.withArrays spec4 c (Win4 m c) fun w => (dat4 (Vin4 m) c).arrAt w cfg4.N
theorem Wout4_arr (c : Dev nD) (w : Fin cfg4.W) :
    Wout4 m c (Proc.devRef .tc (Pipeline.arrRef spec4 w)) = (dat4 (Vin4 m) c).arrAt w cfg4.N :=
  Pipeline.withArrays_arr spec4 launch4.win.arr_inj c _ _ w
theorem Wout4_of_ne (c : Dev nD) (b : Ref sig .tc) (hb : ∀ w, Pipeline.arrRef spec4 w ≠ b) :
    Wout4 m c (Proc.devRef .tc b) = Win4 m c (Proc.devRef .tc b) :=
  Pipeline.withArrays_of_ne spec4 c _ _ b hb

abbrev Win5 : Dev nD → Valuation τ sig (Elt F) := fun c => StableHlo.after hostOps5 (Wout4 m c)
abbrev Vin5 : (c : Dev nD) → (b : Ref sig .tc) → Buf (Elt F) ((c : Thread nD τ).loc b) := fun c b => Win5 m c b
def Wout5 (c : Dev nD) : Valuation τ sig (Elt F) :=
  Pipeline.withArrays spec5 c (Win5 m c) fun w => (dat5 (Vin5 m) c).arrAt w cfg5.N
theorem Wout5_arr (c : Dev nD) (w : Fin cfg5.W) :
    Wout5 m c (Proc.devRef .tc (Pipeline.arrRef spec5 w)) = (dat5 (Vin5 m) c).arrAt w cfg5.N :=
  Pipeline.withArrays_arr spec5 launch5.win.arr_inj c _ _ w
theorem Wout5_of_ne (c : Dev nD) (b : Ref sig .tc) (hb : ∀ w, Pipeline.arrRef spec5 w ≠ b) :
    Wout5 m c (Proc.devRef .tc b) = Win5 m c (Proc.devRef .tc b) :=
  Pipeline.withArrays_of_ne spec5 c _ _ b hb

abbrev Win6 : Dev nD → Valuation τ sig (Elt F) := fun c => Wout5 m c
abbrev Vin6 : (c : Dev nD) → (b : Ref sig .tc) → Buf (Elt F) ((c : Thread nD τ).loc b) := fun c b => Win6 m c b
def Wout6 (c : Dev nD) : Valuation τ sig (Elt F) :=
  Pipeline.withArrays spec6 c (Win6 m c) fun w => (dat6 (Vin6 m) c).arrAt w cfg6.N
theorem Wout6_arr (c : Dev nD) (w : Fin cfg6.W) :
    Wout6 m c (Proc.devRef .tc (Pipeline.arrRef spec6 w)) = (dat6 (Vin6 m) c).arrAt w cfg6.N :=
  Pipeline.withArrays_arr spec6 launch6.win.arr_inj c _ _ w
theorem Wout6_of_ne (c : Dev nD) (b : Ref sig .tc) (hb : ∀ w, Pipeline.arrRef spec6 w ≠ b) :
    Wout6 m c (Proc.devRef .tc b) = Win6 m c (Proc.devRef .tc b) :=
  Pipeline.withArrays_of_ne spec6 c _ _ b hb

abbrev Win7 : Dev nD → Valuation τ sig (Elt F) := fun c => StableHlo.after hostOps7 (Wout6 m c)
abbrev Vin7 : (c : Dev nD) → (b : Ref sig .tc) → Buf (Elt F) ((c : Thread nD τ).loc b) := fun c b => Win7 m c b
def Wout7 (c : Dev nD) : Valuation τ sig (Elt F) :=
  Pipeline.withArrays spec7 c (Win7 m c) fun w => (dat7 (Vin7 m) c).arrAt w cfg7.N
theorem Wout7_arr (c : Dev nD) (w : Fin cfg7.W) :
    Wout7 m c (Proc.devRef .tc (Pipeline.arrRef spec7 w)) = (dat7 (Vin7 m) c).arrAt w cfg7.N :=
  Pipeline.withArrays_arr spec7 launch7.win.arr_inj c _ _ w
theorem Wout7_of_ne (c : Dev nD) (b : Ref sig .tc) (hb : ∀ w, Pipeline.arrRef spec7 w ≠ b) :
    Wout7 m c (Proc.devRef .tc b) = Win7 m c (Proc.devRef .tc b) :=
  Pipeline.withArrays_of_ne spec7 c _ _ b hb

abbrev Win8 : Dev nD → Valuation τ sig (Elt F) := fun c => StableHlo.after hostOps8 (Wout7 m c)
abbrev Vin8 : (c : Dev nD) → (b : Ref sig .tc) → Buf (Elt F) ((c : Thread nD τ).loc b) := fun c b => Win8 m c b
def Wout8 (c : Dev nD) : Valuation τ sig (Elt F) :=
  Pipeline.withArrays spec8 c (Win8 m c) fun w => (dat8 (Vin8 m) c).arrAt w cfg8.N
theorem Wout8_arr (c : Dev nD) (w : Fin cfg8.W) :
    Wout8 m c (Proc.devRef .tc (Pipeline.arrRef spec8 w)) = (dat8 (Vin8 m) c).arrAt w cfg8.N :=
  Pipeline.withArrays_arr spec8 launch8.win.arr_inj c _ _ w
theorem Wout8_of_ne (c : Dev nD) (b : Ref sig .tc) (hb : ∀ w, Pipeline.arrRef spec8 w ≠ b) :
    Wout8 m c (Proc.devRef .tc b) = Win8 m c (Proc.devRef .tc b) :=
  Pipeline.withArrays_of_ne spec8 c _ _ b hb

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c

abbrev 𝒱₀ : Variants := Variants.none
abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (Wout8 m c) ∗ ∃ r, prngReg c r)

end Cert.KernelIdeal.Hand

end
-- ==== Proof.KI.Run.lean ====
import proofs.«422636_j31413390803462_1_alg».proof.Proof.KI.Chain
import proofs.«422636_j31413390803462_1_alg».proof.Proof.KI.RegOf
import proofs.«422636_j31413390803462_1_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def reg0 : Pipeline.RegionSeg (pcfgs (F := F)) adm (pdats m) () defs₀ 𝒱₀ L lv 0 :=
  regOf (pdats m) launch0 (Win0 m) (body_obligation0 (Vin0 m)) (fun _ _ => rfl) (fun _ _ => rfl) (fun _ => rfl) (fun _ _ => rfl)
    (hin0 (Vin0 m)) (hout0 (Vin0 m))
def reg1 : Pipeline.RegionSeg (pcfgs (F := F)) adm (pdats m) () defs₀ 𝒱₀ L lv 1 :=
  regOf (pdats m) launch1 (Win1 m) (body_obligation1 (Vin1 m)) (fun _ _ => rfl) (fun _ _ => rfl) (fun _ => rfl) (fun _ _ => rfl)
    (hin1 (Vin1 m)) (hout1 (Vin1 m))
def reg2 : Pipeline.RegionSeg (pcfgs (F := F)) adm (pdats m) () defs₀ 𝒱₀ L lv 2 :=
  regOf (pdats m) launch2 (Win2 m) (body_obligation2 (Vin2 m)) (fun _ _ => rfl) (fun _ _ => rfl) (fun _ => rfl) (fun _ _ => rfl)
    (hin2 (Vin2 m)) (hout2 (Vin2 m))
def reg3 : Pipeline.RegionSeg (pcfgs (F := F)) adm (pdats m) () defs₀ 𝒱₀ L lv 3 :=
  regOf (pdats m) launch3 (Win3 m) (body_obligation3 (Vin3 m)) (fun _ _ => rfl) (fun _ _ => rfl) (fun _ => rfl) (fun _ _ => rfl)
    (hin3 (Vin3 m)) (hout3 (Vin3 m))
def reg4 : Pipeline.RegionSeg (pcfgs (F := F)) adm (pdats m) () defs₀ 𝒱₀ L lv 4 :=
  regOf (pdats m) launch4 (Win4 m) (body_obligation4 (Vin4 m)) (fun _ _ => rfl) (fun _ _ => rfl) (fun _ => rfl) (fun _ _ => rfl)
    (hin4 (Vin4 m)) (hout4 (Vin4 m))
def reg5 : Pipeline.RegionSeg (pcfgs (F := F)) adm (pdats m) () defs₀ 𝒱₀ L lv 5 :=
  regOf (pdats m) launch5 (Win5 m) (body_obligation5 (Vin5 m)) (fun _ _ => rfl) (fun _ _ => rfl) (fun _ => rfl) (fun _ _ => rfl)
    (hin5 (Vin5 m)) (hout5 (Vin5 m))
def reg6 : Pipeline.RegionSeg (pcfgs (F := F)) adm (pdats m) () defs₀ 𝒱₀ L lv 6 :=
  regOf (pdats m) launch6 (Win6 m) (body_obligation6 (Vin6 m)) (fun _ _ => rfl) (fun _ _ => rfl) (fun _ => rfl) (fun _ _ => rfl)
    (hin6 (Vin6 m)) (hout6 (Vin6 m))
def reg7 : Pipeline.RegionSeg (pcfgs (F := F)) adm (pdats m) () defs₀ 𝒱₀ L lv 7 :=
  regOf (pdats m) launch7 (Win7 m) (body_obligation7 (Vin7 m)) (fun _ _ => rfl) (fun _ _ => rfl) (fun _ => rfl) (fun _ _ => rfl)
    (hin7 (Vin7 m)) (hout7 (Vin7 m))
def reg8 : Pipeline.RegionSeg (pcfgs (F := F)) adm (pdats m) () defs₀ 𝒱₀ L lv 8 :=
  regOf (pdats m) launch8 (Win8 m) (body_obligation8 (Vin8 m)) (fun _ _ => rfl) (fun _ _ => rfl) (fun _ => rfl) (fun _ _ => rfl)
    (hin8 (Vin8 m)) (hout8 (Vin8 m))

abbrev segs : List (Pipeline.Seg (pcfgs (F := F)) adm (pdats m) () defs₀ 𝒱₀ L lv) :=
  [ .host (hseg hostOps0 hostOps0_sub hostOps0_fresh (Wlaunch m)),
    .region (reg0 m),
    .host (hseg hostOps1 hostOps1_sub hostOps1_fresh (Wout0 m)),
    .region (reg1 m),
    .region (reg2 m),
    .host (hseg hostOps3 hostOps3_sub hostOps3_fresh (Wout2 m)),
    .region (reg3 m),
    .region (reg4 m),
    .host (hseg hostOps5 hostOps5_sub hostOps5_fresh (Wout4 m)),
    .region (reg5 m),
    .region (reg6 m),
    .host (hseg hostOps7 hostOps7_sub hostOps7_fresh (Wout6 m)),
    .region (reg7 m),
    .host (hseg hostOps8 hostOps8_sub hostOps8_fresh (Wout7 m)),
    .region (reg8 m) ]

/-- Every fair run from memory `m` ends, and ends with each unscoped buffer at `Wout8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wout8 m c b) :=
  Pipeline.θ_run_regions_kit (pcfgs (F := F)) adm (pdats m) () cellOf_inj emb₁ defs₀ 𝒱₀ L lv m ρ main (segs m)
    (fun c Q => by
      rewrite [main_chain c, Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m c) ∗ riding c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wout8 m c b)
    (hfin := fun c s' => by
      iintro ⟨⟨Hh, -⟩, HSI⟩
      unfold StableHlo.held
      imodintro
      iapply (pointsTo_read_all (Pipeline.ucRefs τ sig) (fun b => (((c : Thread nD τ)).1, b)) (Wout8 m c) s')
      isplitl [Hh] <;> iassumption)
    (hQ := fun s h c => h c)

end Cert.KernelIdeal.Hand

end
-- ==== Proof.KI.Keep.lean ====
import proofs.«422636_j31413390803462_1_alg».proof.Proof.KI.Chain
import proofs.«422636_j31413390803462_1_alg».proof.Proof.Gen.KernelIdeal.Regions

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- A launch changes only its output arrays: an input array ends as it began, and a buffer that is no array of the launch is not touched. -/
theorem keepOf {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Pipeline.arrRef cfg.spec w)) (outs : List (Ref sig .tc))
    (hout : ∀ w, (cfg.win w).isOut = true → Pipeline.arrRef cfg.spec w ∈ outs) (r : Ref sig .tc) (h : r ∉ outs) :
    Pipeline.withArrays cfg.spec c W (fun w => dat.arrAt w cfg.N) r = W r := by
  by_cases hr : ∃ w, Pipeline.arrRef cfg.spec w = r
  · obtain ⟨w, rfl⟩ := hr
    exact (Pipeline.withArrays_arr _ hinj c _ _ w).trans
      ((dat.arrAt_in w (Bool.eq_false_iff.mpr fun ht => h (hout w ht)) cfg.N).trans (hA w))
  · exact Pipeline.withArrays_of_ne _ c _ _ r fun w e => hr ⟨w, e⟩

def bnd : ℕ → Dev nD → Valuation τ sig (Elt F)
  | 0 => Wlaunch m
  | 1 => Win0 m
  | 2 => Wout0 m
  | 3 => Win1 m
  | 4 => Wout1 m
  | 5 => Wout2 m
  | 6 => Win3 m
  | 7 => Wout3 m
  | 8 => Wout4 m
  | 9 => Win5 m
  | 10 => Wout5 m
  | 11 => Wout6 m
  | 12 => Win7 m
  | 13 => Wout7 m
  | 14 => Win8 m
  | _ => Wout8 m

def wr : ℕ → List (Ref sig .tc)
  | 1 => hostOps0_W
  | 2 => [main_v6]
  | 3 => hostOps1_W
  | 4 => [main_v8]
  | 5 => [main_v9]
  | 6 => hostOps3_W
  | 7 => [main_v11]
  | 8 => [main_v12]
  | 9 => hostOps5_W
  | 10 => [main_v14]
  | 11 => [main_v15]
  | 12 => hostOps7_W
  | 13 => [main_v17]
  | 14 => hostOps8_W
  | 15 => [main_v19_0, main_v19_1]
  | _ => []

theorem bnd_step (i : ℕ) (hi : i < 15) (c : Dev nD) (r : Ref sig .tc) (h : r ∉ wr (i + 1)) :
    bnd m (i + 1) c r = bnd m i c r := by
  match i, hi, h with
  | 0, _, h => exact StableHlo.after_of_writes_sub hostOps0 _ hostOps0_writes h
  | 1, _, h => exact keepOf (dat0 (Vin0 m) c) launch0.win.arr_inj _ (A_eq0 (Vin0 m) c) _ (by decide) r h
  | 2, _, h => exact StableHlo.after_of_writes_sub hostOps1 _ hostOps1_writes h
  | 3, _, h => exact keepOf (dat1 (Vin1 m) c) launch1.win.arr_inj _ (A_eq1 (Vin1 m) c) _ (by decide) r h
  | 4, _, h => exact keepOf (dat2 (Vin2 m) c) launch2.win.arr_inj _ (A_eq2 (Vin2 m) c) _ (by decide) r h
  | 5, _, h => exact StableHlo.after_of_writes_sub hostOps3 _ hostOps3_writes h
  | 6, _, h => exact keepOf (dat3 (Vin3 m) c) launch3.win.arr_inj _ (A_eq3 (Vin3 m) c) _ (by decide) r h
  | 7, _, h => exact keepOf (dat4 (Vin4 m) c) launch4.win.arr_inj _ (A_eq4 (Vin4 m) c) _ (by decide) r h
  | 8, _, h => exact StableHlo.after_of_writes_sub hostOps5 _ hostOps5_writes h
  | 9, _, h => exact keepOf (dat5 (Vin5 m) c) launch5.win.arr_inj _ (A_eq5 (Vin5 m) c) _ (by decide) r h
  | 10, _, h => exact keepOf (dat6 (Vin6 m) c) launch6.win.arr_inj _ (A_eq6 (Vin6 m) c) _ (by decide) r h
  | 11, _, h => exact StableHlo.after_of_writes_sub hostOps7 _ hostOps7_writes h
  | 12, _, h => exact keepOf (dat7 (Vin7 m) c) launch7.win.arr_inj _ (A_eq7 (Vin7 m) c) _ (by decide) r h
  | 13, _, h => exact StableHlo.after_of_writes_sub hostOps8 _ hostOps8_writes h
  | 14, _, h => exact keepOf (dat8 (Vin8 m) c) launch8.win.arr_inj _ (A_eq8 (Vin8 m) c) _ (by decide) r h
  | n + 15, hi, _ => exact absurd hi (by omega)

def wrFrom (i : ℕ) : ℕ → List (Ref sig .tc)
  | 0 => []
  | n + 1 => wr (i + n + 1) ++ wrFrom i n

theorem bnd_kept (i : ℕ) : ∀ n : ℕ, i + n ≤ 15 → ∀ (c : Dev nD) (r : Ref sig .tc), r ∉ wrFrom i n →
    bnd m (i + n) c r = bnd m i c r
  | 0, _, _, _, _ => rfl
  | n + 1, hn, c, r, h =>
    (bnd_step m (i + n) (by omega) c r fun hm => h (List.mem_append_left _ hm)).trans
      (bnd_kept i n (by omega) c r fun hm => h (List.mem_append_right _ hm))

theorem arg_kept0 (c : Dev nD) : Wout8 m c main_arg0 = m ((c : Thread nD τ).loc main_arg0) :=
  bnd_kept m 0 15 (by decide) c main_arg0 (by decide)
theorem arg_kept1 (c : Dev nD) : Wout8 m c main_arg1 = m ((c : Thread nD τ).loc main_arg1) :=
  bnd_kept m 0 15 (by decide) c main_arg1 (by decide)
theorem arg_kept2 (c : Dev nD) : Wout8 m c main_arg2 = m ((c : Thread nD τ).loc main_arg2) :=
  bnd_kept m 0 15 (by decide) c main_arg2 (by decide)
theorem arg_kept3 (c : Dev nD) : Wout8 m c main_arg3 = m ((c : Thread nD τ).loc main_arg3) :=
  bnd_kept m 0 15 (by decide) c main_arg3 (by decide)
theorem arg_kept4 (c : Dev nD) : Wout8 m c main_arg4 = m ((c : Thread nD τ).loc main_arg4) :=
  bnd_kept m 0 15 (by decide) c main_arg4 (by decide)
theorem arg_kept5 (c : Dev nD) : Wout8 m c main_arg5 = m ((c : Thread nD τ).loc main_arg5) :=
  bnd_kept m 0 15 (by decide) c main_arg5 (by decide)
theorem arg_kept6 (c : Dev nD) : Wout8 m c main_arg6 = m ((c : Thread nD τ).loc main_arg6) :=
  bnd_kept m 0 15 (by decide) c main_arg6 (by decide)
theorem arg_kept7 (c : Dev nD) : Wout8 m c main_arg7 = m ((c : Thread nD τ).loc main_arg7) :=
  bnd_kept m 0 15 (by decide) c main_arg7 (by decide)
theorem arg_kept8 (c : Dev nD) : Wout8 m c main_arg8 = m ((c : Thread nD τ).loc main_arg8) :=
  bnd_kept m 0 15 (by decide) c main_arg8 (by decide)
theorem arg_kept9 (c : Dev nD) : Wout8 m c main_arg9 = m ((c : Thread nD τ).loc main_arg9) :=
  bnd_kept m 0 15 (by decide) c main_arg9 (by decide)
theorem arg_kept10 (c : Dev nD) : Wout8 m c main_arg10 = m ((c : Thread nD τ).loc main_arg10) :=
  bnd_kept m 0 15 (by decide) c main_arg10 (by decide)
theorem arg_kept11 (c : Dev nD) : Wout8 m c main_arg11 = m ((c : Thread nD τ).loc main_arg11) :=
  bnd_kept m 0 15 (by decide) c main_arg11 (by decide)

theorem keptAt0_arg0 (c : Dev nD) : Win0 m c main_arg0 = m ((c : Thread nD τ).loc main_arg0) :=
  bnd_kept m 0 1 (by decide) c _ (by decide)

theorem keptAt0_arg2 (c : Dev nD) : Win0 m c main_arg2 = m ((c : Thread nD τ).loc main_arg2) :=
  bnd_kept m 0 1 (by decide) c _ (by decide)

theorem hostIn1_arg3 (c : Dev nD) : Wout0 m c main_arg3 = m ((c : Thread nD τ).loc main_arg3) :=
  bnd_kept m 0 2 (by decide) c _ (by decide)

theorem keptAt1_v5 (c : Dev nD) : Win1 m c main_v5 = Win0 m c main_v5 :=
  bnd_kept m 1 2 (by decide) c _ (by decide)

theorem keptAt1_v6 (c : Dev nD) : Win1 m c main_v6 = Wout0 m c main_v6 :=
  bnd_kept m 2 1 (by decide) c _ (by decide)

theorem keptAt2_arg4 (c : Dev nD) : Win2 m c main_arg4 = m ((c : Thread nD τ).loc main_arg4) :=
  bnd_kept m 0 4 (by decide) c _ (by decide)

theorem keptAt2_v2 (c : Dev nD) : Win2 m c main_v2 = Win0 m c main_v2 :=
  bnd_kept m 1 3 (by decide) c _ (by decide)

theorem hostIn3_arg5 (c : Dev nD) : Wout2 m c main_arg5 = m ((c : Thread nD τ).loc main_arg5) :=
  bnd_kept m 0 5 (by decide) c _ (by decide)

theorem keptAt3_v5 (c : Dev nD) : Win3 m c main_v5 = Win0 m c main_v5 :=
  bnd_kept m 1 5 (by decide) c _ (by decide)

theorem keptAt3_v9 (c : Dev nD) : Win3 m c main_v9 = Wout2 m c main_v9 :=
  bnd_kept m 5 1 (by decide) c _ (by decide)

theorem keptAt4_arg6 (c : Dev nD) : Win4 m c main_arg6 = m ((c : Thread nD τ).loc main_arg6) :=
  bnd_kept m 0 7 (by decide) c _ (by decide)

theorem keptAt4_v2 (c : Dev nD) : Win4 m c main_v2 = Win0 m c main_v2 :=
  bnd_kept m 1 6 (by decide) c _ (by decide)

theorem hostIn5_arg7 (c : Dev nD) : Wout4 m c main_arg7 = m ((c : Thread nD τ).loc main_arg7) :=
  bnd_kept m 0 8 (by decide) c _ (by decide)

theorem keptAt5_v5 (c : Dev nD) : Win5 m c main_v5 = Win0 m c main_v5 :=
  bnd_kept m 1 8 (by decide) c _ (by decide)

theorem keptAt5_v12 (c : Dev nD) : Win5 m c main_v12 = Wout4 m c main_v12 :=
  bnd_kept m 8 1 (by decide) c _ (by decide)

theorem keptAt6_arg8 (c : Dev nD) : Win6 m c main_arg8 = m ((c : Thread nD τ).loc main_arg8) :=
  bnd_kept m 0 10 (by decide) c _ (by decide)

theorem keptAt6_v2 (c : Dev nD) : Win6 m c main_v2 = Win0 m c main_v2 :=
  bnd_kept m 1 9 (by decide) c _ (by decide)

theorem hostIn7_arg9 (c : Dev nD) : Wout6 m c main_arg9 = m ((c : Thread nD τ).loc main_arg9) :=
  bnd_kept m 0 11 (by decide) c _ (by decide)

theorem keptAt7_v5 (c : Dev nD) : Win7 m c main_v5 = Win0 m c main_v5 :=
  bnd_kept m 1 11 (by decide) c _ (by decide)

theorem keptAt7_v15 (c : Dev nD) : Win7 m c main_v15 = Wout6 m c main_v15 :=
  bnd_kept m 11 1 (by decide) c _ (by decide)

theorem hostIn8_arg11 (c : Dev nD) : Wout7 m c main_arg11 = m ((c : Thread nD τ).loc main_arg11) :=
  bnd_kept m 0 13 (by decide) c _ (by decide)

theorem keptAt8_v17 (c : Dev nD) : Win8 m c main_v17 = Wout7 m c main_v17 :=
  bnd_kept m 13 1 (by decide) c _ (by decide)

theorem keptAt8_arg10 (c : Dev nD) : Win8 m c main_arg10 = m ((c : Thread nD τ).loc main_arg10) :=
  bnd_kept m 0 14 (by decide) c _ (by decide)

theorem keptEnd_v17 (c : Dev nD) : Wout8 m c main_v17 = Wout7 m c main_v17 :=
  bnd_kept m 13 2 (by decide) c _ (by decide)

theorem keptAt2_v8 (c : Dev nD) : Win2 m c main_v8 = Wout1 m c main_v8 := rfl

theorem keptAt4_v11 (c : Dev nD) : Win4 m c main_v11 = Wout3 m c main_v11 := rfl

theorem keptAt6_v14 (c : Dev nD) : Win6 m c main_v14 = Wout5 m c main_v14 := rfl

end Cert.KernelIdeal.Hand

end
-- ==== Proof.KI.Frame.lean ====
import proofs.«422636_j31413390803462_1_alg».proof.Proof.KI.Run
import proofs.«422636_j31413390803462_1_alg».proof.Proof.KI.Keep

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (arg_kept0 m c),
     (h c _ (mem_uc main_arg1 (by decide))).trans (arg_kept1 m c),
     (h c _ (mem_uc main_arg2 (by decide))).trans (arg_kept2 m c),
     (h c _ (mem_uc main_arg3 (by decide))).trans (arg_kept3 m c),
     (h c _ (mem_uc main_arg4 (by decide))).trans (arg_kept4 m c),
     (h c _ (mem_uc main_arg5 (by decide))).trans (arg_kept5 m c),
     (h c _ (mem_uc main_arg6 (by decide))).trans (arg_kept6 m c),
     (h c _ (mem_uc main_arg7 (by decide))).trans (arg_kept7 m c),
     (h c _ (mem_uc main_arg8 (by decide))).trans (arg_kept8 m c),
     (h c _ (mem_uc main_arg9 (by decide))).trans (arg_kept9 m c),
     (h c _ (mem_uc main_arg10 (by decide))).trans (arg_kept10 m c),
     (h c _ (mem_uc main_arg11 (by decide))).trans (arg_kept11 m c)⟩)
    (run_all m ρ)

end Cert.KernelIdeal.Hand

end
-- ==== Proof.KI.GatherValue.lean ====
import proofs.«422636_j31413390803462_1_alg».proof.Proof.Gen.KernelIdeal.Skeleton
import proofs.«422636_j31413390803462_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- A product contracting one axis of extent n, into zero, is the sum over that axis of the entries it reads. -/
theorem gvDot {sl sr so : Shape} {φ₁ φ₂ : FTy} (D : DotDims sl sr so) (n : ℕ) (hr : D.contr.rank = 1)
    (hs : D.contr.size ⟨0, by omega⟩ = n) (x : FVec Ideal sl φ₁) (y : FVec Ideal sr φ₂) (j : so.Idx)
    (L : Fin n → sl.Idx) (R : Fin n → sr.Idx)
    (hl : ∀ (k : D.contr.Idx) (i : Fin n), (k ⟨0, by omega⟩).val = i.val → D.lhsIdx j k = L i)
    (hR : ∀ (k : D.contr.Idx) (i : Fin n), (k ⟨0, by omega⟩).val = i.val → D.rhsIdx j k = R i) :
    matmul D none x y (constant (F := Ideal) so .f32 0#32) j = ∑ i : Fin n, x (L i) * y (R i) := by
  refine (Ideal.matmul_constant_zero_apply D none x y j).trans ?_
  rw [← Equiv.sum_comp (contrEquiv1 D n hr hs).symm]
  refine Finset.sum_congr rfl fun i _ => ?_
  have hk := contrEquiv1_symm_val D n hr hs i
  rw [hl _ i hk, hR _ i hk]

/-- Rows times the weight: entry (r, q) is the sum over k of entry (r, k) times entry (k, q). -/
theorem gvProd (x : FVec Ideal S2000x128 .bf16) (w : FVec Ideal S128x128 .bf16) (r : Fin 2000) (q : Fin 128) :
    matmul dot_S2000x128_S128x128_S2000x128_1_0_0_1_n_n none x w (constant (F := Ideal) S2000x128 .f32 0#32) (ix2 r q) = ∑ k : Fin 128, x (ix2 r k) * w (ix2 k q) :=
  gvDot dot_S2000x128_S128x128_S2000x128_1_0_0_1_n_n 128 rfl rfl x w (ix2 r q) (fun k => ix2 r k) (fun k => ix2 k q)
    (fun k _ hk => funext fun a => Fin.ext (by
      match a with
      | ⟨0, _⟩ => rfl
      | ⟨1, _⟩ => exact hk))
    (fun k _ hk => funext fun a => Fin.ext (by
      match a with
      | ⟨0, _⟩ => exact hk
      | ⟨1, _⟩ => rfl))

/-- The second product contracts the first axes: entry (p, q) is the sum over r of entry (r, p) times entry (r, q). -/
theorem gvHotProd (h : FVec Ideal S2000x3200 .bf16) (y : FVec Ideal S2000x128 .bf16) (p : Fin 3200) (q : Fin 128) :
    matmul dot_S2000x3200_S2000x128_S3200x128_0_0_1_1_n_n none h y (constant (F := Ideal) S3200x128 .f32 0#32) (ix2 p q) = ∑ r : Fin 2000, h (ix2 r p) * y (ix2 r q) :=
  gvDot dot_S2000x3200_S2000x128_S3200x128_0_0_1_1_n_n 2000 rfl rfl h y (ix2 p q) (fun r => ix2 r p) (fun r => ix2 r q)
    (fun k _ hk => funext fun a => Fin.ext (by
      match a with
      | ⟨0, _⟩ => exact hk
      | ⟨1, _⟩ => rfl))
    (fun k _ hk => funext fun a => Fin.ext (by
      match a with
      | ⟨0, _⟩ => exact hk
      | ⟨1, _⟩ => rfl))

/-- The word an edge's source word is compared with, for row r of node tile nt. -/
def gvWord (nt r : Nat) : BitVec 32 := BitVec.ofNat 32 r + BitVec.ofNat 32 nt * 2000#32

theorem gvBit (x y : BitVec 32) : ((((IntOp.cmpi .eq x y).setWidth 32).toInt : ℝ) : EReal) = if x = y then 1 else 0 := by
  by_cases h : x = y
  · subst h
    simp [IntOp.cmpi]
  · have hb : (x == y) = false := beq_false_of_ne h
    simp [IntOp.cmpi, hb, h]

/-- The one-hot matrix: one where row r's word is the source word of edge p, zero elsewhere. -/
theorem gvHot (nt : ℕ) (s : Vec Ideal S1x3200 .i32) (r : Fin 2000) (p : Fin 3200)
    (hi : S2000x1.Iotas .tc 32 [0]) (hb : S2000x1.Broadcasts S2000x3200) (hc : S1x3200.Broadcasts S2000x3200)
    (hw : 1 < 32) (hf : FTy.bits .bf16 < FTy.bits .f32) :
    (truncf .bf16 (sitofp (F := Ideal) .f32 (extui 32 (cmpi .eq
        (broadcastTo S2000x3200 (addi (iota .tc S2000x1 32 [0] hi)
          (broadcast S2000x1 (Scalar.muli (BitVec.ofNat 32 nt) 2000#32))) hb)
        (broadcastTo S2000x3200 s hc)) hw)) hf : FVec Ideal S2000x3200 .bf16) (ix2 r p)
      = if gvWord nt r.val = s (ix2 0 p) then 1 else 0 := by
  have ea : broadcastTo S2000x3200 (addi (iota .tc S2000x1 32 [0] hi)
          (broadcast S2000x1 (Scalar.muli (BitVec.ofNat 32 nt) 2000#32))) hb (ix2 r p) = gvWord nt r.val := by
    refine (broadcastTo_apply _ hb (ix2 r p) (ix2 r 0) (fun a => by
      match a with
      | ⟨0, _⟩ => rfl
      | ⟨1, _⟩ => rfl)).trans ?_
    show IntOp.addi (iota .tc S2000x1 32 [0] hi (ix2 r 0)) _ = _
    rw [iota_single_apply]
    rfl
  have eb : broadcastTo S2000x3200 s hc (ix2 r p) = s (ix2 0 p) :=
    broadcastTo_apply _ hc (ix2 r p) (ix2 0 p) (fun a => by
      match a with
      | ⟨0, _⟩ => rfl
      | ⟨1, _⟩ => rfl)
  show ((((IntOp.cmpi .eq (broadcastTo S2000x3200 (addi (iota .tc S2000x1 32 [0] hi)
          (broadcast S2000x1 (Scalar.muli (BitVec.ofNat 32 nt) 2000#32))) hb (ix2 r p))
        (broadcastTo S2000x3200 s hc (ix2 r p))).setWidth 32).toInt : ℝ) : EReal) = _
  rw [ea, eb]
  exact gvBit _ _

/-- A point adds, at entry (p, q), the sum over the tile's rows r of the one-hot entry (r, p) times entry (r, q) of rows · weight. -/
theorem gvPay (i : grid2.Coords) (s : Vec Ideal S1x3200 .i32) (x : Vec Ideal S2000x128 .f32) (w : Vec Ideal S128x128 .f32)
    (a : Vec Ideal S3200x128 .f32) (p : Fin 3200) (q : Fin 128) :
    k2_pay2 i s x w a (ix2 p q)
      = a (ix2 p q) + ∑ r : Fin 2000, (if gvWord (i 1).val r.val = s (ix2 0 p) then 1 else 0) * ∑ k : Fin 128, x (ix2 r k) * w (ix2 k q) := by
  unfold k2_pay2
  simp only [shapeCast_self]
  refine (congrArg (fun z => a (ix2 p q) + z) (gvHotProd _ _ p q)).trans ?_
  refine congrArg (fun z => a (ix2 p q) + z) (Finset.sum_congr rfl fun r _ => ?_)
  exact congrArg₂ (· * ·) (gvHot (i 1).val s r p _ _ _ _ _) (gvProd _ _ r q)

/-- The first launch's step differs by one recast of a matrix to its own shape. -/
theorem gvPay0 (i : grid2.Coords) (s : Vec Ideal S1x3200 .i32) (x : Vec Ideal S2000x128 .f32) (w : Vec Ideal S128x128 .f32)
    (a : Vec Ideal S3200x128 .f32) : k0_pay2 i s x w a = k2_pay2 i s x w a := by
  unfold k0_pay2 k2_pay2
  simp only [shapeCast_self]

theorem gvZero (j : S3200x128.Idx) : k2_pay1 (F := Ideal) j = 0 := by
  unfold k2_pay1
  simp only [shapeCast_self]
  exact Ideal.ofBits_zero_f32

theorem gvWord_eq (nt r : Nat) : gvWord nt r = BitVec.ofNat 32 (nt * 2000 + r) := by
  unfold gvWord
  rw [show (2000#32 : BitVec 32) = BitVec.ofNat 32 2000 from rfl, ← BitVec.ofNat_mul, ← BitVec.ofNat_add, Nat.add_comm]

/-- A number below 50000 is below 2^31, so its word is the one word that, read signed, is that number. -/
theorem gvNamed (n : Nat) (hn : n < 50000) (w : BitVec 32) : BitVec.ofNat 32 n = w ↔ w.toInt = (n : Int) := by
  constructor
  · rintro rfl
    rw [BitVec.toInt_eq_toNat_of_lt (by rw [BitVec.toNat_ofNat]; omega), BitVec.toNat_ofNat]
    omega
  · intro h
    apply BitVec.eq_of_toInt_eq
    rw [h, BitVec.toInt_eq_toNat_of_lt (by rw [BitVec.toNat_ofNat]; omega), BitVec.toNat_ofNat]
    omega

/-- What the number n contributes to edge e's row: row n of h where e's source word names n. -/
def gvPart (h : Fin 50000 → Fin 128 → EReal) (src : Cert.Spec.IRow 640000) (e : Fin 640000) (d : Fin 128) (n : Nat) : EReal :=
  if hn : n < 50000 then (if Cert.Spec.names (src (ix2 0 e)) n then h ⟨n, hn⟩ d else 0) else 0

theorem gvCarried (h : Fin 50000 → Fin 128 → EReal) (src : Cert.Spec.IRow 640000) (e : Fin 640000) (d : Fin 128) :
    Cert.Spec.carried h src e d = ∑ n ∈ Finset.range 50000, gvPart h src e d n := by
  unfold Cert.Spec.carried
  rw [← Fin.sum_univ_eq_sum_range (fun n => gvPart h src e d n) 50000]
  refine Finset.sum_congr rfl fun n _ => ?_
  unfold gvPart
  rw [dif_pos n.isLt]

/-- Point t is node tile t mod 25 of edge block t div 25, read off the four index maps. -/
theorem gvIdx : ∀ t : Fin grid2.N,
    cc2_transform_0 (grid2.coords t) 0 = t.val % 25 ∧ cc2_transform_0 (grid2.coords t) 1 = 0
    ∧ cc2_transform_1 (grid2.coords t) 0 = 0 ∧ cc2_transform_1 (grid2.coords t) 1 = 0
    ∧ cc2_transform_2 (grid2.coords t) 0 = 0 ∧ cc2_transform_2 (grid2.coords t) 1 = t.val / 25
    ∧ cc2_transform_3 (grid2.coords t) 0 = t.val / 25 ∧ cc2_transform_3 (grid2.coords t) 1 = 0
    ∧ (grid2.coords t 1).val = t.val % 25 := by decide +kernel

/-- Every output row r lies in the edge block r div 3200, whose last node tile is point (r div 3200) · 25 + 24. -/
theorem gvCover (r : ℕ) (hr : r < 640000) :
    ∃ t : Fin grid2.N, t.val % 25 = 24 ∧ t.val / 25 * 3200 ≤ r ∧ r < t.val / 25 * 3200 + 3200 :=
  ⟨⟨r / 3200 * 25 + 24, by rw [show grid2.N = 5000 by decide]; omega⟩,
    by show (r / 3200 * 25 + 24) % 25 = 24; omega,
    by show (r / 3200 * 25 + 24) / 25 * 3200 ≤ r; omega,
    by show r < (r / 3200 * 25 + 24) / 25 * 3200 + 3200; omega⟩

section Blocks

variable (X : Cert.Spec.Mat 50000 128) (W : Cert.Spec.Mat 128 128) (S : Cert.Spec.IRow 640000)

/-- The blocks of point t: 2000 rows of X from row (t mod 25) · 2000, all of W, 3200 source words from edge (t div 25) · 3200. -/
structure gvReads (t : ℕ) (xb : Vec Ideal S2000x128 .f32) (wb : Vec Ideal S128x128 .f32) (sb : Vec Ideal S1x3200 .i32) : Prop where
  x : ∀ (r : Fin 2000) (k : Fin 128) (hr : t % 25 * 2000 + r.val < 50000), xb (ix2 r k) = X (ix2 ⟨t % 25 * 2000 + r.val, hr⟩ k)
  w : ∀ k q : Fin 128, wb (ix2 k q) = W (ix2 k q)
  s : ∀ (p : Fin 3200) (hp : t / 25 * 3200 + p.val < 640000), sb (ix2 0 p) = S (ix2 0 ⟨t / 25 * 3200 + p.val, hp⟩)

variable {X W S}

/-- A point's one-hot product, at an entry, is its node tile's part of the carried sum. -/
theorem gvTile {t : ℕ} {xb : Vec Ideal S2000x128 .f32} {wb : Vec Ideal S128x128 .f32} {sb : Vec Ideal S1x3200 .i32}
    (h : gvReads X W S t xb wb sb) (p : Fin 3200) (q : Fin 128) (he : t / 25 * 3200 + p.val < 640000) :
    (∑ r : Fin 2000, (if gvWord (t % 25) r.val = sb (ix2 0 p) then (1 : EReal) else 0) * ∑ k : Fin 128, xb (ix2 r k) * wb (ix2 k q))
      = ∑ r ∈ Finset.range 2000, gvPart (Cert.Spec.lin X W) S ⟨t / 25 * 3200 + p.val, he⟩ q (t % 25 * 2000 + r) := by
  rw [← Fin.sum_univ_eq_sum_range (fun r => gvPart (Cert.Spec.lin X W) S ⟨t / 25 * 3200 + p.val, he⟩ q (t % 25 * 2000 + r)) 2000]
  refine Finset.sum_congr rfl fun r _ => ?_
  have hr : t % 25 * 2000 + r.val < 50000 := by have := r.isLt; omega
  unfold gvPart
  rw [dif_pos hr, gvWord_eq, h.s p he, ite_mul, one_mul, zero_mul]
  refine if_congr (gvNamed _ hr _) ?_ rfl
  unfold Cert.Spec.lin
  exact Finset.sum_congr rfl fun k _ => by rw [h.x r k hr, h.w k q]

/-- A point adds its tile's part: from the sum over the tiles before to the sum over one tile more. -/
theorem gvGrow {t : ℕ} {xb : Vec Ideal S2000x128 .f32} {wb : Vec Ideal S128x128 .f32} {sb : Vec Ideal S1x3200 .i32}
    (h : gvReads X W S t xb wb sb) (i : grid2.Coords) (hi : (i 1).val = t % 25) (a : Vec Ideal S3200x128 .f32)
    (p : Fin 3200) (q : Fin 128) (he : t / 25 * 3200 + p.val < 640000)
    (ha : a (ix2 p q) = ∑ m ∈ Finset.range (t % 25 * 2000), gvPart (Cert.Spec.lin X W) S ⟨t / 25 * 3200 + p.val, he⟩ q m) :
    k2_pay2 i sb xb wb a (ix2 p q)
      = ∑ m ∈ Finset.range ((t % 25 + 1) * 2000), gvPart (Cert.Spec.lin X W) S ⟨t / 25 * 3200 + p.val, he⟩ q m := by
  rw [gvPay, hi, gvTile h p q he, ha, Nat.add_mul, Nat.one_mul, Finset.sum_range_add]

variable {xb : Fin grid2.N → Vec Ideal S2000x128 .f32} {wb : Fin grid2.N → Vec Ideal S128x128 .f32}
  {sb : Fin grid2.N → Vec Ideal S1x3200 .i32} (hrd : ∀ t : Fin grid2.N, gvReads X W S t.val (xb t) (wb t) (sb t))
  {acc : (n : ℕ) → n < grid2.N → Vec Ideal S3200x128 .f32}
  (h0 : ∀ t : Fin grid2.N, t.val % 25 = 0 →
    acc t.val t.isLt = k2_pay2 (grid2.coords t) (sb t) (xb t) (wb t) (k2_pay1 (F := Ideal)))
  (h1 : ∀ t : Fin grid2.N, ¬ t.val % 25 = 0 →
    acc t.val t.isLt = k2_pay2 (grid2.coords t) (sb t) (xb t) (wb t) (acc (t.val - 1) (Nat.lt_of_le_of_lt (Nat.sub_le _ _) t.isLt)))
include hrd h0 h1

/-- Starting from zero at an edge block's first tile and stepping from the point before elsewhere, the accumulator after point n is the sum over the nodes of the tiles so far. -/
theorem gvAcc (p : Fin 3200) (q : Fin 128) :
    ∀ (n : ℕ) (hn : n < grid2.N) (he : n / 25 * 3200 + p.val < 640000),
      acc n hn (ix2 p q) = ∑ m ∈ Finset.range ((n % 25 + 1) * 2000),
        gvPart (Cert.Spec.lin X W) S ⟨n / 25 * 3200 + p.val, he⟩ q m := by
  have first : ∀ (n : ℕ) (hn : n < grid2.N), n % 25 = 0 → ∀ he : n / 25 * 3200 + p.val < 640000,
      acc n hn (ix2 p q) = ∑ m ∈ Finset.range ((n % 25 + 1) * 2000),
        gvPart (Cert.Spec.lin X W) S ⟨n / 25 * 3200 + p.val, he⟩ q m := fun n hn h he =>
    (congrFun (h0 ⟨n, hn⟩ h) (ix2 p q)).trans (gvGrow (t := n) (hrd ⟨n, hn⟩) _ (gvIdx ⟨n, hn⟩).2.2.2.2.2.2.2.2 _ p q he (by
      rw [gvZero, h, Nat.zero_mul, Finset.sum_range_zero]))
  intro n
  induction n with
  | zero => exact fun hn he => first 0 hn rfl he
  | succ n ih =>
    intro hn he
    by_cases h : (n + 1) % 25 = 0
    · exact first (n + 1) hn h he
    · refine (congrFun (h1 ⟨n + 1, hn⟩ h) (ix2 p q)).trans ?_
      refine gvGrow (t := n + 1) (hrd ⟨n + 1, hn⟩) _ (gvIdx ⟨n + 1, hn⟩).2.2.2.2.2.2.2.2 _ p q he ?_
      have hq : n / 25 = (n + 1) / 25 := by omega
      have hm : n % 25 + 1 = (n + 1) % 25 := by omega
      have he' : n / 25 * 3200 + p.val < 640000 := by rw [hq]; exact he
      have hf : (⟨n / 25 * 3200 + p.val, he'⟩ : Fin 640000) = ⟨(n + 1) / 25 * 3200 + p.val, he⟩ :=
        Fin.ext (congrArg (fun z => z * 3200 + p.val) hq)
      refine (ih (Nat.lt_of_succ_lt hn) he').trans ?_
      rw [hf, hm]

/-- After the last node tile of its edge block all 50000 nodes are in: the accumulator holds its block of the carried rows. -/
theorem gvLast (n : ℕ) (hn : n < grid2.N) (hl : n % 25 = 24) (p : Fin 3200) (q : Fin 128) (he : n / 25 * 3200 + p.val < 640000) :
    acc n hn (ix2 p q) = Cert.Spec.toMat (Cert.Spec.carried (Cert.Spec.lin X W) S) (ix2 ⟨n / 25 * 3200 + p.val, he⟩ q) := by
  rw [Cert.Spec.toMat_apply, gvCarried, gvAcc hrd h0 h1 p q n hn he, hl]

end Blocks

end Cert.KernelIdeal.Hand

end
-- ==== Proof.KI.VG0.lean ====
import proofs.«422636_j31413390803462_1_alg».proof.Proof.KI.G0
import proofs.«422636_j31413390803462_1_alg».proof.Proof.KI.GatherValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The three input blocks of a point read the launch's arrays where the index maps say. -/
theorem reads0 (c : Dev nD) (t : Fin cfg0.N) :
    gvReads (V c (Pipeline.arrRef spec0 0)) (V c (Pipeline.arrRef spec0 1)) (V c (Pipeline.arrRef spec0 2)) t.val (xblk0 V c t) (wblk0 V c t) (sblk0 V c t) := by
  obtain ⟨e0, e1, e2, e3, e4, e5, -⟩ := gvIdx t
  refine ⟨fun r k hr => ?_, fun k q => ?_, fun p hp => ?_⟩
  · show V c (Pipeline.arrRef spec0 0) (((cfg0.win 0).blk t).view.emb (ix2 r k)) = _
    exact congrArg _ (Shape.idx_ext₂
      (show cc2_transform_0 (grid2.coords t) 0 * 2000 + 1 * r.val = t.val % 25 * 2000 + r.val by omega)
      (show cc2_transform_0 (grid2.coords t) 1 * 128 + 1 * k.val = k.val by omega))
  · show V c (Pipeline.arrRef spec0 1) (((cfg0.win 1).blk t).view.emb (ix2 k q)) = _
    exact congrArg _ (Shape.idx_ext₂
      (show cc2_transform_1 (grid2.coords t) 0 * 128 + 1 * k.val = k.val by omega)
      (show cc2_transform_1 (grid2.coords t) 1 * 128 + 1 * q.val = q.val by omega))
  · show V c (Pipeline.arrRef spec0 2) (((cfg0.win 2).blk t).view.emb (ix2 0 p)) = _
    exact congrArg _ (Shape.idx_ext₂
      (show cc2_transform_2 (grid2.coords t) 0 * 1 + 1 * (0 : Fin 1).val = (0 : Fin 1).val by rw [e4]; rfl)
      (show cc2_transform_2 (grid2.coords t) 1 * 3200 + 1 * p.val = t.val / 25 * 3200 + p.val by omega))

set_option maxRecDepth 65536 in
/-- At the last node tile of an edge block the output block is its block of the carried rows. -/
theorem flushed0_eq (c : Dev nD) (t : Fin cfg0.N) (hf : (cfg0.win 3).flush t = true) :
    (dat0 (F := Ideal) V c).flushed 3 t = ((cfg0.win 3).blk t).view.read (Elt Ideal)
      (Cert.Spec.toMat (Cert.Spec.carried (Cert.Spec.lin (V c (Pipeline.arrRef spec0 0)) (V c (Pipeline.arrRef spec0 1))) (V c (Pipeline.arrRef spec0 2)))) := by
  have hl : t.val % 25 = 24 := (flush0_3 t).mp hf
  have ht : t.val < 5000 := N_0 ▸ t.isLt
  obtain ⟨-, -, -, -, -, -, ea, eb, -⟩ := gvIdx t
  show (cfg0.win 3).cut (grid0.coords t) ((dat0 (F := Ideal) V c).after 3 t) = _
  rw [after0_3]
  funext j
  have hp : (j 0).val < 3200 := (j 0).isLt
  have hq : (j 1).val < 128 := (j 1).isLt
  have he : t.val / 25 * 3200 + (j 0).val < 640000 := by omega
  have ex : (cfg0.win 3).xinj (grid0.coords t) j = ix2 ⟨(j 0).val, hp⟩ ⟨(j 1).val, hq⟩ := Shape.idx_ext₂ rfl rfl
  have ey : ((cfg0.win 3).blk t).view.emb j = ix2 ⟨t.val / 25 * 3200 + (j 0).val, he⟩ ⟨(j 1).val, hq⟩ := Shape.idx_ext₂
    (show cc2_transform_3 (grid2.coords t) 0 * 3200 + 1 * (j 0).val = t.val / 25 * 3200 + (j 0).val by omega)
    (show cc2_transform_3 (grid2.coords t) 1 * 128 + 1 * (j 1).val = (j 1).val by omega)
  show acc0 V c t.val t.isLt ((cfg0.win 3).xinj (grid0.coords t) j)
    = Cert.Spec.toMat (Cert.Spec.carried (Cert.Spec.lin (V c (Pipeline.arrRef spec0 0)) (V c (Pipeline.arrRef spec0 1))) (V c (Pipeline.arrRef spec0 2))) (((cfg0.win 3).blk t).view.emb j)
  rw [ex, ey]
  exact gvLast (acc := acc0 V c) (reads0 V c) (fun t h => (acc0_first V c t h).trans (gvPay0 _ _ _ _ _)) (fun t h => (acc0_next V c t h).trans (gvPay0 _ _ _ _ _)) t.val t.isLt hl _ _ he

/-- Every output row lies in the block of its edge block's last node tile. -/
theorem cover0 (i : S640000x128.Idx) :
    ∃ t : Fin cfg0.N, (cfg0.win 3).flush t = true ∧ i ∈ ((cfg0.win 3).blk t).view.set := by
  obtain ⟨t, h24, hlo, hhi⟩ := gvCover (i 0).val (i 0).isLt
  obtain ⟨-, -, -, -, -, -, ea, eb, -⟩ := gvIdx t
  have hq : (i 1).val < 128 := (i 1).isLt
  refine ⟨t, (flush0_3 t).mpr h24, ?_⟩
  show i ∈ ((View.whole (Pipeline.arrRef spec0 3)).slice (win0_3.rect t)).set
  rw [View.set_slice_whole, Rect.mem_set_unit]
  intro a
  match a with
  | ⟨0, _⟩ =>
    show cc2_transform_3 (grid2.coords t) 0 * 3200 ≤ (i 0).val ∧ (i 0).val < cc2_transform_3 (grid2.coords t) 0 * 3200 + 3200
    omega
  | ⟨1, _⟩ =>
    show cc2_transform_3 (grid2.coords t) 1 * 128 ≤ (i 1).val ∧ (i 1).val < cc2_transform_3 (grid2.coords t) 1 * 128 + 128
    omega

theorem gathered0 (c : Dev nD) :
    (dat0 (F := Ideal) V c).arrAt 3 cfg0.N
      = Cert.Spec.toMat (Cert.Spec.carried (Cert.Spec.lin (V c (Pipeline.arrRef spec0 0)) (V c (Pipeline.arrRef spec0 1))) (V c (Pipeline.arrRef spec0 2))) :=
  (dat0 (F := Ideal) V c).arrAt_eq_of_cover 3 _ (flushed0_eq V c) cover0

end Cert.KernelIdeal.Hand

end
-- ==== Proof.KI.ScatterValue.lean ====
import proofs.«422636_j31413390803462_1_alg».proof.Proof.Gen.KernelIdeal.Skeleton
import proofs.«422636_j31413390803462_1_alg».proof.Proof.Gen.KernelIdeal.Launch
import proofs.«422636_j31413390803462_1_alg».proof.Proof.Gen.KernelIdeal.Points
import proofs.«422636_j31413390803462_1_alg».proof.Proof.Spec
import Idealize.ShloMosaic.Lib.Pipeline.Value
import Idealize.ShloMosaic.Lib.ValueIdx
import Idealize.ShloMosaic.Lib.ValueLayout
import Idealize.ShloMosaic.Lib.FinSumWindow
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec (IRow Mat names received ofMat rowVec unitRelu)

theorem scBit_toInt : ∀ b : BitVec 1, (b.setWidth 32).toInt = (b.toNat : ℤ) := by decide

-- below 2^31 the signed reading of a word is its unsigned one
theorem scWord_eq_iff (n : Nat) (hn : n < 2147483648) (w : BitVec 32) : BitVec.ofNat 32 n = w ↔ w.toInt = (n : Int) := by
  have hw : w.toNat < 4294967296 := w.isLt
  rw [BitVec.toInt_eq_toNat_cond]
  constructor
  · rintro rfl
    rw [BitVec.toNat_ofNat]
    split <;> omega
  · intro h
    apply BitVec.eq_of_toNat_eq
    rw [BitVec.toNat_ofNat]
    split at h <;> omega

theorem scNode_word (a p : Nat) : BitVec.ofNat 32 p + BitVec.ofNat 32 a * 2000#32 = BitVec.ofNat 32 (a * 2000 + p) := by
  apply BitVec.eq_of_toNat_eq
  simp only [BitVec.toNat_add, BitVec.toNat_mul, BitVec.toNat_ofNat]
  omega

theorem scZero_apply (p : Fin 2000) (q : Fin 128) : (k1_pay1 (F := Ideal)) (ix2 p q) = 0 := by
  unfold k1_pay1
  simp only [shapeCast_self]
  exact Ideal.ofBits_zero_f32

theorem scCol_apply {α : Type} (v : S2000x1.Idx → α) (p : Fin 2000) (q : Fin 128) :
    broadcastTo S2000x128 v broadcasts_S2000x1_S2000x128 (ix2 p q) = v (ix2 p 0) := by
  refine broadcastTo_apply v _ (ix2 p q) (ix2 p 0) fun ax => ?_
  match ax with
  | ⟨0, _⟩ => rfl
  | ⟨1, _⟩ => rfl

theorem scRowSum_apply (src : FVec Ideal S2000x128 .f32) (hφ : FKind.Formats .f32)
    (hacc : (0x00000000#32 : BitVec 32) = FKind.add.neutral .f32 hφ) (p : Fin 2000) :
    shapeCast S2000x1 (multiReduction .add [1] S2000 src 0x00000000#32 reduces_S2000x128_S2000 hφ hacc) shapeCasts_S2000_S2000x1 (ix2 p 0)
      = ∑ k : Fin 128, src (ix2 p k) := by
  refine (shapeCast_apply _ shapeCasts_S2000_S2000x1 (ix2 p 0) (ix1 p) ?_).trans ?_
  · rw [Shape.rowMajor_val_two, Shape.rowMajor_val_one]
    show p.val = p.val * 1 + 0
    omega
  · refine (Ideal.multiReduction_add_single src 0x00000000#32 reduces_S2000x128_S2000 hφ hacc (ix1 p)).trans ?_
    refine Finset.sum_congr rfl fun k _ => congrArg src ?_
    funext a
    apply Fin.ext
    match a with
    | ⟨0, _⟩ => rfl
    | ⟨1, _⟩ => rfl

theorem scHot_apply (x y : IVec S2000x3200 32) (j : S2000x3200.Idx) :
    (sitofp .f32 (extui 32 (cmpi .eq x y) natLt_1_32) : FVec Ideal S2000x3200 .f32) j = if x j = y j then 1 else 0 := by
  show ((((IntOp.cmpi .eq (x j) (y j)).setWidth 32).toInt : ℝ) : EReal) = _
  rw [scBit_toInt]
  unfold IntOp.cmpi
  by_cases h : x j = y j <;> simp [h]

theorem scNodes_apply (w : BitVec 32) (p : Fin 2000) (e : Fin 3200) :
    broadcastTo S2000x3200 (addi (iota .tc S2000x1 32 [0] iota_S2000x1_d0_w32) (broadcast S2000x1 w)) broadcasts_S2000x1_S2000x3200 (ix2 p e)
      = BitVec.ofNat 32 p.val + w := by
  refine (broadcastTo_apply _ broadcasts_S2000x1_S2000x3200 (ix2 p e) (ix2 p 0) fun ax => ?_).trans ?_
  · match ax with
    | ⟨0, _⟩ => rfl
    | ⟨1, _⟩ => rfl
  · show IntOp.addi (iota .tc S2000x1 32 [0] iota_S2000x1_d0_w32 (ix2 p 0)) w = _
    rw [iota_single_apply]
    rfl

-- the contraction runs over the left factor's columns and the right factor's rows
theorem scMm_apply (L : FVec Ideal S2000x3200 .bf16) (R : FVec Ideal S3200x128 .bf16) (p : Fin 2000) (q : Fin 128) :
    matmul dot_S2000x3200_S3200x128_S2000x128_1_0_0_1_n_n none L R (constant (F := Ideal) S2000x128 .f32 0x00000000#32) (ix2 p q)
      = ∑ e : Fin 3200, L (ix2 p e) * R (ix2 e q) := by
  refine (Ideal.matmul_constant_zero_apply dot_S2000x3200_S3200x128_S2000x128_1_0_0_1_n_n none L R (ix2 p q)).trans ?_
  rw [← Equiv.sum_comp (contrEquiv1 dot_S2000x3200_S3200x128_S2000x128_1_0_0_1_n_n 3200 rfl rfl).symm]
  have hk := contrEquiv1_symm_val dot_S2000x3200_S3200x128_S2000x128_1_0_0_1_n_n 3200 rfl rfl
  refine Finset.sum_congr rfl fun e _ => congrArg₂ (· * ·) (congrArg L ?_) (congrArg R ?_)
  · apply Shape.idx_ext₂
    · simp [DotDims.lhsIdx, dot_S2000x3200_S3200x128_S2000x128_1_0_0_1_n_n]; rfl
    · refine Eq.trans ?_ (hk e)
      simp [DotDims.lhsIdx, dot_S2000x3200_S3200x128_S2000x128_1_0_0_1_n_n]; rfl
  · apply Shape.idx_ext₂
    · refine Eq.trans ?_ (hk e)
      simp [DotDims.rhsIdx, dot_S2000x3200_S3200x128_S2000x128_1_0_0_1_n_n]; rfl
    · simp [DotDims.rhsIdx, dot_S2000x3200_S3200x128_S2000x128_1_0_0_1_n_n]; rfl

-- one point adds, at (p, q), the block's rows whose target word is the word of node p of tile (i 0)
theorem scUpd_apply (i : grid1.Coords) (d : Vec Ideal S1x3200 .i32) (g : Vec Ideal S3200x128 .bf16) (a : Vec Ideal S2000x128 .f32)
    (p : Fin 2000) (q : Fin 128) :
    k1_pay2 i d g a (ix2 p q) = a (ix2 p q) + ∑ e : Fin 3200,
      (if BitVec.ofNat 32 ((i 0).val * 2000 + p.val) = d (ix2 0 e) then (1 : EReal) else 0) * g (ix2 e q) := by
  unfold k1_pay2
  simp only [shapeCast_self]
  refine congrArg (a (ix2 p q) + ·) ((scMm_apply _ _ p q).trans ?_)
  refine Finset.sum_congr rfl fun e _ => congrArg (· * g (ix2 e q)) ((scHot_apply _ _ (ix2 p e)).trans ?_)
  rw [scNodes_apply, broadcastTo_1b_ab_apply, ← scNode_word]
  rfl

-- the last point adds the bias, divides each row by the larger of its norm and the small constant, and clamps at zero
theorem scFin_apply (a : Vec Ideal S2000x128 .f32) (b : Vec Ideal S1x128 .f32) (p : Fin 2000) (q : Fin 128) :
    k1_pay3 a b (ix2 p q)
      = max (Ideal.div (a (ix2 p q) + b (ix2 0 q))
          (max (Ideal.sqrt (∑ k : Fin 128, (a (ix2 p k) + b (ix2 0 k)) * (a (ix2 p k) + b (ix2 0 k))))
            (Ideal.ofBits .f32 0x2B8CBCCC#32))) 0 := by
  have hb : ∀ k : Fin 128, broadcastTo S2000x128 b broadcasts_S1x128_S2000x128 (ix2 p k) = b (ix2 0 k) :=
    fun k => broadcastTo_1b_ab_apply b _ p k
  unfold k1_pay3
  simp only [shapeCast_self]
  refine (maximumf_apply _ _ (ix2 p q)).trans (congrArg₂ max ?_ Ideal.ofBits_zero_f32)
  refine (divf_apply _ _ (ix2 p q)).trans (congrArg₂ Ideal.div (congrArg (a (ix2 p q) + ·) (hb q)) ?_)
  refine (scCol_apply _ p q).trans ((maximumf_apply _ _ (ix2 p 0)).trans (congrArg₂ max (congrArg Ideal.sqrt ?_) rfl))
  refine (scRowSum_apply _ _ _ p).trans (Finset.sum_congr rfl fun k _ => ?_)
  exact congrArg (fun x => (a (ix2 p k) + x) * (a (ix2 p k) + x)) (hb k)

-- a sum over one block of 3200 edges is the sum over all edges of the terms of that block
theorem scBlk_sum (b : Nat) (hb : b < 200) (f : Fin 640000 → EReal) :
    (∑ e : Fin 3200, f ⟨b * 3200 + e.val, by have := e.isLt; omega⟩)
      = ∑ e : Fin 640000, if e.val / 3200 = b then f e else 0 := by
  refine Eq.symm ((FinSumWindow.sum_window (N := 640000) (W := 3200) (b * 3200) (by omega) (fun e => if e.val / 3200 = b then f e else 0) ?_).trans ?_)
  · intro P hP
    have hlt := P.isLt
    exact if_neg (by omega)
  · refine Finset.sum_congr rfl fun e _ => ?_
    have hlt := e.isLt
    exact if_pos (by show (b * 3200 + e.val) / 3200 = b; omega)

-- what the edges of the blocks up to b send to node n, at column q
def scAccSum (D : IRow 640000) (Gm : Mat 640000 128) (n b : Nat) (q : Fin 128) : EReal :=
  ∑ e : Fin 640000, if e.val / 3200 ≤ b then (if names (D (ix2 0 e)) n then Gm (ix2 e q) else 0) else 0

theorem scAccSum_zero (D : IRow 640000) (Gm : Mat 640000 128) (n : Nat) (q : Fin 128) :
    scAccSum D Gm n 0 q
      = ∑ e : Fin 640000, if e.val / 3200 = 0 then (if names (D (ix2 0 e)) n then Gm (ix2 e q) else 0) else 0 :=
  Finset.sum_congr rfl fun e _ => if_congr Nat.le_zero rfl rfl

theorem scAccSum_succ (D : IRow 640000) (Gm : Mat 640000 128) (n b : Nat) (q : Fin 128) :
    scAccSum D Gm n (b + 1) q
      = scAccSum D Gm n b q
        + ∑ e : Fin 640000, if e.val / 3200 = b + 1 then (if names (D (ix2 0 e)) n then Gm (ix2 e q) else 0) else 0 := by
  unfold scAccSum
  rw [← Finset.sum_add_distrib]
  refine Finset.sum_congr rfl fun e _ => ?_
  generalize (if names (D (ix2 0 e)) n then Gm (ix2 e q) else 0) = X
  by_cases h : e.val / 3200 ≤ b
  · rw [if_pos h, if_pos (show e.val / 3200 ≤ b + 1 by omega), if_neg (show ¬ e.val / 3200 = b + 1 by omega), add_zero]
  · by_cases h' : e.val / 3200 = b + 1
    · rw [if_neg h, if_pos h', if_pos (show e.val / 3200 ≤ b + 1 by omega), zero_add]
    · rw [if_neg h, if_neg h', if_neg (show ¬ e.val / 3200 ≤ b + 1 by omega), add_zero]

theorem scAccSum_last (D : IRow 640000) (Gm : Mat 640000 128) (n : Fin 50000) (q : Fin 128) :
    scAccSum D Gm n.val 199 q = received (ofMat Gm) D n q :=
  Finset.sum_congr rfl fun e _ => if_pos (show e.val / 3200 ≤ 199 by have := e.isLt; omega)

-- with the block's words and rows read as block b of the arrays, the step adds block b's edges that name the node
theorem scStep_apply (i : grid1.Coords) (d : Vec Ideal S1x3200 .i32) (g : Vec Ideal S3200x128 .bf16) (a : Vec Ideal S2000x128 .f32)
    (D : IRow 640000) (Gm : Mat 640000 128) (b : Nat) (hb : b < 200)
    (hd : ∀ e : Fin 3200, d (ix2 0 e) = D (ix2 0 (⟨b * 3200 + e.val, by have := e.isLt; omega⟩ : Fin 640000)))
    (hg : ∀ (e : Fin 3200) (q : Fin 128), g (ix2 e q) = Gm (ix2 (⟨b * 3200 + e.val, by have := e.isLt; omega⟩ : Fin 640000) q))
    (p : Fin 2000) (q : Fin 128) :
    k1_pay2 i d g a (ix2 p q) = a (ix2 p q) + ∑ e : Fin 640000,
      if e.val / 3200 = b then (if names (D (ix2 0 e)) ((i 0).val * 2000 + p.val) then Gm (ix2 e q) else 0) else 0 := by
  have hi : (i 0).val < 25 := (i 0).isLt
  have hp := p.isLt
  refine (scUpd_apply i d g a p q).trans (congrArg (a (ix2 p q) + ·) ?_)
  refine (Finset.sum_congr rfl fun e _ => ?_).trans
    (scBlk_sum b hb (fun e => if names (D (ix2 0 e)) ((i 0).val * 2000 + p.val) then Gm (ix2 e q) else 0))
  dsimp only
  rw [hd e, hg e q]
  by_cases h : names (D (ix2 0 (⟨b * 3200 + e.val, by have := e.isLt; omega⟩ : Fin 640000))) ((i 0).val * 2000 + p.val)
  · rw [if_pos ((scWord_eq_iff _ (by omega) _).mpr h), if_pos h, one_mul]
  · rw [if_neg (fun h' => h ((scWord_eq_iff _ (by omega) _).mp h')), if_neg h, zero_mul]

theorem scCoords_facts (t : Fin grid1.N) : (grid1.coords t 0).val = t.val / 200 ∧ (grid1.coords t 1).val = t.val % 200 := by
  have hN : t.val < 5000 := Nat.lt_of_lt_of_eq t.isLt N_1
  have hs : grid1.stride 0 = 200 ∧ grid1.stride 1 = 1 := by decide
  constructor
  · show t.val / grid1.stride 0 % 25 = t.val / 200
    rw [hs.1]; omega
  · show t.val / grid1.stride 1 % 200 = t.val % 200
    rw [hs.2]; omega

theorem scIdx_facts (t : Fin grid1.N) :
    win1_0.index t (0 : Fin 2) = 0 ∧ win1_0.index t (1 : Fin 2) = t.val % 200
    ∧ win1_1.index t (0 : Fin 2) = t.val % 200 ∧ win1_1.index t (1 : Fin 2) = 0
    ∧ win1_2.index t (0 : Fin 2) = 0 ∧ win1_2.index t (1 : Fin 2) = 0
    ∧ win1_3.index t (0 : Fin 2) = t.val / 200 ∧ win1_3.index t (1 : Fin 2) = 0 := by
  obtain ⟨ha, hb⟩ := scCoords_facts t
  have hN : t.val < 5000 := Nat.lt_of_lt_of_eq t.isLt N_1
  have wa : (BitVec.ofNat 32 (grid1.coords t 0).val).toNat = t.val / 200 := by
    rw [BitVec.toNat_ofNat, ha]; omega
  have wb : (BitVec.ofNat 32 (grid1.coords t 1).val).toNat = t.val % 200 := by
    rw [BitVec.toNat_ofNat, hb]; omega
  exact ⟨rfl, wb, wb, rfl, rfl, rfl, wa, rfl⟩

-- where each window's block at a point sits in its array
theorem scEmb0 (t : Fin grid1.N) (e : Fin 3200) :
    ((cfg1.win 0).blk t).view.emb (ix2 0 e)
      = ix2 (0 : Fin 1) (⟨t.val % 200 * 3200 + e.val, by have := e.isLt; omega⟩ : Fin 640000) := by
  obtain ⟨ea, eb, -⟩ := scIdx_facts t
  funext a
  apply Fin.ext
  match a with
  | ⟨0, _⟩ => show win1_0.index t (0 : Fin 2) * 1 + 1 * 0 = 0; omega
  | ⟨1, _⟩ => show win1_0.index t (1 : Fin 2) * 3200 + 1 * e.val = t.val % 200 * 3200 + e.val; omega

theorem scEmb1 (t : Fin grid1.N) (e : Fin 3200) (q : Fin 128) :
    ((cfg1.win 1).blk t).view.emb (ix2 e q)
      = ix2 (⟨t.val % 200 * 3200 + e.val, by have := e.isLt; omega⟩ : Fin 640000) q := by
  obtain ⟨-, -, ea, eb, -⟩ := scIdx_facts t
  funext a
  apply Fin.ext
  match a with
  | ⟨0, _⟩ => show win1_1.index t (0 : Fin 2) * 3200 + 1 * e.val = t.val % 200 * 3200 + e.val; omega
  | ⟨1, _⟩ => show win1_1.index t (1 : Fin 2) * 128 + 1 * q.val = q.val; omega

theorem scEmb2 (t : Fin grid1.N) (q : Fin 128) :
    ((cfg1.win 2).blk t).view.emb (ix2 0 q) = ix2 (0 : Fin 1) q := by
  obtain ⟨-, -, -, -, ea, eb, -⟩ := scIdx_facts t
  funext a
  apply Fin.ext
  match a with
  | ⟨0, _⟩ => show win1_2.index t (0 : Fin 2) * 1 + 1 * 0 = 0; omega
  | ⟨1, _⟩ => show win1_2.index t (1 : Fin 2) * 128 + 1 * q.val = q.val; omega

theorem scEmb3 (t : Fin grid1.N) (p : Fin 2000) (q : Fin 128) (h : t.val / 200 * 2000 + p.val < 50000) :
    ((cfg1.win 3).blk t).view.emb (ix2 p q) = ix2 (⟨t.val / 200 * 2000 + p.val, h⟩ : Fin 50000) q := by
  obtain ⟨-, -, -, -, -, -, ea, eb⟩ := scIdx_facts t
  funext a
  apply Fin.ext
  match a with
  | ⟨0, _⟩ => show win1_3.index t (0 : Fin 2) * 2000 + 1 * p.val = t.val / 200 * 2000 + p.val; omega
  | ⟨1, _⟩ => show win1_3.index t (1 : Fin 2) * 128 + 1 * q.val = q.val; omega

theorem scMem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

-- every output row lies in the block of its tile's last point, and that point writes it
theorem scCover (i : S50000x128.Idx) :
    ∃ t : Fin cfg1.N, (cfg1.win 3).flush t = true ∧ i ∈ ((cfg1.win 3).blk t).view.set := by
  have hr : (i 0).val < 50000 := (i 0).isLt
  have hq : (i 1).val < 128 := (i 1).isLt
  have ht : (i 0).val / 2000 * 200 + 199 < cfg1.N := by rw [show cfg1.N = 5000 from N_1]; omega
  obtain ⟨-, -, -, -, -, -, ea, eb⟩ := scIdx_facts ⟨(i 0).val / 2000 * 200 + 199, ht⟩
  have ea' : win1_3.index ⟨(i 0).val / 2000 * 200 + 199, ht⟩ (0 : Fin 2) = (i 0).val / 2000 := by
    rw [ea]; show ((i 0).val / 2000 * 200 + 199) / 200 = (i 0).val / 2000; omega
  refine ⟨⟨(i 0).val / 2000 * 200 + 199, ht⟩, (flush1_3 _).mpr (by show ((i 0).val / 2000 * 200 + 199) % 200 = 199; omega), ?_⟩
  rw [scMem_blk]
  intro a
  match a with
  | ⟨0, _⟩ =>
    show win1_3.index ⟨(i 0).val / 2000 * 200 + 199, ht⟩ (0 : Fin 2) * 2000 ≤ (i 0).val
      ∧ (i 0).val < win1_3.index ⟨(i 0).val / 2000 * 200 + 199, ht⟩ (0 : Fin 2) * 2000 + 2000
    rw [ea']; omega
  | ⟨1, _⟩ =>
    show win1_3.index ⟨(i 0).val / 2000 * 200 + 199, ht⟩ (1 : Fin 2) * 128 ≤ (i 1).val
      ∧ (i 1).val < win1_3.index ⟨(i 0).val / 2000 * 200 + 199, ht⟩ (1 : Fin 2) * 128 + 128
    rw [eb]; omega

section Acc

variable (acc : (n : ℕ) → n < grid1.N → Vec Ideal S2000x128 .f32)
  (d : Fin grid1.N → Vec Ideal S1x3200 .i32) (g : Fin grid1.N → Vec Ideal S3200x128 .bf16)
  (D : IRow 640000) (Gm : Mat 640000 128)
  (h0 : ∀ t : Fin grid1.N, t.val % 200 = 0 →
    acc t.val t.isLt = k1_pay2 (grid1.coords t) (d t) (g t) (k1_pay1 (F := Ideal)))
  (h1 : ∀ t : Fin grid1.N, ¬ t.val % 200 = 0 → acc t.val t.isLt
    = k1_pay2 (grid1.coords t) (d t) (g t) (acc (t.val - 1) (Nat.lt_of_le_of_lt (Nat.sub_le _ _) t.isLt)))
  (hd : ∀ (t : Fin grid1.N) (e : Fin 3200), d t (ix2 0 e)
    = D (ix2 (0 : Fin 1) (⟨t.val % 200 * 3200 + e.val, by have := e.isLt; omega⟩ : Fin 640000)))
  (hg : ∀ (t : Fin grid1.N) (e : Fin 3200) (q : Fin 128), g t (ix2 e q)
    = Gm (ix2 (⟨t.val % 200 * 3200 + e.val, by have := e.isLt; omega⟩ : Fin 640000) q))
include h0 h1 hd hg

-- a tile's accumulator restarts at its first edge block and gains one block of edges at every later point
theorem scAcc_at (t : Fin grid1.N)
    (ih : ¬ t.val % 200 = 0 → ∀ (p : Fin 2000) (q : Fin 128),
      acc (t.val - 1) (Nat.lt_of_le_of_lt (Nat.sub_le _ _) t.isLt) (ix2 p q)
        = scAccSum D Gm ((t.val - 1) / 200 * 2000 + p.val) ((t.val - 1) % 200) q)
    (p : Fin 2000) (q : Fin 128) :
    acc t.val t.isLt (ix2 p q) = scAccSum D Gm (t.val / 200 * 2000 + p.val) (t.val % 200) q := by
  have step := fun a => scStep_apply (grid1.coords t) (d t) (g t) a D Gm (t.val % 200) (Nat.mod_lt _ (by decide)) (hd t) (hg t) p q
  rw [(scCoords_facts t).1] at step
  by_cases hm : t.val % 200 = 0
  · rw [h0 t hm, step, scZero_apply, zero_add, hm, scAccSum_zero]
  · rw [h1 t hm, step, ih hm p q]
    obtain ⟨b, hb⟩ : ∃ b, t.val % 200 = b + 1 := ⟨t.val % 200 - 1, by omega⟩
    have ea : (t.val - 1) / 200 = t.val / 200 := by omega
    have eb : (t.val - 1) % 200 = b := by omega
    rw [ea, eb, hb, scAccSum_succ]

theorem scAcc_eq : ∀ (n : ℕ) (hn : n < grid1.N) (p : Fin 2000) (q : Fin 128),
    acc n hn (ix2 p q) = scAccSum D Gm (n / 200 * 2000 + p.val) (n % 200) q := by
  intro n
  induction n with
  | zero => exact fun hn p q => scAcc_at acc d g D Gm h0 h1 hd hg ⟨0, hn⟩ (fun hm => absurd rfl hm) p q
  | succ n ih => exact fun hn p q => scAcc_at acc d g D Gm h0 h1 hd hg ⟨n + 1, hn⟩ (fun _ p q => ih (Nat.lt_of_succ_lt hn) p q) p q

-- at a tile's last point every edge is in: what it writes back is the tile's block of the layer's value
theorem scFlushed (b : Fin grid1.N → Vec Ideal S1x128 .f32) (B : Mat 1 128)
    (hb : ∀ (t : Fin grid1.N) (k : Fin 128), b t (ix2 0 k) = B (ix2 0 k)) (t : Fin cfg1.N) (hf : (cfg1.win 3).flush t = true) :
    (cfg1.win 3).cut (grid1.coords t) (k1_pay3 (acc t.val t.isLt) (b t))
      = ((cfg1.win 3).blk t).view.read (Elt Ideal) (Cert.Spec.toMat (unitRelu (received (ofMat Gm) D) (rowVec B))) := by
  have hl : t.val % 200 = 199 := (flush1_3 t).mp hf
  have hN : t.val < 5000 := Nat.lt_of_lt_of_eq t.isLt N_1
  funext j
  obtain ⟨p, q, rfl⟩ : ∃ (p : Fin 2000) (q : Fin 128), j = ix2 p q := ⟨j 0, j 1, eq_ix2 j⟩
  have hp := p.isLt
  have h : t.val / 200 * 2000 + p.val < 50000 := by omega
  have ha : ∀ k : Fin 128, acc t.val t.isLt (ix2 p k)
      = received (ofMat Gm) D (⟨t.val / 200 * 2000 + p.val, h⟩ : Fin 50000) k := fun k => by
    rw [scAcc_eq acc d g D Gm h0 h1 hd hg t.val t.isLt p k, hl]
    exact scAccSum_last _ _ (⟨t.val / 200 * 2000 + p.val, h⟩ : Fin 50000) k
  refine Eq.trans ?_ (congrArg (Cert.Spec.toMat (unitRelu (received (ofMat Gm) D) (rowVec B))) (scEmb3 t p q h)).symm
  show k1_pay3 (acc t.val t.isLt) (b t) (ix2 p q)
    = unitRelu (received (ofMat Gm) D) (rowVec B) (⟨t.val / 200 * 2000 + p.val, h⟩ : Fin 50000) q
  refine (scFin_apply _ _ p q).trans ?_
  unfold Cert.Spec.unitRelu Cert.Spec.tiny Cert.Spec.rowVec
  simp only [ha, hb]

end Acc

end Cert.KernelIdeal.Hand

end
-- ==== Proof.KI.VS1.lean ====
import proofs.«422636_j31413390803462_1_alg».proof.Proof.KI.S1
import proofs.«422636_j31413390803462_1_alg».proof.Proof.KI.ScatterValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

-- the launch's blocks are blocks of its windows' arrays, so its output array ends as the layer's value on them
theorem layerOut1 (c : Dev nD) :
    (dat1 (F := Ideal) V c).arrAt 3 cfg1.N
      = Cert.Spec.toMat (Cert.Spec.unitRelu (Cert.Spec.received (Cert.Spec.ofMat (V c (Pipeline.arrRef spec1 1))) (V c (Pipeline.arrRef spec1 0)))
          (Cert.Spec.rowVec (V c (Pipeline.arrRef spec1 2)))) :=
  (dat1 (F := Ideal) V c).arrAt_eq_of_cover 3 _
    (scFlushed (acc1 V c) (dblk1 V c) (gblk1 V c) _ _ (acc1_first V c) (acc1_next V c)
      (fun t e => congrArg (V c (Pipeline.arrRef spec1 0)) (scEmb0 t e))
      (fun t e q => congrArg (V c (Pipeline.arrRef spec1 1)) (scEmb1 t e q))
      (bblk1 V c) _ (fun t k => congrArg (V c (Pipeline.arrRef spec1 2)) (scEmb2 t k)))
    scCover

end Cert.KernelIdeal.Hand

end
-- ==== Proof.KI.VG2.lean ====
import proofs.«422636_j31413390803462_1_alg».proof.Proof.KI.G2
import proofs.«422636_j31413390803462_1_alg».proof.Proof.KI.GatherValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The three input blocks of a point read the launch's arrays where the index maps say. -/
theorem reads2 (c : Dev nD) (t : Fin cfg2.N) :
    gvReads (V c (Pipeline.arrRef spec2 0)) (V c (Pipeline.arrRef spec2 1)) (V c (Pipeline.arrRef spec2 2)) t.val (xblk2 V c t) (wblk2 V c t) (sblk2 V c t) := by
  obtain ⟨e0, e1, e2, e3, e4, e5, -⟩ := gvIdx t
  refine ⟨fun r k hr => ?_, fun k q => ?_, fun p hp => ?_⟩
  · show V c (Pipeline.arrRef spec2 0) (((cfg2.win 0).blk t).view.emb (ix2 r k)) = _
    exact congrArg _ (Shape.idx_ext₂
      (show cc2_transform_0 (grid2.coords t) 0 * 2000 + 1 * r.val = t.val % 25 * 2000 + r.val by omega)
      (show cc2_transform_0 (grid2.coords t) 1 * 128 + 1 * k.val = k.val by omega))
  · show V c (Pipeline.arrRef spec2 1) (((cfg2.win 1).blk t).view.emb (ix2 k q)) = _
    exact congrArg _ (Shape.idx_ext₂
      (show cc2_transform_1 (grid2.coords t) 0 * 128 + 1 * k.val = k.val by omega)
      (show cc2_transform_1 (grid2.coords t) 1 * 128 + 1 * q.val = q.val by omega))
  · show V c (Pipeline.arrRef spec2 2) (((cfg2.win 2).blk t).view.emb (ix2 0 p)) = _
    exact congrArg _ (Shape.idx_ext₂
      (show cc2_transform_2 (grid2.coords t) 0 * 1 + 1 * (0 : Fin 1).val = (0 : Fin 1).val by rw [e4]; rfl)
      (show cc2_transform_2 (grid2.coords t) 1 * 3200 + 1 * p.val = t.val / 25 * 3200 + p.val by omega))

set_option maxRecDepth 65536 in
/-- At the last node tile of an edge block the output block is its block of the carried rows. -/
theorem flushed2_eq (c : Dev nD) (t : Fin cfg2.N) (hf : (cfg2.win 3).flush t = true) :
    (dat2 (F := Ideal) V c).flushed 3 t = ((cfg2.win 3).blk t).view.read (Elt Ideal)
      (Cert.Spec.toMat (Cert.Spec.carried (Cert.Spec.lin (V c (Pipeline.arrRef spec2 0)) (V c (Pipeline.arrRef spec2 1))) (V c (Pipeline.arrRef spec2 2)))) := by
  have hl : t.val % 25 = 24 := (flush2_3 t).mp hf
  have ht : t.val < 5000 := N_2 ▸ t.isLt
  obtain ⟨-, -, -, -, -, -, ea, eb, -⟩ := gvIdx t
  show (cfg2.win 3).cut (grid2.coords t) ((dat2 (F := Ideal) V c).after 3 t) = _
  rw [after2_3]
  funext j
  have hp : (j 0).val < 3200 := (j 0).isLt
  have hq : (j 1).val < 128 := (j 1).isLt
  have he : t.val / 25 * 3200 + (j 0).val < 640000 := by omega
  have ex : (cfg2.win 3).xinj (grid2.coords t) j = ix2 ⟨(j 0).val, hp⟩ ⟨(j 1).val, hq⟩ := Shape.idx_ext₂ rfl rfl
  have ey : ((cfg2.win 3).blk t).view.emb j = ix2 ⟨t.val / 25 * 3200 + (j 0).val, he⟩ ⟨(j 1).val, hq⟩ := Shape.idx_ext₂
    (show cc2_transform_3 (grid2.coords t) 0 * 3200 + 1 * (j 0).val = t.val / 25 * 3200 + (j 0).val by omega)
    (show cc2_transform_3 (grid2.coords t) 1 * 128 + 1 * (j 1).val = (j 1).val by omega)
  show acc2 V c t.val t.isLt ((cfg2.win 3).xinj (grid2.coords t) j)
    = Cert.Spec.toMat (Cert.Spec.carried (Cert.Spec.lin (V c (Pipeline.arrRef spec2 0)) (V c (Pipeline.arrRef spec2 1))) (V c (Pipeline.arrRef spec2 2))) (((cfg2.win 3).blk t).view.emb j)
  rw [ex, ey]
  exact gvLast (acc := acc2 V c) (reads2 V c) (acc2_first V c) (acc2_next V c) t.val t.isLt hl _ _ he

/-- Every output row lies in the block of its edge block's last node tile. -/
theorem cover2 (i : S640000x128.Idx) :
    ∃ t : Fin cfg2.N, (cfg2.win 3).flush t = true ∧ i ∈ ((cfg2.win 3).blk t).view.set := by
  obtain ⟨t, h24, hlo, hhi⟩ := gvCover (i 0).val (i 0).isLt
  obtain ⟨-, -, -, -, -, -, ea, eb, -⟩ := gvIdx t
  have hq : (i 1).val < 128 := (i 1).isLt
  refine ⟨t, (flush2_3 t).mpr h24, ?_⟩
  show i ∈ ((View.whole (Pipeline.arrRef spec2 3)).slice (win2_3.rect t)).set
  rw [View.set_slice_whole, Rect.mem_set_unit]
  intro a
  match a with
  | ⟨0, _⟩ =>
    show cc2_transform_3 (grid2.coords t) 0 * 3200 ≤ (i 0).val ∧ (i 0).val < cc2_transform_3 (grid2.coords t) 0 * 3200 + 3200
    omega
  | ⟨1, _⟩ =>
    show cc2_transform_3 (grid2.coords t) 1 * 128 ≤ (i 1).val ∧ (i 1).val < cc2_transform_3 (grid2.coords t) 1 * 128 + 128
    omega

theorem gathered2 (c : Dev nD) :
    (dat2 (F := Ideal) V c).arrAt 3 cfg2.N
      = Cert.Spec.toMat (Cert.Spec.carried (Cert.Spec.lin (V c (Pipeline.arrRef spec2 0)) (V c (Pipeline.arrRef spec2 1))) (V c (Pipeline.arrRef spec2 2))) :=
  (dat2 (F := Ideal) V c).arrAt_eq_of_cover 3 _ (flushed2_eq V c) cover2

end Cert.KernelIdeal.Hand

end
-- ==== Proof.KI.VS3.lean ====
import proofs.«422636_j31413390803462_1_alg».proof.Proof.KI.S3
import proofs.«422636_j31413390803462_1_alg».proof.Proof.KI.ScatterValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

-- the launch's blocks are blocks of its windows' arrays, so its output array ends as the layer's value on them
theorem layerOut3 (c : Dev nD) :
    (dat3 (F := Ideal) V c).arrAt 3 cfg3.N
      = Cert.Spec.toMat (Cert.Spec.unitRelu (Cert.Spec.received (Cert.Spec.ofMat (V c (Pipeline.arrRef spec3 1))) (V c (Pipeline.arrRef spec3 0)))
          (Cert.Spec.rowVec (V c (Pipeline.arrRef spec3 2)))) :=
  (dat3 (F := Ideal) V c).arrAt_eq_of_cover 3 _
    (scFlushed (acc3 V c) (dblk3 V c) (gblk3 V c) _ _ (acc3_first V c) (acc3_next V c)
      (fun t e => congrArg (V c (Pipeline.arrRef spec3 0)) (scEmb0 t e))
      (fun t e q => congrArg (V c (Pipeline.arrRef spec3 1)) (scEmb1 t e q))
      (bblk3 V c) _ (fun t k => congrArg (V c (Pipeline.arrRef spec3 2)) (scEmb2 t k)))
    scCover

end Cert.KernelIdeal.Hand

end
-- ==== Proof.KI.VG4.lean ====
import proofs.«422636_j31413390803462_1_alg».proof.Proof.KI.G4
import proofs.«422636_j31413390803462_1_alg».proof.Proof.KI.GatherValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The three input blocks of a point read the launch's arrays where the index maps say. -/
theorem reads4 (c : Dev nD) (t : Fin cfg4.N) :
    gvReads (V c (Pipeline.arrRef spec4 0)) (V c (Pipeline.arrRef spec4 1)) (V c (Pipeline.arrRef spec4 2)) t.val (xblk4 V c t) (wblk4 V c t) (sblk4 V c t) := by
  obtain ⟨e0, e1, e2, e3, e4, e5, -⟩ := gvIdx t
  refine ⟨fun r k hr => ?_, fun k q => ?_, fun p hp => ?_⟩
  · show V c (Pipeline.arrRef spec4 0) (((cfg4.win 0).blk t).view.emb (ix2 r k)) = _
    exact congrArg _ (Shape.idx_ext₂
      (show cc2_transform_0 (grid2.coords t) 0 * 2000 + 1 * r.val = t.val % 25 * 2000 + r.val by omega)
      (show cc2_transform_0 (grid2.coords t) 1 * 128 + 1 * k.val = k.val by omega))
  · show V c (Pipeline.arrRef spec4 1) (((cfg4.win 1).blk t).view.emb (ix2 k q)) = _
    exact congrArg _ (Shape.idx_ext₂
      (show cc2_transform_1 (grid2.coords t) 0 * 128 + 1 * k.val = k.val by omega)
      (show cc2_transform_1 (grid2.coords t) 1 * 128 + 1 * q.val = q.val by omega))
  · show V c (Pipeline.arrRef spec4 2) (((cfg4.win 2).blk t).view.emb (ix2 0 p)) = _
    exact congrArg _ (Shape.idx_ext₂
      (show cc2_transform_2 (grid2.coords t) 0 * 1 + 1 * (0 : Fin 1).val = (0 : Fin 1).val by rw [e4]; rfl)
      (show cc2_transform_2 (grid2.coords t) 1 * 3200 + 1 * p.val = t.val / 25 * 3200 + p.val by omega))

set_option maxRecDepth 65536 in
/-- At the last node tile of an edge block the output block is its block of the carried rows. -/
theorem flushed4_eq (c : Dev nD) (t : Fin cfg4.N) (hf : (cfg4.win 3).flush t = true) :
    (dat4 (F := Ideal) V c).flushed 3 t = ((cfg4.win 3).blk t).view.read (Elt Ideal)
      (Cert.Spec.toMat (Cert.Spec.carried (Cert.Spec.lin (V c (Pipeline.arrRef spec4 0)) (V c (Pipeline.arrRef spec4 1))) (V c (Pipeline.arrRef spec4 2)))) := by
  have hl : t.val % 25 = 24 := (flush4_3 t).mp hf
  have ht : t.val < 5000 := N_4 ▸ t.isLt
  obtain ⟨-, -, -, -, -, -, ea, eb, -⟩ := gvIdx t
  show (cfg4.win 3).cut (grid4.coords t) ((dat4 (F := Ideal) V c).after 3 t) = _
  rw [after4_3]
  funext j
  have hp : (j 0).val < 3200 := (j 0).isLt
  have hq : (j 1).val < 128 := (j 1).isLt
  have he : t.val / 25 * 3200 + (j 0).val < 640000 := by omega
  have ex : (cfg4.win 3).xinj (grid4.coords t) j = ix2 ⟨(j 0).val, hp⟩ ⟨(j 1).val, hq⟩ := Shape.idx_ext₂ rfl rfl
  have ey : ((cfg4.win 3).blk t).view.emb j = ix2 ⟨t.val / 25 * 3200 + (j 0).val, he⟩ ⟨(j 1).val, hq⟩ := Shape.idx_ext₂
    (show cc2_transform_3 (grid2.coords t) 0 * 3200 + 1 * (j 0).val = t.val / 25 * 3200 + (j 0).val by omega)
    (show cc2_transform_3 (grid2.coords t) 1 * 128 + 1 * (j 1).val = (j 1).val by omega)
  show acc4 V c t.val t.isLt ((cfg4.win 3).xinj (grid4.coords t) j)
    = Cert.Spec.toMat (Cert.Spec.carried (Cert.Spec.lin (V c (Pipeline.arrRef spec4 0)) (V c (Pipeline.arrRef spec4 1))) (V c (Pipeline.arrRef spec4 2))) (((cfg4.win 3).blk t).view.emb j)
  rw [ex, ey]
  exact gvLast (acc := acc4 V c) (reads4 V c) (acc4_first V c) (acc4_next V c) t.val t.isLt hl _ _ he

/-- Every output row lies in the block of its edge block's last node tile. -/
theorem cover4 (i : S640000x128.Idx) :
    ∃ t : Fin cfg4.N, (cfg4.win 3).flush t = true ∧ i ∈ ((cfg4.win 3).blk t).view.set := by
  obtain ⟨t, h24, hlo, hhi⟩ := gvCover (i 0).val (i 0).isLt
  obtain ⟨-, -, -, -, -, -, ea, eb, -⟩ := gvIdx t
  have hq : (i 1).val < 128 := (i 1).isLt
  refine ⟨t, (flush4_3 t).mpr h24, ?_⟩
  show i ∈ ((View.whole (Pipeline.arrRef spec4 3)).slice (win4_3.rect t)).set
  rw [View.set_slice_whole, Rect.mem_set_unit]
  intro a
  match a with
  | ⟨0, _⟩ =>
    show cc2_transform_3 (grid2.coords t) 0 * 3200 ≤ (i 0).val ∧ (i 0).val < cc2_transform_3 (grid2.coords t) 0 * 3200 + 3200
    omega
  | ⟨1, _⟩ =>
    show cc2_transform_3 (grid2.coords t) 1 * 128 ≤ (i 1).val ∧ (i 1).val < cc2_transform_3 (grid2.coords t) 1 * 128 + 128
    omega

theorem gathered4 (c : Dev nD) :
    (dat4 (F := Ideal) V c).arrAt 3 cfg4.N
      = Cert.Spec.toMat (Cert.Spec.carried (Cert.Spec.lin (V c (Pipeline.arrRef spec4 0)) (V c (Pipeline.arrRef spec4 1))) (V c (Pipeline.arrRef spec4 2))) :=
  (dat4 (F := Ideal) V c).arrAt_eq_of_cover 3 _ (flushed4_eq V c) cover4

end Cert.KernelIdeal.Hand

end
-- ==== Proof.KI.VS5.lean ====
import proofs.«422636_j31413390803462_1_alg».proof.Proof.KI.S5
import proofs.«422636_j31413390803462_1_alg».proof.Proof.KI.ScatterValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

-- the launch's blocks are blocks of its windows' arrays, so its output array ends as the layer's value on them
theorem layerOut5 (c : Dev nD) :
    (dat5 (F := Ideal) V c).arrAt 3 cfg5.N
      = Cert.Spec.toMat (Cert.Spec.unitRelu (Cert.Spec.received (Cert.Spec.ofMat (V c (Pipeline.arrRef spec5 1))) (V c (Pipeline.arrRef spec5 0)))
          (Cert.Spec.rowVec (V c (Pipeline.arrRef spec5 2)))) :=
  (dat5 (F := Ideal) V c).arrAt_eq_of_cover 3 _
    (scFlushed (acc5 V c) (dblk5 V c) (gblk5 V c) _ _ (acc5_first V c) (acc5_next V c)
      (fun t e => congrArg (V c (Pipeline.arrRef spec5 0)) (scEmb0 t e))
      (fun t e q => congrArg (V c (Pipeline.arrRef spec5 1)) (scEmb1 t e q))
      (bblk5 V c) _ (fun t k => congrArg (V c (Pipeline.arrRef spec5 2)) (scEmb2 t k)))
    scCover

end Cert.KernelIdeal.Hand

end
-- ==== Proof.KI.VG6.lean ====
import proofs.«422636_j31413390803462_1_alg».proof.Proof.KI.G6
import proofs.«422636_j31413390803462_1_alg».proof.Proof.KI.GatherValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The three input blocks of a point read the launch's arrays where the index maps say. -/
theorem reads6 (c : Dev nD) (t : Fin cfg6.N) :
    gvReads (V c (Pipeline.arrRef spec6 0)) (V c (Pipeline.arrRef spec6 1)) (V c (Pipeline.arrRef spec6 2)) t.val (xblk6 V c t) (wblk6 V c t) (sblk6 V c t) := by
  obtain ⟨e0, e1, e2, e3, e4, e5, -⟩ := gvIdx t
  refine ⟨fun r k hr => ?_, fun k q => ?_, fun p hp => ?_⟩
  · show V c (Pipeline.arrRef spec6 0) (((cfg6.win 0).blk t).view.emb (ix2 r k)) = _
    exact congrArg _ (Shape.idx_ext₂
      (show cc2_transform_0 (grid2.coords t) 0 * 2000 + 1 * r.val = t.val % 25 * 2000 + r.val by omega)
      (show cc2_transform_0 (grid2.coords t) 1 * 128 + 1 * k.val = k.val by omega))
  · show V c (Pipeline.arrRef spec6 1) (((cfg6.win 1).blk t).view.emb (ix2 k q)) = _
    exact congrArg _ (Shape.idx_ext₂
      (show cc2_transform_1 (grid2.coords t) 0 * 128 + 1 * k.val = k.val by omega)
      (show cc2_transform_1 (grid2.coords t) 1 * 128 + 1 * q.val = q.val by omega))
  · show V c (Pipeline.arrRef spec6 2) (((cfg6.win 2).blk t).view.emb (ix2 0 p)) = _
    exact congrArg _ (Shape.idx_ext₂
      (show cc2_transform_2 (grid2.coords t) 0 * 1 + 1 * (0 : Fin 1).val = (0 : Fin 1).val by rw [e4]; rfl)
      (show cc2_transform_2 (grid2.coords t) 1 * 3200 + 1 * p.val = t.val / 25 * 3200 + p.val by omega))

set_option maxRecDepth 65536 in
/-- At the last node tile of an edge block the output block is its block of the carried rows. -/
theorem flushed6_eq (c : Dev nD) (t : Fin cfg6.N) (hf : (cfg6.win 3).flush t = true) :
    (dat6 (F := Ideal) V c).flushed 3 t = ((cfg6.win 3).blk t).view.read (Elt Ideal)
      (Cert.Spec.toMat (Cert.Spec.carried (Cert.Spec.lin (V c (Pipeline.arrRef spec6 0)) (V c (Pipeline.arrRef spec6 1))) (V c (Pipeline.arrRef spec6 2)))) := by
  have hl : t.val % 25 = 24 := (flush6_3 t).mp hf
  have ht : t.val < 5000 := N_6 ▸ t.isLt
  obtain ⟨-, -, -, -, -, -, ea, eb, -⟩ := gvIdx t
  show (cfg6.win 3).cut (grid6.coords t) ((dat6 (F := Ideal) V c).after 3 t) = _
  rw [after6_3]
  funext j
  have hp : (j 0).val < 3200 := (j 0).isLt
  have hq : (j 1).val < 128 := (j 1).isLt
  have he : t.val / 25 * 3200 + (j 0).val < 640000 := by omega
  have ex : (cfg6.win 3).xinj (grid6.coords t) j = ix2 ⟨(j 0).val, hp⟩ ⟨(j 1).val, hq⟩ := Shape.idx_ext₂ rfl rfl
  have ey : ((cfg6.win 3).blk t).view.emb j = ix2 ⟨t.val / 25 * 3200 + (j 0).val, he⟩ ⟨(j 1).val, hq⟩ := Shape.idx_ext₂
    (show cc2_transform_3 (grid2.coords t) 0 * 3200 + 1 * (j 0).val = t.val / 25 * 3200 + (j 0).val by omega)
    (show cc2_transform_3 (grid2.coords t) 1 * 128 + 1 * (j 1).val = (j 1).val by omega)
  show acc6 V c t.val t.isLt ((cfg6.win 3).xinj (grid6.coords t) j)
    = Cert.Spec.toMat (Cert.Spec.carried (Cert.Spec.lin (V c (Pipeline.arrRef spec6 0)) (V c (Pipeline.arrRef spec6 1))) (V c (Pipeline.arrRef spec6 2))) (((cfg6.win 3).blk t).view.emb j)
  rw [ex, ey]
  exact gvLast (acc := acc6 V c) (reads6 V c) (acc6_first V c) (acc6_next V c) t.val t.isLt hl _ _ he

/-- Every output row lies in the block of its edge block's last node tile. -/
theorem cover6 (i : S640000x128.Idx) :
    ∃ t : Fin cfg6.N, (cfg6.win 3).flush t = true ∧ i ∈ ((cfg6.win 3).blk t).view.set := by
  obtain ⟨t, h24, hlo, hhi⟩ := gvCover (i 0).val (i 0).isLt
  obtain ⟨-, -, -, -, -, -, ea, eb, -⟩ := gvIdx t
  have hq : (i 1).val < 128 := (i 1).isLt
  refine ⟨t, (flush6_3 t).mpr h24, ?_⟩
  show i ∈ ((View.whole (Pipeline.arrRef spec6 3)).slice (win6_3.rect t)).set
  rw [View.set_slice_whole, Rect.mem_set_unit]
  intro a
  match a with
  | ⟨0, _⟩ =>
    show cc2_transform_3 (grid2.coords t) 0 * 3200 ≤ (i 0).val ∧ (i 0).val < cc2_transform_3 (grid2.coords t) 0 * 3200 + 3200
    omega
  | ⟨1, _⟩ =>
    show cc2_transform_3 (grid2.coords t) 1 * 128 ≤ (i 1).val ∧ (i 1).val < cc2_transform_3 (grid2.coords t) 1 * 128 + 128
    omega

theorem gathered6 (c : Dev nD) :
    (dat6 (F := Ideal) V c).arrAt 3 cfg6.N
      = Cert.Spec.toMat (Cert.Spec.carried (Cert.Spec.lin (V c (Pipeline.arrRef spec6 0)) (V c (Pipeline.arrRef spec6 1))) (V c (Pipeline.arrRef spec6 2))) :=
  (dat6 (F := Ideal) V c).arrAt_eq_of_cover 3 _ (flushed6_eq V c) cover6

end Cert.KernelIdeal.Hand

end
-- ==== Proof.KI.VS7.lean ====
import proofs.«422636_j31413390803462_1_alg».proof.Proof.KI.S7
import proofs.«422636_j31413390803462_1_alg».proof.Proof.KI.ScatterValue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

-- the launch's blocks are blocks of its windows' arrays, so its output array ends as the layer's value on them
theorem layerOut7 (c : Dev nD) :
    (dat7 (F := Ideal) V c).arrAt 3 cfg7.N
      = Cert.Spec.toMat (Cert.Spec.unitRelu (Cert.Spec.received (Cert.Spec.ofMat (V c (Pipeline.arrRef spec7 1))) (V c (Pipeline.arrRef spec7 0)))
          (Cert.Spec.rowVec (V c (Pipeline.arrRef spec7 2)))) :=
  (dat7 (F := Ideal) V c).arrAt_eq_of_cover 3 _
    (scFlushed (acc7 V c) (dblk7 V c) (gblk7 V c) _ _ (acc7_first V c) (acc7_next V c)
      (fun t e => congrArg (V c (Pipeline.arrRef spec7 0)) (scEmb0 t e))
      (fun t e q => congrArg (V c (Pipeline.arrRef spec7 1)) (scEmb1 t e q))
      (bblk7 V c) _ (fun t k => congrArg (V c (Pipeline.arrRef spec7 2)) (scEmb2 t k)))
    scCover

end Cert.KernelIdeal.Hand

end
-- ==== Proof.KI.VF8.lean ====
import proofs.«422636_j31413390803462_1_alg».proof.Proof.KI.F8
import proofs.«422636_j31413390803462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem lhs8_0 (i : S5000x40.Idx) (r : dot_S5000x128_S128x40_S5000x40_1_0_0_1_n_n.contr.Idx) :
    (dot_S5000x128_S128x40_S5000x40_1_0_0_1_n_n.lhsIdx i r 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs8_1 (i : S5000x40.Idx) (r : dot_S5000x128_S128x40_S5000x40_1_0_0_1_n_n.contr.Idx) :
    (dot_S5000x128_S128x40_S5000x40_1_0_0_1_n_n.lhsIdx i r 1).val = (r ⟨0, by decide⟩).val :=
  dot_S5000x128_S128x40_S5000x40_1_0_0_1_n_n.lhsIdx_val_of_single rfl i r
theorem rhs8_0 (i : S5000x40.Idx) (r : dot_S5000x128_S128x40_S5000x40_1_0_0_1_n_n.contr.Idx) :
    (dot_S5000x128_S128x40_S5000x40_1_0_0_1_n_n.rhsIdx i r 0).val = (r ⟨0, by decide⟩).val :=
  dot_S5000x128_S128x40_S5000x40_1_0_0_1_n_n.rhsIdx_val_of_single rfl i r
theorem rhs8_1 (i : S5000x40.Idx) (r : dot_S5000x128_S128x40_S5000x40_1_0_0_1_n_n.contr.Idx) :
    (dot_S5000x128_S128x40_S5000x40_1_0_0_1_n_n.rhsIdx i r 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

theorem prod8_apply (a : FVec Ideal S5000x128 .bf16) (b : FVec Ideal S128x40 .bf16) (p : Fin 5000) (q : Fin 40) :
    matmul dot_S5000x128_S128x40_S5000x40_1_0_0_1_n_n none a b (constant (F := Ideal) S5000x40 .f32 0x00000000#32) (ix2 p q)
      = ∑ k : Fin 128, a (ix2 p k) * b (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs8_0 _ _
    | ⟨1, _⟩ => exact (lhs8_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs8_0 _ _).trans hk
    | ⟨1, _⟩ => exact rhs8_1 _ _)
  rw [el, er]

theorem col8_apply (v : FVec Ideal S5000 .f32) (p : Fin 5000) (q : Fin 40) :
    broadcastTo S5000x40 (shapeCast S5000x1 v shapeCasts_S5000_S5000x1) broadcasts_S5000x1_S5000x40 (ix2 p q) = v (ix1 p) := by
  refine (broadcastTo_apply _ broadcasts_S5000x1_S5000x40 (ix2 p q) (ix2 p (0 : Fin 1)) fun a => ?_).trans
    (shapeCast_apply v shapeCasts_S5000_S5000x1 (ix2 p (0 : Fin 1)) (ix1 p) ?_)
  · match a with
    | ⟨0, _⟩ => rfl
    | ⟨1, _⟩ => rfl
  · rw [Shape.rowMajor_val_one, Shape.rowMajor_val_two]
    show p.val = p.val * 1 + 0
    omega

theorem rowMax8_apply (s : FVec Ideal S5000x40 .f32) (hf : FKind.Formats .f32)
    (hacc : (0xFF800000#32 : BitVec FTy.f32.bits) = 0xFF800000#32) (p : Fin 5000) :
    multiReduction (F := Ideal) .maximumf [1] S5000 s 0xFF800000#32 reduces_S5000x40_S5000 hf hacc (ix1 p)
      = (Finset.univ : Finset (Fin 40)).fold max (Ideal.ofBits .f32 0xFF800000#32) (fun k => s (ix2 p k)) := by
  refine (Ideal.multiReduction_maximumf_single s 0xFF800000#32 reduces_S5000x40_S5000 hf hacc (ix1 p)).trans ?_
  have e : (s ∘ reduces_S5000x40_S5000.lift (ix1 p)) = fun k : Fin 40 => s (ix2 p k) :=
    funext fun k => congrArg s (funext fun a => Fin.ext (by
      match a with
      | ⟨0, _⟩ => rfl
      | ⟨1, _⟩ => rfl))
  rw [e]
  rfl

theorem rowSum8_apply (s : FVec Ideal S5000x40 .f32) (hf : FKind.Formats .f32)
    (hacc : (0x00000000#32 : BitVec FTy.f32.bits) = 0x00000000#32) (p : Fin 5000) :
    multiReduction (F := Ideal) .add [1] S5000 s 0x00000000#32 reduces_S5000x40_S5000 hf hacc (ix1 p)
      = ∑ k : Fin 40, s (ix2 p k) := by
  refine (Ideal.multiReduction_add_single s 0x00000000#32 reduces_S5000x40_S5000 hf hacc (ix1 p)).trans ?_
  refine Finset.sum_congr rfl fun k _ => congrArg s (funext fun a => Fin.ext (by
    match a with
    | ⟨0, _⟩ => rfl
    | ⟨1, _⟩ => rfl))

theorem exp8_apply (s : FVec Ideal S5000x40 .f32) (i : S5000x40.Idx) : exp s i = Ideal.exp (s i) := rfl

theorem score8_apply (x0 : Vec Ideal S5000x128 .f32) (x1 : Vec Ideal S128x40 .f32) (x2 : Vec Ideal S1x40 .f32) (p : Fin 5000) (q : Fin 40) :
    k8_pay1 x0 x1 x2 (ix2 p q) = (∑ k : Fin 128, x0 (ix2 p k) * x1 (ix2 k q)) + x2 (ix2 (0 : Fin 1) q) := by
  unfold k8_pay1
  simp only [shapeCast_self, addf_apply, prod8_apply, broadcastTo_1b_ab_apply, truncf_apply]

theorem soft8_apply (x0 : Vec Ideal S5000x128 .f32) (x1 : Vec Ideal S128x40 .f32) (x2 : Vec Ideal S1x40 .f32)
    (L : Fin 5000 → Fin 40 → EReal) (hL : ∀ p q, k8_pay1 x0 x1 x2 (ix2 p q) = L p q) (p : Fin 5000) (q : Fin 40) :
    k8_pay2 x0 x1 x2 (ix2 p q)
      = Ideal.div (Ideal.exp (L p q - (Finset.univ : Finset (Fin 40)).fold max (Ideal.ofBits .f32 0xFF800000#32) (L p)))
          (∑ k : Fin 40, Ideal.exp (L p k - (Finset.univ : Finset (Fin 40)).fold max (Ideal.ofBits .f32 0xFF800000#32) (L p))) := by
  unfold k8_pay2
  simp only [divf_apply, exp8_apply, subf_apply, col8_apply, hL]
  rw [rowSum8_apply _ _ _ p]
  simp only [exp8_apply, subf_apply, col8_apply, hL]
  rw [rowMax8_apply (k8_pay1 x0 x1 x2) _ _ p]
  simp only [hL]

theorem idx8_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

def row8 (t : Fin cfg8.N) (p : Fin 5000) : Fin 50000 :=
  ⟨t.val * 5000 + p.val, by have := t.isLt; have hN : cfg8.N = 10 := N_8; have := p.isLt; omega⟩

abbrev feat8 (c : Dev nD) : Cert.Spec.Mat 50000 128 := V c (Pipeline.arrRef spec8 0)
abbrev wgt8 (c : Dev nD) : Cert.Spec.Mat 128 40 := V c (Pipeline.arrRef spec8 1)
abbrev bias8 (c : Dev nD) : Cert.Spec.Mat 1 40 := V c (Pipeline.arrRef spec8 2)

theorem xblk8_apply (c : Dev nD) (t : Fin cfg8.N) (p : Fin 5000) (k : Fin 128) :
    xblk8 V c t (ix2 p k) = feat8 V c (ix2 (row8 t p) k) := by
  obtain ⟨e0, e1, -⟩ := idx8_facts t
  show V c (Pipeline.arrRef spec8 0) (((cfg8.win 0).blk t).view.emb (ix2 p k)) = V c (Pipeline.arrRef spec8 0) (ix2 (row8 t p) k)
  refine congrArg _ (funext fun a => Fin.ext ?_)
  match a with
  | ⟨0, _⟩ => show win8_0.index t (0 : Fin 2) * 5000 + 1 * p.val = t.val * 5000 + p.val; omega
  | ⟨1, _⟩ => show win8_0.index t (1 : Fin 2) * 128 + 1 * k.val = k.val; omega

theorem wblk8_apply (c : Dev nD) (t : Fin cfg8.N) (k : Fin 128) (q : Fin 40) :
    wblk8 V c t (ix2 k q) = wgt8 V c (ix2 k q) := by
  obtain ⟨-, -, e0, e1, -⟩ := idx8_facts t
  show V c (Pipeline.arrRef spec8 1) (((cfg8.win 1).blk t).view.emb (ix2 k q)) = V c (Pipeline.arrRef spec8 1) (ix2 k q)
  refine congrArg _ (funext fun a => Fin.ext ?_)
  match a with
  | ⟨0, _⟩ => show win8_1.index t (0 : Fin 2) * 128 + 1 * k.val = k.val; omega
  | ⟨1, _⟩ => show win8_1.index t (1 : Fin 2) * 40 + 1 * q.val = q.val; omega

theorem bblk8_apply (c : Dev nD) (t : Fin cfg8.N) (q : Fin 40) :
    bblk8 V c t (ix2 (0 : Fin 1) q) = bias8 V c (ix2 (0 : Fin 1) q) := by
  obtain ⟨-, -, -, -, e0, e1, -⟩ := idx8_facts t
  show V c (Pipeline.arrRef spec8 2) (((cfg8.win 2).blk t).view.emb (ix2 (0 : Fin 1) q)) = V c (Pipeline.arrRef spec8 2) (ix2 (0 : Fin 1) q)
  refine congrArg _ (funext fun a => Fin.ext ?_)
  match a with
  | ⟨0, _⟩ => show win8_2.index t (0 : Fin 2) * 1 + 1 * 0 = 0; omega
  | ⟨1, _⟩ => show win8_2.index t (1 : Fin 2) * 40 + 1 * q.val = q.val; omega

theorem scoreBlk8 (c : Dev nD) (t : Fin cfg8.N) (p : Fin 5000) (q : Fin 40) :
    k8_pay1 (xblk8 V c t) (wblk8 V c t) (bblk8 V c t) (ix2 p q)
      = Cert.Spec.score (feat8 V c) (wgt8 V c) (Cert.Spec.rowVec (bias8 V c)) (row8 t p) q := by
  refine (score8_apply _ _ _ p q).trans ?_
  unfold Cert.Spec.score Cert.Spec.rowVec
  refine congr (congrArg HAdd.hAdd (Finset.sum_congr rfl fun k _ => ?_)) (bblk8_apply V c t q)
  rw [xblk8_apply V c t p k, wblk8_apply V c t k q]

theorem softBlk8 (c : Dev nD) (t : Fin cfg8.N) (p : Fin 5000) (q : Fin 40) :
    k8_pay2 (xblk8 V c t) (wblk8 V c t) (bblk8 V c t) (ix2 p q)
      = Cert.Spec.softmax (Cert.Spec.score (feat8 V c) (wgt8 V c) (Cert.Spec.rowVec (bias8 V c))) (row8 t p) q :=
  soft8_apply _ _ _ (fun p' q' => Cert.Spec.score (feat8 V c) (wgt8 V c) (Cert.Spec.rowVec (bias8 V c)) (row8 t p') q')
    (fun p' q' => scoreBlk8 V c t p' q') p q

theorem emb8_3 (t : Fin cfg8.N) (p : Fin 5000) (q : Fin 40) :
    ((cfg8.win 3).blk t).view.emb (ix2 p q) = ix2 (row8 t p) q := by
  obtain ⟨-, -, -, -, -, -, e0, e1, -⟩ := idx8_facts t
  refine funext fun a => Fin.ext ?_
  match a with
  | ⟨0, _⟩ => show win8_3.index t (0 : Fin 2) * 5000 + 1 * p.val = t.val * 5000 + p.val; omega
  | ⟨1, _⟩ => show win8_3.index t (1 : Fin 2) * 40 + 1 * q.val = q.val; omega
theorem emb8_4 (t : Fin cfg8.N) (p : Fin 5000) (q : Fin 40) :
    ((cfg8.win 4).blk t).view.emb (ix2 p q) = ix2 (row8 t p) q := by
  obtain ⟨-, -, -, -, -, -, -, -, e0, e1⟩ := idx8_facts t
  refine funext fun a => Fin.ext ?_
  match a with
  | ⟨0, _⟩ => show win8_4.index t (0 : Fin 2) * 5000 + 1 * p.val = t.val * 5000 + p.val; omega
  | ⟨1, _⟩ => show win8_4.index t (1 : Fin 2) * 40 + 1 * q.val = q.val; omega

theorem flushed8_3 (c : Dev nD) (t : Fin cfg8.N) :
    (dat8 (F := Ideal) V c).flushed 3 t
      = ((cfg8.win 3).blk t).view.read (Elt Ideal) (Cert.Spec.scores (feat8 V c) (wgt8 V c) (Cert.Spec.rowVec (bias8 V c))) := by
  show (cfg8.win 3).cut (grid8.coords t) ((dat8 (F := Ideal) V c).after 3 t) = _
  rw [after8_3]
  funext j
  obtain ⟨p, q, rfl⟩ : ∃ (p : Fin 5000) (q : Fin 40), j = ix2 p q := ⟨j 0, j 1, eq_ix2 j⟩
  show k8_pay1 (xblk8 V c t) (wblk8 V c t) (bblk8 V c t) (ix2 p q)
    = Cert.Spec.scores (feat8 V c) (wgt8 V c) (Cert.Spec.rowVec (bias8 V c)) (((cfg8.win 3).blk t).view.emb (ix2 p q))
  rw [emb8_3 t p q]
  exact scoreBlk8 V c t p q

theorem flushed8_4 (c : Dev nD) (t : Fin cfg8.N) :
    (dat8 (F := Ideal) V c).flushed 4 t
      = ((cfg8.win 4).blk t).view.read (Elt Ideal) (Cert.Spec.probs (feat8 V c) (wgt8 V c) (Cert.Spec.rowVec (bias8 V c))) := by
  show (cfg8.win 4).cut (grid8.coords t) ((dat8 (F := Ideal) V c).after 4 t) = _
  rw [after8_4]
  funext j
  obtain ⟨p, q, rfl⟩ : ∃ (p : Fin 5000) (q : Fin 40), j = ix2 p q := ⟨j 0, j 1, eq_ix2 j⟩
  show k8_pay2 (xblk8 V c t) (wblk8 V c t) (bblk8 V c t) (ix2 p q)
    = Cert.Spec.probs (feat8 V c) (wgt8 V c) (Cert.Spec.rowVec (bias8 V c)) (((cfg8.win 4).blk t).view.emb (ix2 p q))
  rw [emb8_4 t p q]
  exact softBlk8 V c t p q

theorem mem8_3 (t : Fin cfg8.N) (i : S50000x40.Idx) :
    i ∈ ((cfg8.win 3).blk t).view.set
      ↔ ∀ a : Fin 2, win8_3.index t a * S5000x40.size a ≤ (i a).val ∧ (i a).val < win8_3.index t a * S5000x40.size a + S5000x40.size a := by
  show i ∈ ((View.whole (Pipeline.arrRef spec8 3)).slice (win8_3.rect t)).set ↔ _
  rw [View.set_slice_whole, Rect.mem_set_unit]
  exact Iff.rfl
theorem mem8_4 (t : Fin cfg8.N) (i : S50000x40.Idx) :
    i ∈ ((cfg8.win 4).blk t).view.set
      ↔ ∀ a : Fin 2, win8_4.index t a * S5000x40.size a ≤ (i a).val ∧ (i a).val < win8_4.index t a * S5000x40.size a + S5000x40.size a := by
  show i ∈ ((View.whole (Pipeline.arrRef spec8 4)).slice (win8_4.rect t)).set ↔ _
  rw [View.set_slice_whole, Rect.mem_set_unit]
  exact Iff.rfl

theorem covered8_3 (i : S50000x40.Idx) : ∃ t : Fin cfg8.N, (cfg8.win 3).flush t = true ∧ i ∈ ((cfg8.win 3).blk t).view.set := by
  have hN : cfg8.N = 10 := N_8
  have h0 : (i 0).val < 50000 := (i 0).isLt
  have h1 : (i 1).val < 40 := (i 1).isLt
  obtain ⟨t, ht⟩ : ∃ t : Fin cfg8.N, t.val = (i 0).val / 5000 := ⟨⟨(i 0).val / 5000, by omega⟩, rfl⟩
  obtain ⟨-, -, -, -, -, -, e0, e1, -⟩ := idx8_facts t
  refine ⟨t, flush8_3 t, ?_⟩
  rw [mem8_3]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 40 ≤ (i 1).val ∧ (i 1).val < win8_3.index t (1 : Fin 2) * 40 + 40; omega
theorem covered8_4 (i : S50000x40.Idx) : ∃ t : Fin cfg8.N, (cfg8.win 4).flush t = true ∧ i ∈ ((cfg8.win 4).blk t).view.set := by
  have hN : cfg8.N = 10 := N_8
  have h0 : (i 0).val < 50000 := (i 0).isLt
  have h1 : (i 1).val < 40 := (i 1).isLt
  obtain ⟨t, ht⟩ : ∃ t : Fin cfg8.N, t.val = (i 0).val / 5000 := ⟨⟨(i 0).val / 5000, by omega⟩, rfl⟩
  obtain ⟨-, -, -, -, -, -, -, -, e0, e1⟩ := idx8_facts t
  refine ⟨t, flush8_4 t, ?_⟩
  rw [mem8_4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 40 ≤ (i 1).val ∧ (i 1).val < win8_4.index t (1 : Fin 2) * 40 + 40; omega

theorem scores8 (c : Dev nD) :
    (dat8 (F := Ideal) V c).arrAt 3 cfg8.N
      = Cert.Spec.scores (V c (Pipeline.arrRef spec8 0)) (V c (Pipeline.arrRef spec8 1)) (Cert.Spec.rowVec (V c (Pipeline.arrRef spec8 2))) :=
  (dat8 (F := Ideal) V c).arrAt_eq_of_cover 3 (Cert.Spec.scores (feat8 V c) (wgt8 V c) (Cert.Spec.rowVec (bias8 V c)))
    (fun t _ => flushed8_3 V c t) covered8_3

theorem probs8 (c : Dev nD) :
    (dat8 (F := Ideal) V c).arrAt 4 cfg8.N
      = Cert.Spec.probs (V c (Pipeline.arrRef spec8 0)) (V c (Pipeline.arrRef spec8 1)) (Cert.Spec.rowVec (V c (Pipeline.arrRef spec8 2))) :=
  (dat8 (F := Ideal) V c).arrAt_eq_of_cover 4 (Cert.Spec.probs (feat8 V c) (wgt8 V c) (Cert.Spec.rowVec (bias8 V c)))
    (fun t _ => flushed8_4 V c t) covered8_4

end Cert.KernelIdeal.Hand

end
-- ==== Proof.KI.KValue.lean ====
import proofs.«422636_j31413390803462_1_alg».proof.Proof.KI.Keep
import proofs.«422636_j31413390803462_1_alg».proof.Proof.KI.VG0
import proofs.«422636_j31413390803462_1_alg».proof.Proof.KI.VS1
import proofs.«422636_j31413390803462_1_alg».proof.Proof.KI.VG2
import proofs.«422636_j31413390803462_1_alg».proof.Proof.KI.VS3
import proofs.«422636_j31413390803462_1_alg».proof.Proof.KI.VG4
import proofs.«422636_j31413390803462_1_alg».proof.Proof.KI.VS5
import proofs.«422636_j31413390803462_1_alg».proof.Proof.KI.VG6
import proofs.«422636_j31413390803462_1_alg».proof.Proof.KI.VS7
import proofs.«422636_j31413390803462_1_alg».proof.Proof.KI.VF8
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

open Idealize.ShloMosaic.ValueIdx

theorem kvRowOfSlice (ei : (⟨2, ![2, 640000]⟩ : Shape).Idx → BitVec 32) (r : Fin 2) (off : Fin 2 → ℕ) (hoff : off = ![r.val, 0])
    (hs : S2x640000.Slices off S1x640000) (j : S1x640000.Idx) :
    shapeCast S1x640000 (shapeCast S640000 (extractStridedSlice S1x640000 off ei hs) shapeCasts_S1x640000_S640000)
      shapeCasts_S640000_S1x640000 j = ei (ix2 r (j 1)) := by
  subst hoff
  have hj : (j 0).val < 1 := idx2_lt0 j
  refine (shapeCast_apply _ _ j (ix1 (j 1)) ?_).trans ?_
  · rw [Shape.rowMajor_val_one, Shape.rowMajor_val_two]
    show (j 1).val = (j 0).val * 640000 + (j 1).val
    omega
  refine (shapeCast_apply _ _ (ix1 (j 1)) (ix2 (0 : Fin 1) (j 1)) ?_).trans ?_
  · rw [Shape.rowMajor_val_one, Shape.rowMajor_val_two]
    show 0 * 640000 + (j 1).val = (j 1).val
    omega
  exact extractStridedSlice_apply _ ei hs (ix2 (0 : Fin 1) (j 1)) (ix2 r (j 1)) fun a =>
    match a with
    | ⟨0, _⟩ => by show r.val = r.val + 0; omega
    | ⟨1, _⟩ => by show (j 1).val = 0 + (j 1).val; omega

theorem kvRow0_of_ops (ei : (⟨2, ![2, 640000]⟩ : Shape).Idx → BitVec 32) :
    shapeCast S1x640000 (shapeCast S640000 (extractStridedSlice S1x640000 ![0, 0] ei slices_S2x640000_S1x640000_0_0)
      shapeCasts_S1x640000_S640000) shapeCasts_S640000_S1x640000 = Cert.Spec.row0 ei :=
  funext fun j => kvRowOfSlice ei 0 _ rfl _ j

theorem kvRow1_of_ops (ei : (⟨2, ![2, 640000]⟩ : Shape).Idx → BitVec 32) :
    shapeCast S1x640000 (shapeCast S640000 (extractStridedSlice S1x640000 ![1, 0] ei slices_S2x640000_S1x640000_1_0)
      shapeCasts_S1x640000_S640000) shapeCasts_S640000_S1x640000 = Cert.Spec.row1 ei :=
  funext fun j => kvRowOfSlice ei 1 _ rfl _ j

theorem kvRowVec_of_reshape {n : ℕ} (b : (⟨1, ![n]⟩ : Shape).Idx → EReal)
    (h : (⟨1, ![n]⟩ : Shape).ShapeCasts (⟨2, ![1, n]⟩ : Shape)) :
    Cert.Spec.rowVec (shapeCast (⟨2, ![1, n]⟩ : Shape) b h) = Cert.Spec.vec b := by
  funext d
  refine shapeCast_apply b h (ix2 (0 : Fin 1) d) (ix1 d) ?_
  rw [Shape.rowMajor_val_one, Shape.rowMajor_val_two]
  show d.val = 0 * n + d.val
  omega

theorem kvOfMat_toMat {r c : ℕ} (f : Fin r → Fin c → EReal) : Cert.Spec.ofMat (Cert.Spec.toMat f) = f := rfl

theorem kvCarried_congr {x x' : Cert.Spec.Mat 50000 128} {W W' : Cert.Spec.Mat 128 128} {s s' : Cert.Spec.IRow 640000}
    (hx : x = x') (hW : W = W') (hs : s = s') :
    Cert.Spec.toMat (Cert.Spec.carried (Cert.Spec.lin x W) s) = Cert.Spec.toMat (Cert.Spec.carried (Cert.Spec.lin x' W') s') := by
  subst hx hW hs; rfl

theorem kvLayer_of_parts {g : Cert.Spec.Mat 640000 128} {x : Cert.Spec.Mat 50000 128} {W : Cert.Spec.Mat 128 128}
    {s d d' : Cert.Spec.IRow 640000} {bm : Cert.Spec.Mat 1 128} {b : Fin 128 → EReal}
    (hg : g = Cert.Spec.toMat (Cert.Spec.carried (Cert.Spec.lin x W) s)) (hd : d' = d) (hb : Cert.Spec.rowVec bm = b) :
    Cert.Spec.toMat (Cert.Spec.unitRelu (Cert.Spec.received (Cert.Spec.ofMat g) d') (Cert.Spec.rowVec bm))
      = Cert.Spec.layer x W b s d := by
  subst hg hd hb
  rw [kvOfMat_toMat, Cert.Spec.layer]

theorem kvHead_congr (R : Cert.Spec.Mat 50000 128 → Cert.Spec.Mat 128 40 → (Fin 40 → EReal) → Cert.Spec.Mat 50000 40)
    {f f' : Cert.Spec.Mat 50000 128} {W W' : Cert.Spec.Mat 128 40} {bm : Cert.Spec.Mat 1 40} {b : Fin 40 → EReal}
    (hf : f = f') (hW : W = W') (hb : Cert.Spec.rowVec bm = b) : R f W (Cert.Spec.rowVec bm) = R f' W' b := by
  subst hf hW hb; rfl

variable (m : (ℓ : Loc nD τ sig) → Buf (Elt Ideal) ℓ)

abbrev feat4 (c : Dev nD) : Cert.Spec.Mat 50000 128 :=
  Cert.Spec.x4 (m ((c : Thread nD τ).loc main_arg0))
    (m ((c : Thread nD τ).loc main_arg2)) (m ((c : Thread nD τ).loc main_arg4)) (m ((c : Thread nD τ).loc main_arg6)) (m ((c : Thread nD τ).loc main_arg8))
    (Cert.Spec.vec (m ((c : Thread nD τ).loc main_arg3))) (Cert.Spec.vec (m ((c : Thread nD τ).loc main_arg5)))
    (Cert.Spec.vec (m ((c : Thread nD τ).loc main_arg7))) (Cert.Spec.vec (m ((c : Thread nD τ).loc main_arg9)))
    (Cert.Spec.row0 (m ((c : Thread nD τ).loc main_arg1))) (Cert.Spec.row1 (m ((c : Thread nD τ).loc main_arg1)))

abbrev kvSrc (c : Dev nD) : Cert.Spec.IRow 640000 := Cert.Spec.row0 (m ((c : Thread nD τ).loc main_arg1))
abbrev kvDst (c : Dev nD) : Cert.Spec.IRow 640000 := Cert.Spec.row1 (m ((c : Thread nD τ).loc main_arg1))

theorem kvSrc_eq (c : Dev nD) : (Win0 m c main_v2 : S1x640000.Idx → BitVec 32) = kvSrc m c := by
  refine Eq.trans ?_ (kvRow0_of_ops (m ((c : Thread nD τ).loc main_arg1)))
  show StableHlo.after hostOps0 (Wlaunch m c) (Proc.devRef .tc main_v2) = _
  after_results
  rfl

theorem kvDst_eq (c : Dev nD) : (Win0 m c main_v5 : S1x640000.Idx → BitVec 32) = kvDst m c := by
  refine Eq.trans ?_ (kvRow1_of_ops (m ((c : Thread nD τ).loc main_arg1)))
  show StableHlo.after hostOps0 (Wlaunch m c) (Proc.devRef .tc main_v5) = _
  after_results
  rfl

theorem kvBias1 (c : Dev nD) : Cert.Spec.rowVec (Win1 m c main_v7) = Cert.Spec.vec (m ((c : Thread nD τ).loc main_arg3)) := by
  have e : (Win1 m c main_v7 : S1x128.Idx → EReal) = shapeCast S1x128 (Wout0 m c main_arg3 : S128.Idx → EReal) shapeCasts_S128_S1x128 := by
    show StableHlo.after hostOps1 (Wout0 m c) (Proc.devRef .tc main_v7) = _
    after_results
    rfl
  refine (congrArg Cert.Spec.rowVec e).trans ?_
  refine (congrArg (fun b : S128.Idx → EReal => Cert.Spec.rowVec (shapeCast S1x128 b shapeCasts_S128_S1x128)) (hostIn1_arg3 m c)).trans ?_
  exact kvRowVec_of_reshape _ _

theorem kvBias3 (c : Dev nD) : Cert.Spec.rowVec (Win3 m c main_v10) = Cert.Spec.vec (m ((c : Thread nD τ).loc main_arg5)) := by
  have e : (Win3 m c main_v10 : S1x128.Idx → EReal) = shapeCast S1x128 (Wout2 m c main_arg5 : S128.Idx → EReal) shapeCasts_S128_S1x128 := by
    show StableHlo.after hostOps3 (Wout2 m c) (Proc.devRef .tc main_v10) = _
    after_results
    rfl
  refine (congrArg Cert.Spec.rowVec e).trans ?_
  refine (congrArg (fun b : S128.Idx → EReal => Cert.Spec.rowVec (shapeCast S1x128 b shapeCasts_S128_S1x128)) (hostIn3_arg5 m c)).trans ?_
  exact kvRowVec_of_reshape _ _

theorem kvBias5 (c : Dev nD) : Cert.Spec.rowVec (Win5 m c main_v13) = Cert.Spec.vec (m ((c : Thread nD τ).loc main_arg7)) := by
  have e : (Win5 m c main_v13 : S1x128.Idx → EReal) = shapeCast S1x128 (Wout4 m c main_arg7 : S128.Idx → EReal) shapeCasts_S128_S1x128 := by
    show StableHlo.after hostOps5 (Wout4 m c) (Proc.devRef .tc main_v13) = _
    after_results
    rfl
  refine (congrArg Cert.Spec.rowVec e).trans ?_
  refine (congrArg (fun b : S128.Idx → EReal => Cert.Spec.rowVec (shapeCast S1x128 b shapeCasts_S128_S1x128)) (hostIn5_arg7 m c)).trans ?_
  exact kvRowVec_of_reshape _ _

theorem kvBias7 (c : Dev nD) : Cert.Spec.rowVec (Win7 m c main_v16) = Cert.Spec.vec (m ((c : Thread nD τ).loc main_arg9)) := by
  have e : (Win7 m c main_v16 : S1x128.Idx → EReal) = shapeCast S1x128 (Wout6 m c main_arg9 : S128.Idx → EReal) shapeCasts_S128_S1x128 := by
    show StableHlo.after hostOps7 (Wout6 m c) (Proc.devRef .tc main_v16) = _
    after_results
    rfl
  refine (congrArg Cert.Spec.rowVec e).trans ?_
  refine (congrArg (fun b : S128.Idx → EReal => Cert.Spec.rowVec (shapeCast S1x128 b shapeCasts_S128_S1x128)) (hostIn7_arg9 m c)).trans ?_
  exact kvRowVec_of_reshape _ _

theorem kvBias8 (c : Dev nD) : Cert.Spec.rowVec (Win8 m c main_v18) = Cert.Spec.vec (m ((c : Thread nD τ).loc main_arg11)) := by
  have e : (Win8 m c main_v18 : S1x40.Idx → EReal) = shapeCast S1x40 (Wout7 m c main_arg11 : S40.Idx → EReal) shapeCasts_S40_S1x40 := by
    show StableHlo.after hostOps8 (Wout7 m c) (Proc.devRef .tc main_v18) = _
    after_results
    rfl
  refine (congrArg Cert.Spec.rowVec e).trans ?_
  refine (congrArg (fun b : S40.Idx → EReal => Cert.Spec.rowVec (shapeCast S1x40 b shapeCasts_S40_S1x40)) (hostIn8_arg11 m c)).trans ?_
  exact kvRowVec_of_reshape _ _

def kvFeat1 (c : Dev nD) : Cert.Spec.Mat 50000 128 :=
  Cert.Spec.layer (m ((c : Thread nD τ).loc main_arg0)) (m ((c : Thread nD τ).loc main_arg2)) (Cert.Spec.vec (m ((c : Thread nD τ).loc main_arg3))) (kvSrc m c) (kvDst m c)
def kvFeat2 (c : Dev nD) : Cert.Spec.Mat 50000 128 :=
  Cert.Spec.layer (kvFeat1 m c) (m ((c : Thread nD τ).loc main_arg4)) (Cert.Spec.vec (m ((c : Thread nD τ).loc main_arg5))) (kvSrc m c) (kvDst m c)
def kvFeat3 (c : Dev nD) : Cert.Spec.Mat 50000 128 :=
  Cert.Spec.layer (kvFeat2 m c) (m ((c : Thread nD τ).loc main_arg6)) (Cert.Spec.vec (m ((c : Thread nD τ).loc main_arg7))) (kvSrc m c) (kvDst m c)

theorem kvFeat4 (c : Dev nD) : feat4 m c
    = Cert.Spec.layer (kvFeat3 m c) (m ((c : Thread nD τ).loc main_arg8)) (Cert.Spec.vec (m ((c : Thread nD τ).loc main_arg9))) (kvSrc m c) (kvDst m c) := rfl

theorem kvGath0 (c : Dev nD) : (Wout0 m c main_v6 : Cert.Spec.Mat 640000 128)
    = Cert.Spec.toMat (Cert.Spec.carried (Cert.Spec.lin (m ((c : Thread nD τ).loc main_arg0)) (m ((c : Thread nD τ).loc main_arg2))) (kvSrc m c)) :=
  ((Wout0_arr m c 3).trans (gathered0 (Vin0 m) c)).trans
    (kvCarried_congr (keptAt0_arg0 m c) (keptAt0_arg2 m c) (kvSrc_eq m c))

theorem kvLay1 (c : Dev nD) : (Wout1 m c main_v8 : Cert.Spec.Mat 50000 128) = kvFeat1 m c :=
  ((Wout1_arr m c 3).trans (layerOut1 (Vin1 m) c)).trans
    (kvLayer_of_parts ((keptAt1_v6 m c).trans (kvGath0 m c)) ((keptAt1_v5 m c).trans (kvDst_eq m c)) (kvBias1 m c))

theorem kvGath2 (c : Dev nD) : (Wout2 m c main_v9 : Cert.Spec.Mat 640000 128)
    = Cert.Spec.toMat (Cert.Spec.carried (Cert.Spec.lin (kvFeat1 m c) (m ((c : Thread nD τ).loc main_arg4))) (kvSrc m c)) :=
  ((Wout2_arr m c 3).trans (gathered2 (Vin2 m) c)).trans
    (kvCarried_congr ((keptAt2_v8 m c).trans (kvLay1 m c)) (keptAt2_arg4 m c) ((keptAt2_v2 m c).trans (kvSrc_eq m c)))

theorem kvLay3 (c : Dev nD) : (Wout3 m c main_v11 : Cert.Spec.Mat 50000 128) = kvFeat2 m c :=
  ((Wout3_arr m c 3).trans (layerOut3 (Vin3 m) c)).trans
    (kvLayer_of_parts ((keptAt3_v9 m c).trans (kvGath2 m c)) ((keptAt3_v5 m c).trans (kvDst_eq m c)) (kvBias3 m c))

theorem kvGath4 (c : Dev nD) : (Wout4 m c main_v12 : Cert.Spec.Mat 640000 128)
    = Cert.Spec.toMat (Cert.Spec.carried (Cert.Spec.lin (kvFeat2 m c) (m ((c : Thread nD τ).loc main_arg6))) (kvSrc m c)) :=
  ((Wout4_arr m c 3).trans (gathered4 (Vin4 m) c)).trans
    (kvCarried_congr ((keptAt4_v11 m c).trans (kvLay3 m c)) (keptAt4_arg6 m c) ((keptAt4_v2 m c).trans (kvSrc_eq m c)))

theorem kvLay5 (c : Dev nD) : (Wout5 m c main_v14 : Cert.Spec.Mat 50000 128) = kvFeat3 m c :=
  ((Wout5_arr m c 3).trans (layerOut5 (Vin5 m) c)).trans
    (kvLayer_of_parts ((keptAt5_v12 m c).trans (kvGath4 m c)) ((keptAt5_v5 m c).trans (kvDst_eq m c)) (kvBias5 m c))

theorem kvGath6 (c : Dev nD) : (Wout6 m c main_v15 : Cert.Spec.Mat 640000 128)
    = Cert.Spec.toMat (Cert.Spec.carried (Cert.Spec.lin (kvFeat3 m c) (m ((c : Thread nD τ).loc main_arg8))) (kvSrc m c)) :=
  ((Wout6_arr m c 3).trans (gathered6 (Vin6 m) c)).trans
    (kvCarried_congr ((keptAt6_v14 m c).trans (kvLay5 m c)) (keptAt6_arg8 m c) ((keptAt6_v2 m c).trans (kvSrc_eq m c)))

theorem kvLay7 (c : Dev nD) : (Wout7 m c main_v17 : Cert.Spec.Mat 50000 128) = feat4 m c :=
  ((Wout7_arr m c 3).trans (layerOut7 (Vin7 m) c)).trans
    ((kvLayer_of_parts ((keptAt7_v15 m c).trans (kvGath6 m c)) ((keptAt7_v5 m c).trans (kvDst_eq m c)) (kvBias7 m c)).trans (kvFeat4 m c).symm)

theorem result_feat (c : Dev nD) : Wout8 m c main_v17 = feat4 m c :=
  (keptEnd_v17 m c).trans (kvLay7 m c)

theorem result_scores (c : Dev nD) :
    Wout8 m c main_v19_0 = Cert.Spec.scores (feat4 m c) (m ((c : Thread nD τ).loc main_arg10)) (Cert.Spec.vec (m ((c : Thread nD τ).loc main_arg11))) :=
  ((Wout8_arr m c 3).trans (scores8 (Vin8 m) c)).trans
    (kvHead_congr Cert.Spec.scores ((keptAt8_v17 m c).trans (kvLay7 m c)) (keptAt8_arg10 m c) (kvBias8 m c))

theorem result_probs (c : Dev nD) :
    Wout8 m c main_v19_1 = Cert.Spec.probs (feat4 m c) (m ((c : Thread nD τ).loc main_arg10)) (Cert.Spec.vec (m ((c : Thread nD τ).loc main_arg11))) :=
  ((Wout8_arr m c 4).trans (probs8 (Vin8 m) c)).trans
    (kvHead_congr Cert.Spec.probs ((keptAt8_v17 m c).trans (kvLay7 m c)) (keptAt8_arg10 m c) (kvBias8 m c))

end Cert.KernelIdeal.Hand

end
-- ==== Proof.PreRange.lean ====
import proofs.«422636_j31413390803462_1_alg».proof.Pre_finite_inputs
import Idealize.ShloMosaic.Lib.ReduceAll
import Idealize.ShloMosaic.Lib.ValueIdx
import Idealize.ShloMosaic.Lib.Pipeline.Value

noncomputable section

namespace Cert.PreRange

open Idealize.ShloMosaic Idealize.ShloMosaic.ValueIdx
open Cert.Pre_finite_inputs

variable [Cert.Pre_finite_inputs.Facts]

instance scalarIdx_subsingleton : Subsingleton S_.Idx := ⟨fun a b => funext fun d => d.elim0⟩

def srcRow (edges : IVec S2x640000 32) : IVec S640000 32 :=
  shapeCast S640000 (extractStridedSlice S1x640000 ![0, 0] edges Facts.slices_S2x640000_S1x640000_0_0)
    Facts.shapeCasts_S1x640000_S640000

theorem srcRow_apply (edges : IVec S2x640000 32) (e : Fin 640000) :
    srcRow edges (ix1 e) = edges (ix2 (0 : Fin 2) e) := by
  unfold srcRow
  refine (shapeCast_apply _ Facts.shapeCasts_S1x640000_S640000 (ix1 e) (ix2 (0 : Fin 1) e) ?_).trans ?_
  · rw [Shape.rowMajor_val_two, Shape.rowMajor_val_one]
    show (0 : Nat) * 640000 + e.val = e.val
    omega
  · refine extractStridedSlice_apply _ edges Facts.slices_S2x640000_S1x640000_0_0 (ix2 (0 : Fin 1) e)
      (ix2 (0 : Fin 2) e) (fun a => ?_)
    match a with
    | ⟨0, _⟩ => rfl
    | ⟨1, _⟩ => show e.val = 0 + e.val; omega

theorem fn_eq_last_part {F : FTy → Type} [FloatOps F]
    (a0 : FVec F S50000x128 .f32) (a1 : IVec S2x640000 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x40 .f32) (a11 : FVec F S40 .f32) :
    ∃ (before : IVec S_ 1) (x y : FVec F S40 .f32),
      fn (F := F) a0 a1 a2 a3 a4 a5 a6 a7 a8 a9 a10 a11 = fn_part3 (F := F) a1 before x y :=
  ⟨_, _, _, rfl⟩

theorem last_part_decode {F : FTy → Type} [FloatOps F] (edges : IVec S2x640000 32) (before : IVec S_ 1)
    (x y : FVec F S40 .f32) (h : fn_part3 (F := F) edges before x y ix0 = 1#1) (e : Fin 640000) :
    IntOp.cmpi .sge (srcRow edges (ix1 e)) 0#32 = 1#1 ∧ IntOp.cmpi .slt (srcRow edges (ix1 e)) 50000#32 = 1#1 := by
  unfold fn_part3 at h
  dsimp only at h
  obtain ⟨h1, hlt⟩ := IntOp.andi_eq_one.1 h
  obtain ⟨-, hge⟩ := IntOp.andi_eq_one.1 h1
  exact ⟨Host.reduce_andi_all _ _ _ _ ix0 hge (ix1 e), Host.reduce_andi_all _ _ _ _ ix0 hlt (ix1 e)⟩

theorem src_in_range {F : FTy → Type} [FloatOps F]
    (a0 : FVec F S50000x128 .f32) (a1 : IVec S2x640000 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x40 .f32) (a11 : FVec F S40 .f32)
    (h : fn (F := F) a0 a1 a2 a3 a4 a5 a6 a7 a8 a9 a10 a11 = (fun _ => 1#1)) :
    ∀ e : Fin 640000, 0 ≤ (a1 (ix2 (0 : Fin 2) e)).toInt ∧ (a1 (ix2 (0 : Fin 2) e)).toInt < 50000 := by
  intro e
  obtain ⟨before, x, y, hfn⟩ := fn_eq_last_part (F := F) a0 a1 a2 a3 a4 a5 a6 a7 a8 a9 a10 a11
  have h0 : fn_part3 (F := F) a1 before x y ix0 = 1#1 := by rw [← hfn, h]
  obtain ⟨hge, hlt⟩ := last_part_decode a1 before x y h0 e
  rw [srcRow_apply] at hge hlt
  rw [IntOp.cmpi_sge] at hge
  rw [IntOp.cmpi_slt] at hlt
  have z0 : (0#32 : BitVec 32).toInt = 0 := by decide
  have z1 : (50000#32 : BitVec 32).toInt = 50000 := by decide
  rw [z0] at hge
  rw [z1] at hlt
  exact ⟨hge, hlt⟩

theorem src_is_node {F : FTy → Type} [FloatOps F]
    (a0 : FVec F S50000x128 .f32) (a1 : IVec S2x640000 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x40 .f32) (a11 : FVec F S40 .f32)
    (h : fn (F := F) a0 a1 a2 a3 a4 a5 a6 a7 a8 a9 a10 a11 = (fun _ => 1#1)) :
    ∀ e : Fin 640000, ∃ n : Fin 50000, (a1 (ix2 (0 : Fin 2) e)).toInt = (n.val : Int) := by
  intro e
  obtain ⟨h0, h1⟩ := src_in_range (F := F) a0 a1 a2 a3 a4 a5 a6 a7 a8 a9 a10 a11 h e
  refine ⟨⟨(a1 (ix2 (0 : Fin 2) e)).toInt.toNat, by omega⟩, ?_⟩
  show _ = ((a1 (ix2 (0 : Fin 2) e)).toInt.toNat : Int)
  omega

end Cert.PreRange

end
-- ==== Proof.lean ====
/-
  Kernel and reference are a four-layer graph network, a linear head and a softmax. In a layer h = x · W, edge e carries
  row src(e) of h, node n receives the sum of what the edges with target n carry, the bias is added, the row is divided by
  the larger of its norm and a small constant, and negative entries become zero. The kernel takes "row src(e)" and "the
  sum over the edges with target n" as products with one-hot matrices, tile by tile; over the extended reals such a
  product is the sum of the rows the index word names. The two sides agree where every source word names a node.
-/
import proofs.«422636_j31413390803462_1_alg».proof.Defs
import proofs.«422636_j31413390803462_1_alg».proof.Proof.Gen.Kernel
import proofs.«422636_j31413390803462_1_alg».proof.Proof.Gen.KernelIdeal
import proofs.«422636_j31413390803462_1_alg».proof.Proof.Gen.ReferenceIdeal
import proofs.«422636_j31413390803462_1_alg».proof.Proof.Gen.Pre_finite_inputs
import proofs.«422636_j31413390803462_1_alg».proof.Proof.Ref.Run
import proofs.«422636_j31413390803462_1_alg».proof.Proof.KB.Frame
import proofs.«422636_j31413390803462_1_alg».proof.Proof.KI.Frame
import proofs.«422636_j31413390803462_1_alg».proof.Proof.KI.KValue
import proofs.«422636_j31413390803462_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.Hand.run m ρ)

theorem preserves : Cert.preserves_Kernel_KernelIdeal := trivial

-- both runs end with the specification's scores, softmax and fourth-layer features of arguments that agree
theorem algebraic : Cert.algebraic_KernelIdeal_ReferenceIdeal := by
  intro m ρ m' ρ' hpre hagree
  refine ⟨fun c => Cert.Spec.scores (Cert.KernelIdeal.Hand.feat4 m c) (m ((c.tc : Thread Cert.KernelIdeal.nD Cert.KernelIdeal.τ).loc Cert.KernelIdeal.main_arg10))
        (Cert.Spec.vec (m ((c.tc : Thread Cert.KernelIdeal.nD Cert.KernelIdeal.τ).loc Cert.KernelIdeal.main_arg11))),
      fun c => Cert.Spec.probs (Cert.KernelIdeal.Hand.feat4 m c) (m ((c.tc : Thread Cert.KernelIdeal.nD Cert.KernelIdeal.τ).loc Cert.KernelIdeal.main_arg10))
        (Cert.Spec.vec (m ((c.tc : Thread Cert.KernelIdeal.nD Cert.KernelIdeal.τ).loc Cert.KernelIdeal.main_arg11))),
      fun c => Cert.KernelIdeal.Hand.feat4 m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v19_0 (by decide))).trans (Cert.KernelIdeal.Hand.result_scores m c),
      (h c _ (Cert.KernelIdeal.Hand.mem_uc Cert.KernelIdeal.main_v19_1 (by decide))).trans (Cert.KernelIdeal.Hand.result_probs m c),
      (h c _ (Cert.KernelIdeal.Hand.mem_uc Cert.KernelIdeal.main_v17 (by decide))).trans (Cert.KernelIdeal.Hand.result_feat m c),
      (h c _ (Cert.KernelIdeal.Hand.mem_uc Cert.KernelIdeal.main_arg0 (by decide))).trans (Cert.KernelIdeal.Hand.arg_kept0 m c),
      (h c _ (Cert.KernelIdeal.Hand.mem_uc Cert.KernelIdeal.main_arg1 (by decide))).trans (Cert.KernelIdeal.Hand.arg_kept1 m c),
      (h c _ (Cert.KernelIdeal.Hand.mem_uc Cert.KernelIdeal.main_arg2 (by decide))).trans (Cert.KernelIdeal.Hand.arg_kept2 m c),
      (h c _ (Cert.KernelIdeal.Hand.mem_uc Cert.KernelIdeal.main_arg3 (by decide))).trans (Cert.KernelIdeal.Hand.arg_kept3 m c),
      (h c _ (Cert.KernelIdeal.Hand.mem_uc Cert.KernelIdeal.main_arg4 (by decide))).trans (Cert.KernelIdeal.Hand.arg_kept4 m c),
      (h c _ (Cert.KernelIdeal.Hand.mem_uc Cert.KernelIdeal.main_arg5 (by decide))).trans (Cert.KernelIdeal.Hand.arg_kept5 m c),
      (h c _ (Cert.KernelIdeal.Hand.mem_uc Cert.KernelIdeal.main_arg6 (by decide))).trans (Cert.KernelIdeal.Hand.arg_kept6 m c),
      (h c _ (Cert.KernelIdeal.Hand.mem_uc Cert.KernelIdeal.main_arg7 (by decide))).trans (Cert.KernelIdeal.Hand.arg_kept7 m c),
      (h c _ (Cert.KernelIdeal.Hand.mem_uc Cert.KernelIdeal.main_arg8 (by decide))).trans (Cert.KernelIdeal.Hand.arg_kept8 m c),
      (h c _ (Cert.KernelIdeal.Hand.mem_uc Cert.KernelIdeal.main_arg9 (by decide))).trans (Cert.KernelIdeal.Hand.arg_kept9 m c),
      (h c _ (Cert.KernelIdeal.Hand.mem_uc Cert.KernelIdeal.main_arg10 (by decide))).trans (Cert.KernelIdeal.Hand.arg_kept10 m c),
      (h c _ (Cert.KernelIdeal.Hand.mem_uc Cert.KernelIdeal.main_arg11 (by decide))).trans (Cert.KernelIdeal.Hand.arg_kept11 m c)⟩
  · refine (θ_run Cert.ReferenceIdeal.defs _ _).mono (fun r h c => ?_) (Cert.ReferenceIdeal.Hand.run m' ρ')
    obtain ⟨e0, e1, e2, e3, e4, e5, e6, e7, e8, e9, e10, e11⟩ := hagree c
    have hs : Cert.ReferenceIdeal.Hand.SrcNamesNodes m' c := by
      intro e
      rw [e1]
      exact Cert.PreRange.src_is_node (F := Ideal) _ _ _ _ _ _ _ _ _ _ _ _ (hpre c) e
    have hfeat : Cert.ReferenceIdeal.Hand.feat4 m' c = Cert.KernelIdeal.Hand.feat4 m c := by
      unfold Cert.ReferenceIdeal.Hand.feat4 Cert.KernelIdeal.Hand.feat4
      rw [e0, e1, e2, e3, e4, e5, e6, e7, e8, e9]
    refine ⟨(h c).1.trans ?_, (h c).2.1.trans ?_, (h c).2.2.1.trans ?_, (h c).2.2.2⟩
    · rw [Cert.ReferenceIdeal.Hand.refScores_feat4 m' c hs, hfeat, e10, e11]
    · rw [Cert.ReferenceIdeal.Hand.refProbs_feat4 m' c hs, hfeat, e10, e11]
    · rw [Cert.ReferenceIdeal.Hand.refFeat4_eq m' c hs, hfeat]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
